-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S8x512 : Shape := ⟨2, ![8, 512]⟩
abbrev S1024x20002 : Shape := ⟨2, ![1024, 20002]⟩
abbrev S1024x256 : Shape := ⟨2, ![1024, 256]⟩
abbrev S256x20000 : Shape := ⟨2, ![256, 20000]⟩
abbrev S1024x64 : Shape := ⟨2, ![1024, 64]⟩
abbrev S64x20000 : Shape := ⟨2, ![64, 20000]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S1024x20002 : S_.BroadcastsInDim S1024x20002 (![] : Fin 0 → Fin S1024x20002.rank)
  reducesTo_S1024x20002_S_d0_1 : S1024x20002.ReducesTo [0, 1] S_
  bcast_S_S1024x256 : S_.BroadcastsInDim S1024x256 (![] : Fin 0 → Fin S1024x256.rank)
  reducesTo_S1024x256_S_d0_1 : S1024x256.ReducesTo [0, 1] S_
  bcast_S_S256x20000 : S_.BroadcastsInDim S256x20000 (![] : Fin 0 → Fin S256x20000.rank)
  reducesTo_S256x20000_S_d0_1 : S256x20000.ReducesTo [0, 1] S_
  bcast_S_S1024x64 : S_.BroadcastsInDim S1024x64 (![] : Fin 0 → Fin S1024x64.rank)
  reducesTo_S1024x64_S_d0_1 : S1024x64.ReducesTo [0, 1] S_
  bcast_S_S64x20000 : S_.BroadcastsInDim S64x20000 (![] : Fin 0 → Fin S64x20000.rank)
  reducesTo_S64x20000_S_d0_1 : S64x20000.ReducesTo [0, 1] S_
  bcast_S_S8x512 : S_.BroadcastsInDim S8x512 (![] : Fin 0 → Fin S8x512.rank)
  reducesTo_S8x512_S_d0_1 : S8x512.ReducesTo [0, 1] S_

variable [Facts]

def fn_part2 {F : FTy → Type} [FloatOps F] (main_v28 : IVec S_ 1) (main_v33 : IVec S8x512 1) : IVec S_ 1 :=
  let main_c_12 : IVec S_ 1 := constantI S_ 1 1#1
  let main_v34 : IVec S_ 1 := (fun x v => Host.reduce IntOp.andi x v reducesTo_S8x512_S_d0_1 h_S_) main_v33 main_c_12
  let main_v35 : IVec S_ 1 := andi main_v28 main_v34
  main_v35

def fn_part1 {F : FTy → Type} [FloatOps F] (main_arg1 : IVec S8x512 32) (main_arg5 : FVec F S1024x64 .f32) (main_arg6 : FVec F S64x20000 .f32) (main_v13 : IVec S_ 1) (main_v16 : IVec S256x20000 1) : IVec S_ 1 :=
  let main_c_5 : IVec S_ 1 := constantI S_ 1 1#1
  let main_v17 : IVec S_ 1 := (fun x v => Host.reduce IntOp.andi x v reducesTo_S256x20000_S_d0_1 h_S_) main_v16 main_c_5
  let main_v18 : IVec S_ 1 := andi main_v13 main_v17
  let main_v19 : FVec F S1024x64 .f32 := Host.absf main_arg5
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  let main_v24 : FVec F S64x20000 .f32 := Host.absf main_arg6
  let main_cst_8 : FVec F S_ .f32 := constant S_ .f32 0x7F800000#32
  let main_v25 : FVec F S64x20000 .f32 := broadcastInDim S64x20000 ![] bcast_S_S64x20000 main_cst_8
  let main_v26 : IVec S64x20000 1 := cmpf .olt main_v24 main_v25
  let main_c_9 : IVec S_ 1 := constantI S_ 1 1#1
  let main_v27 : IVec S_ 1 := (fun x v => Host.reduce IntOp.andi x v reducesTo_S64x20000_S_d0_1 h_S_) main_v26 main_c_9
  let main_v28 : IVec S_ 1 := andi main_v23 main_v27
  let main_c_10 : IVec S_ 32 := constantI S_ 32 0#32
  let main_v29 : IVec S8x512 32 := broadcastInDim S8x512 ![] bcast_S_S8x512 main_c_10
  let main_v30 : IVec S8x512 1 := cmpi .sge main_arg1 main_v29
  let main_c_11 : IVec S_ 32 := constantI S_ 32 60000#32
  let main_v31 : IVec S8x512 32 := broadcastInDim S8x512 ![] bcast_S_S8x512 main_c_11
  let main_v32 : IVec S8x512 1 := cmpi .slt main_arg1 main_v31
  let main_v33 : IVec S8x512 1 := andi main_v30 main_v32
  fn_part2 (F := F) main_v28 main_v33

def fn {F : FTy → Type} [FloatOps F] (main_arg0 : FVec F S8x512x1024 .f32) (main_arg1 : IVec S8x512 32) (main_arg2 : FVec F S1024x20002 .f32) (main_arg3 : FVec F S1024x256 .f32) (main_arg4 : FVec F S256x20000 .f32) (main_arg5 : FVec F S1024x64 .f32) (main_arg6 : FVec F S64x20000 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S1024x20002 .f32 := Host.absf main_arg2
  let main_cst_0 : FVec F S_ .f32 := constant S_ .f32 0x7F800000#32
  let main_v5 : FVec F S1024x20002 .f32 := broadcastInDim S1024x20002 ![] bcast_S_S1024x20002 main_cst_0
  let main_v6 : IVec S1024x20002 1 := cmpf .olt main_v4 main_v5
  let main_c_1 : IVec S_ 1 := constantI S_ 1 1#1
  let main_v7 : IVec S_ 1 := (fun x v => Host.reduce IntOp.andi x v reducesTo_S1024x20002_S_d0_1 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256x20000 .f32 := Host.absf main_arg4
  let main_cst_4 : FVec F S_ .f32 := constant S_ .f32 0x7F800000#32
  let main_v15 : FVec F S256x20000 .f32 := broadcastInDim S256x20000 ![] bcast_S_S256x20000 main_cst_4
  let main_v16 : IVec S256x20000 1 := cmpf .olt main_v14 main_v15
  fn_part1 (F := F) main_arg1 main_arg5 main_arg6 main_v13 main_v16
-- ==== Kernel.lean ====
abbrev S8x512x1024 : Shape := ⟨3, ![8, 512, 1024]⟩
abbrev S8x512 : Shape := ⟨2, ![8, 512]⟩
abbrev S1024x20002 : Shape := ⟨2, ![1024, 20002]⟩
abbrev S1024x256 : Shape := ⟨2, ![1024, 256]⟩
abbrev S256x20000 : Shape := ⟨2, ![256, 20000]⟩
abbrev S1024x64 : Shape := ⟨2, ![1024, 64]⟩
abbrev S64x20000 : Shape := ⟨2, ![64, 20000]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S4096x256 : Shape := ⟨2, ![4096, 256]⟩
abbrev S2048x1024 : Shape := ⟨2, ![2048, 1024]⟩
abbrev S2048x256 : Shape := ⟨2, ![2048, 256]⟩
abbrev S4096x64 : Shape := ⟨2, ![4096, 64]⟩
abbrev S2048x64 : Shape := ⟨2, ![2048, 64]⟩
abbrev S256x512 : Shape := ⟨2, ![256, 512]⟩
abbrev S2048x1 : Shape := ⟨2, ![2048, 1]⟩
abbrev S2048x512 : Shape := ⟨2, ![2048, 512]⟩
abbrev S2048 : Shape := ⟨1, ![2048]⟩
abbrev S64x512 : Shape := ⟨2, ![64, 512]⟩
abbrev S1024x512 : Shape := ⟨2, ![1024, 512]⟩
abbrev S12288 : Shape := ⟨1, ![12288]⟩

abbrev nBuf : Space → Nat
  | .hbm => 75
  | .vmem => 47
  | .smem => 0
  | _ => 0

abbrev bufTy : (tb : Table) → Fin (tcTables nBuf tb) → BufTy
  | .hbm, ⟨0, _⟩ => ⟨S8x512x1024, .f32⟩
  | .hbm, ⟨1, _⟩ => ⟨S8x512, .i32⟩
  | .hbm, ⟨2, _⟩ => ⟨S1024x20002, .f32⟩
  | .hbm, ⟨3, _⟩ => ⟨S1024x256, .f32⟩
  | .hbm, ⟨4, _⟩ => ⟨S256x20000, .f32⟩
  | .hbm, ⟨5, _⟩ => ⟨S1024x64, .f32⟩
  | .hbm, ⟨6, _⟩ => ⟨S64x20000, .f32⟩
  | .hbm, ⟨7, _⟩ => ⟨S4096x1024, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i1⟩
  | .hbm, ⟨23, _⟩ => ⟨S_, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096x1024, .bf16⟩
  | .hbm, ⟨54, _⟩ => ⟨S1024x20002, .bf16⟩
  | .hbm, ⟨55, _⟩ => ⟨S1024x256, .bf16⟩
  | .hbm, ⟨56, _⟩ => ⟨S256x20000, .bf16⟩
  | .hbm, ⟨57, _⟩ => ⟨S1024x64, .bf16⟩
  | .hbm, ⟨58, _⟩ => ⟨S64x20000, .bf16⟩
  | .hbm, ⟨59, _⟩ => ⟨S4096x1, .i32⟩
  | .hbm, ⟨60, _⟩ => ⟨S4096x1, .i32⟩
  | .hbm, ⟨61, _⟩ => ⟨S4096x1, .i32⟩
  | .hbm, ⟨62, _⟩ => ⟨S4096x1, .i1⟩
  | .hbm, ⟨63, _⟩ => ⟨S4096x1, .f32⟩
  | .hbm, ⟨64, _⟩ => ⟨S4096x1, .i1⟩
  | .hbm, ⟨65, _⟩ => ⟨S4096x1, .f32⟩
  | .hbm, ⟨66, _⟩ => ⟨S4096x256, .bf16⟩
  | .hbm, ⟨67, _⟩ => ⟨S4096x64, .bf16⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S12288, .f32⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S2048x256, .bf16⟩
  | .local _ .vmem, ⟨4, _⟩ => ⟨S2048x256, .bf16⟩
  | .local _ .vmem, ⟨5, _⟩ => ⟨S2048x1024, .bf16⟩
  | .local _ .vmem, ⟨6, _⟩ => ⟨S2048x1024, .bf16⟩
  | .local _ .vmem, ⟨7, _⟩ => ⟨S1024x64, .bf16⟩
  | .local _ .vmem, ⟨8, _⟩ => ⟨S2048x64, .bf16⟩
  | .local _ .vmem, ⟨9, _⟩ => ⟨S2048x64, .bf16⟩
  | .local _ .vmem, ⟨10, _⟩ => ⟨S2048x256, .bf16⟩
  | .local _ .vmem, ⟨11, _⟩ => ⟨S2048x256, .bf16⟩
  | .local _ .vmem, ⟨12, _⟩ => ⟨S256x512, .bf16⟩
  | .local _ .vmem, ⟨13, _⟩ => ⟨S256x512, .bf16⟩
  | .local _ .vmem, ⟨14, _⟩ => ⟨S2048x1, .i32⟩
  | .local _ .vmem, ⟨15, _⟩ => ⟨S2048x1, .i32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | .local _ .vmem, ⟨20, _⟩ => ⟨S2048x1, .f32⟩
  | .local _ .vmem, ⟨21, _⟩ => ⟨S2048x1, .f32⟩
  | .local _ .vmem, ⟨22, _⟩ => ⟨S2048x1, .f32⟩
  | .local _ .vmem, ⟨23, _⟩ => ⟨S2048x64, .bf16⟩
  | .local _ .vmem, ⟨24, _⟩ => ⟨S2048x64, .bf16⟩
  | .local _ .vmem, ⟨25, _⟩ => ⟨S64x512, .bf16⟩
  | .local _ .vmem, ⟨26, _⟩ => ⟨S64x512, .bf16⟩
  | .local _ .vmem, ⟨27, _⟩ => ⟨S2048x1, .i32⟩
  | .local _ .vmem, ⟨28, _⟩ => ⟨S2048x1, .i32⟩
  | .local _ .vmem, ⟨29, _⟩ => ⟨S2048x1, .f32⟩
  | .local _ .vmem, ⟨30, _⟩ => ⟨S2048x1, .f32⟩
  | .local _ .vmem, ⟨31, _⟩ => ⟨S2048x1, .f32⟩
  | .local _ .vmem, ⟨32, _⟩ => ⟨S2048x1, .f32⟩
  | .local _ .vmem, ⟨33, _⟩ => ⟨S2048x1, .f32⟩
  | .local _ .vmem, ⟨34, _⟩ => ⟨S2048x1, .f32⟩
  | .local _ .vmem, ⟨35, _⟩ => ⟨S2048x1, .f32⟩
  | .local _ .vmem, ⟨36, _⟩ => ⟨S2048x1024, .bf16⟩
  | .local _ .vmem, ⟨37, _⟩ => ⟨S2048x1024, .bf16⟩
  | .local _ .vmem, ⟨38, _⟩ => ⟨S1024x512, .bf16⟩
  | .local _ .vmem, ⟨39, _⟩ => ⟨S1024x512, .bf16⟩
  | .local _ .vmem, ⟨40, _⟩ => ⟨S2048x1, .i32⟩
  | .local _ .vmem, ⟨41, _⟩ => ⟨S2048x1, .i32⟩
  | .local _ .vmem, ⟨42, _⟩ => ⟨S2048x1, .f32⟩
  | .local _ .vmem, ⟨43, _⟩ => ⟨S2048x1, .f32⟩
  | .local _ .vmem, ⟨44, _⟩ => ⟨S2048x1, .f32⟩
  | .local _ .vmem, ⟨45, _⟩ => ⟨S2048x1, .f32⟩
  | .local _ .vmem, ⟨46, _⟩ => ⟨S2048x1, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_v13 : Ref sig .tc := ⟨.hbm, 30, rfl⟩
abbrev main_c_5 : Ref sig .tc := ⟨.hbm, 31, rfl⟩
abbrev main_v14 : Ref sig .tc := ⟨.hbm, 32, rfl⟩
abbrev main_v15 : Ref sig .tc := ⟨.hbm, 33, rfl⟩
abbrev main_c_6 : Ref sig .tc := ⟨.hbm, 34, rfl⟩
abbrev main_c_7 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v16 : Ref sig .tc := ⟨.hbm, 41, rfl⟩
abbrev main_c_8 : Ref sig .tc := ⟨.hbm, 42, rfl⟩
abbrev main_v17 : Ref sig .tc := ⟨.hbm, 43, rfl⟩
abbrev main_v18 : Ref sig .tc := ⟨.hbm, 44, rfl⟩
abbrev main_c_9 : Ref sig .tc := ⟨.hbm, 45, rfl⟩
abbrev main_c_10 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc2_scratch1 : Ref sig .tc := ⟨.vmem, 21, rfl⟩
abbrev cc2_scratch2 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_scratch0 : Ref sig .tc := ⟨.vmem, 33, rfl⟩
abbrev cc3_scratch1 : Ref sig .tc := ⟨.vmem, 34, rfl⟩
abbrev cc3_scratch2 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc4_scratch1 : Ref sig .tc := ⟨.vmem, 45, rfl⟩
abbrev cc4_scratch2 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 40], ![false, false]⟩

def k2_cond2 (i : grid2.Coords) : BitVec 1 :=
  let arg1 : BitVec 32 := BitVec.ofNat 32 (i 1).val
  let c39_i32 : BitVec 32 := 39#32
  let v50 : BitVec 1 := Scalar.cmpi .eq arg1 c39_i32
  let v51 : BitVec 32 := Scalar.extui v50
  let c0_i32_25 : BitVec 32 := 0#32
  let v52 : BitVec 1 := Scalar.cmpi .ne v51 c0_i32_25
  v52

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![2, 40], ![false, false]⟩

def k3_cond2 (i : grid3.Coords) : BitVec 1 :=
  let arg1 : BitVec 32 := BitVec.ofNat 32 (i 1).val
  let c39_i32 : BitVec 32 := 39#32
  let v50 : BitVec 1 := Scalar.cmpi .eq arg1 c39_i32
  let v51 : BitVec 32 := Scalar.extui v50
  let c0_i32_25 : BitVec 32 := 0#32
  let v52 : BitVec 1 := Scalar.cmpi .ne v51 c0_i32_25
  v52

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S64x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2048x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![2, 40], ![false, false]⟩

def k4_cond2 (i : grid4.Coords) : BitVec 1 :=
  let arg1 : BitVec 32 := BitVec.ofNat 32 (i 1).val
  let c39_i32 : BitVec 32 := 39#32
  let v50 : BitVec 1 := Scalar.cmpi .eq arg1 c39_i32
  let v51 : BitVec 32 := Scalar.extui v50
  let c0_i32_25 : BitVec 32 := 0#32
  let v52 : BitVec 1 := Scalar.cmpi .ne v51 c0_i32_25
  v52

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  shapeCasts_S8x512x1024_S4096x1024 : S8x512x1024.ShapeCasts S4096x1024
  shapeCasts_S8x512_S4096 : S8x512.ShapeCasts S4096
  bcast_S_S4096 : S_.BroadcastsInDim S4096 (![] : Fin 0 → Fin S4096.rank)
  bitsLt_bf16_f32 : FTy.bits .bf16 < FTy.bits .f32
  shapeCasts_S4096_S4096x1 : S4096.ShapeCasts S4096x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  iota_S2048x512_d1_w32 : S2048x512.Iotas .tc 32 [1]
  broadcasts_S2048x1_S2048x512 : S2048x1.Broadcasts S2048x512
  reduces_S2048x512_S2048 : S2048x512.Reduces [1] S2048
  shapeCasts_S2048_S2048x1 : S2048.ShapeCasts S2048x1
  shapeCasts_S2048x64_S2048x64 : S2048x64.ShapeCasts S2048x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S4096x1_S4096 : S4096x1.ShapeCasts S4096
  concatenates_S4096_S4096_S4096_S12288_d0 : Shape.Concatenates [S4096, S4096, S4096] S12288 0
  dot_S2048x1024_S1024x256_S2048x256_1_0_0_1_n_n_wf : DotDims.WF S2048x1024 S1024x256 S2048x256 [1] [0] [0] [1] [] []
  dot_S2048x1024_S1024x64_S2048x64_1_0_0_1_n_n_wf : DotDims.WF S2048x1024 S1024x64 S2048x64 [1] [0] [0] [1] [] []
  dot_S2048x256_S256x512_S2048x512_1_0_0_1_n_n_wf : DotDims.WF S2048x256 S256x512 S2048x512 [1] [0] [0] [1] [] []
  dot_S2048x64_S64x512_S2048x512_1_0_0_1_n_n_wf : DotDims.WF S2048x64 S64x512 S2048x512 [1] [0] [0] [1] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x256.size a
  hwx0_2 : ∀ i : grid0.Coords, EltTy.bits .bf16 = 32 ∨ (Rect.block (s := S4096x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x1024.size a
  hwx1_0 : ∀ i : grid1.Coords, EltTy.bits .bf16 = 32 ∨ (Rect.block (s := S4096x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .bf16 = 32 ∨ (Rect.block (s := S1024x64) S1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S4096x64.size a
  hwx1_2 : ∀ i : grid1.Coords, EltTy.bits .bf16 = 32 ∨ (Rect.block (s := S4096x64) S2048x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S4096x256.size a
  hwx2_0 : ∀ i : grid2.Coords, EltTy.bits .bf16 = 32 ∨ (Rect.block (s := S4096x256) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S256x512.size a < S256x20000.size a
  hwx2_1 : ∀ i : grid2.Coords, EltTy.bits .bf16 = 32 ∨ (Rect.unit (s := S256x20000) (fun a => cc2_transform_1 i a * S256x512.size a) (fun a => (Pipeline.Clip.of (cc2_transform_1 i a) (S256x512.size a) (S256x20000.size a)).extent (S256x512.size a)) fun a => Pipeline.Clip.inb (Pipeline.Clip.ok_of (hstart2_1 i a))).WholeWords (EltTy.packing .bf16)
  hwxs2_1 : ∀ i : grid2.Coords, EltTy.bits .bf16 = 32 ∨ (Rect.unit (s := S256x512) (fun _ => 0) (fun a => (Pipeline.Clip.of (cc2_transform_1 i a) (S256x512.size a) (S256x20000.size a)).extent (S256x512.size a)) fun a => (Nat.zero_add _).trans_le (Pipeline.Clip.extent_le (Pipeline.Clip.ok_of (hstart2_1 i a)))).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S4096x1.size a
  hwx2_2 : ∀ i : grid2.Coords, EltTy.bits .i32 = 32 ∨ (Rect.block (s := S4096x1) S2048x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S4096x1.size a
  hwx2_3 : ∀ i : grid2.Coords, EltTy.bits .f32 = 32 ∨ (Rect.block (s := S4096x1) S2048x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S4096x1.size a
  hwx2_4 : ∀ i : grid2.Coords, EltTy.bits .f32 = 32 ∨ (Rect.block (s := S4096x1) S2048x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S4096x64.size a
  hwx3_0 : ∀ i : grid3.Coords, EltTy.bits .bf16 = 32 ∨ (Rect.block (s := S4096x64) S2048x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S64x512.size a < S64x20000.size a
  hwx3_1 : ∀ i : grid3.Coords, EltTy.bits .bf16 = 32 ∨ (Rect.unit (s := S64x20000) (fun a => cc3_transform_1 i a * S64x512.size a) (fun a => (Pipeline.Clip.of (cc3_transform_1 i a) (S64x512.size a) (S64x20000.size a)).extent (S64x512.size a)) fun a => Pipeline.Clip.inb (Pipeline.Clip.ok_of (hstart3_1 i a))).WholeWords (EltTy.packing .bf16)
  hwxs3_1 : ∀ i : grid3.Coords, EltTy.bits .bf16 = 32 ∨ (Rect.unit (s := S64x512) (fun _ => 0) (fun a => (Pipeline.Clip.of (cc3_transform_1 i a) (S64x512.size a) (S64x20000.size a)).extent (S64x512.size a)) fun a => (Nat.zero_add _).trans_le (Pipeline.Clip.extent_le (Pipeline.Clip.ok_of (hstart3_1 i a)))).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S4096x1.size a
  hwx3_2 : ∀ i : grid3.Coords, EltTy.bits .i32 = 32 ∨ (Rect.block (s := S4096x1) S2048x1.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1.size a ≤ S4096x1.size a
  hwx3_3 : ∀ i : grid3.Coords, EltTy.bits .f32 = 32 ∨ (Rect.block (s := S4096x1) S2048x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x1.size a ≤ S4096x1.size a
  hwx3_4 : ∀ i : grid3.Coords, EltTy.bits .f32 = 32 ∨ (Rect.block (s := S4096x1) S2048x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S4096x1024.size a
  hwx4_0 : ∀ i : grid4.Coords, EltTy.bits .bf16 = 32 ∨ (Rect.block (s := S4096x1024) S2048x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S1024x512.size a < S1024x20002.size a
  hwx4_1 : ∀ i : grid4.Coords, EltTy.bits .bf16 = 32 ∨ (Rect.unit (s := S1024x20002) (fun a => cc4_transform_1 i a * S1024x512.size a) (fun a => (Pipeline.Clip.of (cc4_transform_1 i a) (S1024x512.size a) (S1024x20002.size a)).extent (S1024x512.size a)) fun a => Pipeline.Clip.inb (Pipeline.Clip.ok_of (hstart4_1 i a))).WholeWords (EltTy.packing .bf16)
  hwxs4_1 : ∀ i : grid4.Coords, EltTy.bits .bf16 = 32 ∨ (Rect.unit (s := S1024x512) (fun _ => 0) (fun a => (Pipeline.Clip.of (cc4_transform_1 i a) (S1024x512.size a) (S1024x20002.size a)).extent (S1024x512.size a)) fun a => (Nat.zero_add _).trans_le (Pipeline.Clip.extent_le (Pipeline.Clip.ok_of (hstart4_1 i a)))).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S4096x1.size a
  hwx4_2 : ∀ i : grid4.Coords, EltTy.bits .i32 = 32 ∨ (Rect.block (s := S4096x1) S2048x1.size (cc4_transform_2 i) (hinb4_2 i)).WholeWords (EltTy.packing .i32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x1.size a ≤ S4096x1.size a
  hwx4_3 : ∀ i : grid4.Coords, EltTy.bits .f32 = 32 ∨ (Rect.block (s := S4096x1) S2048x1.size (cc4_transform_3 i) (hinb4_3 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v20) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v33) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_v23) S256x512.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v27) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35) S2048x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v34) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpecClip (Memref.whole main_v25) S64x512.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpec (Memref.whole main_v28) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v32) S2048x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v36) S2048x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v20) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpecClip (Memref.whole main_v21) S1024x512.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpec (Memref.whole main_v26) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v37) S2048x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S8x512x1024 : Shape := ⟨3, ![8, 512, 1024]⟩
abbrev S8x512 : Shape := ⟨2, ![8, 512]⟩
abbrev S1024x20002 : Shape := ⟨2, ![1024, 20002]⟩
abbrev S1024x256 : Shape := ⟨2, ![1024, 256]⟩
abbrev S256x20000 : Shape := ⟨2, ![256, 20000]⟩
abbrev S1024x64 : Shape := ⟨2, ![1024, 64]⟩
abbrev S64x20000 : Shape := ⟨2, ![64, 20000]⟩
abbrev S4096x1024 : Shape := ⟨2, ![4096, 1024]⟩
abbrev S4096 : Shape := ⟨1, ![4096]⟩
abbrev S_ : Shape := ⟨0, ![]⟩
abbrev S4096x256 : Shape := ⟨2, ![4096, 256]⟩
abbrev S4096x20000 : Shape := ⟨2, ![4096, 20000]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x64 : Shape := ⟨2, ![4096, 64]⟩
abbrev S4096x20002 : Shape := ⟨2, ![4096, 20002]⟩
abbrev S12288 : Shape := ⟨1, ![12288]⟩

abbrev nBuf : Space → Nat
  | .hbm => 187
  | .vmem => 0
  | .smem => 0
  | _ => 0

abbrev hbmTy0_0 (i : Nat) : BufTy := match i % 128 with
  | 0 => ⟨S8x512x1024, .f32⟩
  | 1 => ⟨S8x512, .i32⟩
  | 2 => ⟨S1024x20002, .f32⟩
  | 3 => ⟨S1024x256, .f32⟩
  | 4 => ⟨S256x20000, .f32⟩
  | 5 => ⟨S1024x64, .f32⟩
  | 6 => ⟨S64x20000, .f32⟩
  | 7 => ⟨S4096x1024, .f32⟩
  | 8 => ⟨S4096, .i32⟩
  | 9 => ⟨S_, .i32⟩
  | 10 => ⟨S4096, .i32⟩
  | 11 => ⟨S4096, .i1⟩
  | 12 => ⟨S_, .i32⟩
  | 13 => ⟨S4096, .i32⟩
  | 14 => ⟨S4096, .i1⟩
  | 15 => ⟨S4096, .i1⟩
  | 16 => ⟨S_, .i32⟩
  | 17 => ⟨S_, .i32⟩
  | 18 => ⟨S4096, .i32⟩
  | 19 => ⟨S4096, .i32⟩
  | 20 => ⟨S4096x256, .f32⟩
  | 21 => ⟨S4096x20000, .f32⟩
  | 22 => ⟨S_, .i32⟩
  | 23 => ⟨S4096, .i32⟩
  | 24 => ⟨S4096, .i32⟩
  | 25 => ⟨S_, .i32⟩
  | 26 => ⟨S_, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S_, .f32⟩
  | 34 => ⟨S4096, .f32⟩
  | 35 => ⟨S_, .f32⟩
  | 36 => ⟨S4096, .f32⟩
  | 37 => ⟨S4096, .f32⟩
  | 38 => ⟨S4096x1, .f32⟩
  | 39 => ⟨S4096x20000, .f32⟩
  | 40 => ⟨S4096x20000, .f32⟩
  | 41 => ⟨S4096x20000, .f32⟩
  | 42 => ⟨S_, .f32⟩
  | 43 => ⟨S4096, .f32⟩
  | 44 => ⟨S4096x1, .f32⟩
  | 45 => ⟨S4096x1, .f32⟩
  | 46 => ⟨S4096x20000, .f32⟩
  | 47 => ⟨S4096x20000, .f32⟩
  | 48 => ⟨S4096x1, .i32⟩
  | 49 => ⟨S_, .i32⟩
  | 50 => ⟨S4096x1, .i32⟩
  | 51 => ⟨S4096x1, .i1⟩
  | 52 => ⟨S_, .i32⟩
  | 53 => ⟨S4096x1, .i32⟩
  | 54 => ⟨S4096x1, .i32⟩
  | 55 => ⟨S4096x1, .i32⟩
  | 56 => ⟨S4096x1x1, .i32⟩
  | 57 => ⟨S1, .i32⟩
  | 58 => ⟨S_, .i32⟩
  | 59 => ⟨S4096x1x1, .i32⟩
  | 60 => ⟨S4096x1x1, .i1⟩
  | 61 => ⟨S1x1x1, .i32⟩
  | 62 => ⟨S4096x1x1, .i32⟩
  | 63 => ⟨S4096x1x1, .i1⟩
  | 64 => ⟨S4096x1x1, .i1⟩
  | 65 => ⟨S_, .i1⟩
  | 66 => ⟨S4096x1, .i1⟩
  | 67 => ⟨S4096x1, .f32⟩
  | 68 => ⟨S_, .f32⟩
  | 69 => ⟨S4096x1, .f32⟩
  | 70 => ⟨S4096x1, .f32⟩
  | 71 => ⟨S4096, .f32⟩
  | 72 => ⟨S4096, .f32⟩
  | 73 => ⟨S_, .f32⟩
  | 74 => ⟨S_, .f32⟩
  | 75 => ⟨S4096, .f32⟩
  | 76 => ⟨S4096, .f32⟩
  | 77 => ⟨S_, .i32⟩
  | 78 => ⟨S4096, .i32⟩
  | 79 => ⟨S4096, .i1⟩
  | 80 => ⟨S_, .i32⟩
  | 81 => ⟨S4096, .i32⟩
  | 82 => ⟨S4096, .i1⟩
  | 83 => ⟨S4096, .i1⟩
  | 84 => ⟨S_, .i32⟩
  | 85 => ⟨S_, .i32⟩
  | 86 => ⟨S4096, .i32⟩
  | 87 => ⟨S4096, .i32⟩
  | 88 => ⟨S4096x64, .f32⟩
  | 89 => ⟨S4096x20000, .f32⟩
  | 90 => ⟨S_, .i32⟩
  | 91 => ⟨S4096, .i32⟩
  | 92 => ⟨S4096, .i32⟩
  | 93 => ⟨S_, .i32⟩
  | 94 => ⟨S_, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S_, .f32⟩
  | 102 => ⟨S4096, .f32⟩
  | 103 => ⟨S_, .f32⟩
  | 104 => ⟨S4096, .f32⟩
  | 105 => ⟨S4096, .f32⟩
  | 106 => ⟨S4096x1, .f32⟩
  | 107 => ⟨S4096x20000, .f32⟩
  | 108 => ⟨S4096x20000, .f32⟩
  | 109 => ⟨S4096x20000, .f32⟩
  | 110 => ⟨S_, .f32⟩
  | 111 => ⟨S4096, .f32⟩
  | 112 => ⟨S4096x1, .f32⟩
  | 113 => ⟨S4096x1, .f32⟩
  | 114 => ⟨S4096x20000, .f32⟩
  | 115 => ⟨S4096x20000, .f32⟩
  | 116 => ⟨S4096x1, .i32⟩
  | 117 => ⟨S_, .i32⟩
  | 118 => ⟨S4096x1, .i32⟩
  | 119 => ⟨S4096x1, .i1⟩
  | 120 => ⟨S_, .i32⟩
  | 121 => ⟨S4096x1, .i32⟩
  | 122 => ⟨S4096x1, .i32⟩
  | 123 => ⟨S4096x1, .i32⟩
  | 124 => ⟨S4096x1x1, .i32⟩
  | 125 => ⟨S1, .i32⟩
  | 126 => ⟨S_, .i32⟩
  | 127 => ⟨S4096x1x1, .i32⟩
  | _ => ⟨S8x512x1024, .f32⟩

abbrev hbmTy0_1 (i : Nat) : BufTy := match i % 128 with
  | 0 => ⟨S4096x1x1, .i1⟩
  | 1 => ⟨S1x1x1, .i32⟩
  | 2 => ⟨S4096x1x1, .i32⟩
  | 3 => ⟨S4096x1x1, .i1⟩
  | 4 => ⟨S4096x1x1, .i1⟩
  | 5 => ⟨S_, .i1⟩
  | 6 => ⟨S4096x1, .i1⟩
  | 7 => ⟨S4096x1, .f32⟩
  | 8 => ⟨S_, .f32⟩
  | 9 => ⟨S4096x1, .f32⟩
  | 10 => ⟨S4096x1, .f32⟩
  | 11 => ⟨S4096, .f32⟩
  | 12 => ⟨S4096, .f32⟩
  | 13 => ⟨S_, .f32⟩
  | 14 => ⟨S_, .f32⟩
  | 15 => ⟨S4096, .f32⟩
  | 16 => ⟨S4096, .f32⟩
  | 17 => ⟨S4096x20002, .f32⟩
  | 18 => ⟨S_, .f32⟩
  | 19 => ⟨S4096, .f32⟩
  | 20 => ⟨S_, .f32⟩
  | 21 => ⟨S4096, .f32⟩
  | 22 => ⟨S4096, .f32⟩
  | 23 => ⟨S4096x1, .f32⟩
  | 24 => ⟨S4096x20002, .f32⟩
  | 25 => ⟨S4096x20002, .f32⟩
  | 26 => ⟨S4096x20002, .f32⟩
  | 27 => ⟨S_, .f32⟩
  | 28 => ⟨S4096, .f32⟩
  | 29 => ⟨S4096x1, .f32⟩
  | 30 => ⟨S4096x1, .f32⟩
  | 31 => ⟨S4096x20002, .f32⟩
  | 32 => ⟨S4096x20002, .f32⟩
  | 33 => ⟨S4096x1, .i32⟩
  | 34 => ⟨S_, .i32⟩
  | 35 => ⟨S4096x1, .i32⟩
  | 36 => ⟨S4096x1, .i1⟩
  | 37 => ⟨S_, .i32⟩
  | 38 => ⟨S4096x1, .i32⟩
  | 39 => ⟨S4096x1, .i32⟩
  | 40 => ⟨S4096x1, .i32⟩
  | 41 => ⟨S4096x1x1, .i32⟩
  | 42 => ⟨S1, .i32⟩
  | 43 => ⟨S_, .i32⟩
  | 44 => ⟨S4096x1x1, .i32⟩
  | 45 => ⟨S4096x1x1, .i1⟩
  | 46 => ⟨S1x1x1, .i32⟩
  | 47 => ⟨S4096x1x1, .i32⟩
  | 48 => ⟨S4096x1x1, .i1⟩
  | 49 => ⟨S4096x1x1, .i1⟩
  | 50 => ⟨S_, .i1⟩
  | 51 => ⟨S4096x1, .i1⟩
  | 52 => ⟨S4096x1, .f32⟩
  | 53 => ⟨S_, .f32⟩
  | 54 => ⟨S4096x1, .f32⟩
  | 55 => ⟨S4096x1, .f32⟩
  | 56 => ⟨S4096, .f32⟩
  | 57 => ⟨S4096, .f32⟩
  | 58 => ⟨S12288, .f32⟩
  | _ => ⟨S8x512x1024, .f32⟩

abbrev hbmTy (i : Nat) : BufTy := match i / 128 with
  | 0 => hbmTy0_0 i
  | 1 => hbmTy0_1 i
  | _ => ⟨S8x512x1024, .f32⟩

abbrev bufTy : (tb : Table) → Fin (tcTables nBuf tb) → BufTy
  | .hbm, ⟨i, _⟩ => hbmTy i
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_c_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v13 : Ref sig .tc := ⟨.hbm, 47, rfl⟩
abbrev main_v14 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_cst : Ref sig .tc := ⟨.hbm, 68, rfl⟩
abbrev main_call3_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_cst : Ref sig .tc := ⟨.hbm, 73, rfl⟩
abbrev main_call4_v0 : Ref sig .tc := ⟨.hbm, 74, rfl⟩
abbrev main_call4_v1 : Ref sig .tc := ⟨.hbm, 75, rfl⟩
abbrev main_v18 : Ref sig .tc := ⟨.hbm, 76, rfl⟩
abbrev main_c_5 : Ref sig .tc := ⟨.hbm, 77, rfl⟩
abbrev main_v19 : Ref sig .tc := ⟨.hbm, 78, rfl⟩
abbrev main_v20 : Ref sig .tc := ⟨.hbm, 79, rfl⟩
abbrev main_c_6 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_c_7 : Ref sig .tc := ⟨.hbm, 84, rfl⟩
abbrev main_call5_v0 : Ref sig .tc := ⟨.hbm, 85, rfl⟩
abbrev main_call5_v1 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_c_8 : Ref sig .tc := ⟨.hbm, 90, rfl⟩
abbrev main_v27 : Ref sig .tc := ⟨.hbm, 91, rfl⟩
abbrev main_v28 : Ref sig .tc := ⟨.hbm, 92, rfl⟩
abbrev main_c_9 : Ref sig .tc := ⟨.hbm, 93, rfl⟩
abbrev main_c_10 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_call6_v3 : Ref sig .tc := ⟨.hbm, 98, rfl⟩
abbrev main_call6_v4 : Ref sig .tc := ⟨.hbm, 99, rfl⟩
abbrev main_v29 : Ref sig .tc := ⟨.hbm, 100, rfl⟩
abbrev main_call7_cst : Ref sig .tc := ⟨.hbm, 101, rfl⟩
abbrev main_call7_v0 : Ref sig .tc := ⟨.hbm, 102, rfl⟩
abbrev main_call7_cst_0 : Ref sig .tc := ⟨.hbm, 103, rfl⟩
abbrev main_call7_v1 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_v5 : Ref sig .tc := ⟨.hbm, 108, rfl⟩
abbrev main_call7_v6 : Ref sig .tc := ⟨.hbm, 109, rfl⟩
abbrev main_call7_cst_1 : Ref sig .tc := ⟨.hbm, 110, rfl⟩
abbrev main_call7_v7 : Ref sig .tc := ⟨.hbm, 111, rfl⟩
abbrev main_call7_v8 : Ref sig .tc := ⟨.hbm, 112, rfl⟩
abbrev main_call7_v9 : Ref sig .tc := ⟨.hbm, 113, rfl⟩
abbrev main_call7_v10 : Ref sig .tc := ⟨.hbm, 114, rfl⟩
abbrev main_v30 : Ref sig .tc := ⟨.hbm, 115, rfl⟩
abbrev main_v31 : Ref sig .tc := ⟨.hbm, 116, rfl⟩
abbrev main_call8_c : Ref sig .tc := ⟨.hbm, 117, rfl⟩
abbrev main_call8_v0 : Ref sig .tc := ⟨.hbm, 118, rfl⟩
abbrev main_call8_v1 : Ref sig .tc := ⟨.hbm, 119, rfl⟩
abbrev main_call8_c_0 : Ref sig .tc := ⟨.hbm, 120, rfl⟩
abbrev main_call8_v2 : Ref sig .tc := ⟨.hbm, 121, rfl⟩
abbrev main_call8_v3 : Ref sig .tc := ⟨.hbm, 122, rfl⟩
abbrev main_call8_v4 : Ref sig .tc := ⟨.hbm, 123, rfl⟩
abbrev main_call8_v5 : Ref sig .tc := ⟨.hbm, 124, rfl⟩
abbrev main_call8_c_1 : Ref sig .tc := ⟨.hbm, 125, rfl⟩
abbrev main_call8_c_2 : Ref sig .tc := ⟨.hbm, 126, rfl⟩
abbrev main_call8_v6 : Ref sig .tc := ⟨.hbm, 127, rfl⟩
abbrev main_call8_v7 : Ref sig .tc := ⟨.hbm, 128, rfl⟩
abbrev main_call8_v8 : Ref sig .tc := ⟨.hbm, 129, rfl⟩
abbrev main_call8_v9 : Ref sig .tc := ⟨.hbm, 130, rfl⟩
abbrev main_call8_v10 : Ref sig .tc := ⟨.hbm, 131, rfl⟩
abbrev main_call8_v11 : Ref sig .tc := ⟨.hbm, 132, rfl⟩
abbrev main_call8_c_3 : Ref sig .tc := ⟨.hbm, 133, rfl⟩
abbrev main_call8_v12 : Ref sig .tc := ⟨.hbm, 134, rfl⟩
abbrev main_call8_v13 : Ref sig .tc := ⟨.hbm, 135, rfl⟩
abbrev main_call8_cst : Ref sig .tc := ⟨.hbm, 136, rfl⟩
abbrev main_call8_v14 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_cst_11 : Ref sig .tc := ⟨.hbm, 141, rfl⟩
abbrev main_call9_v0 : Ref sig .tc := ⟨.hbm, 142, rfl⟩
abbrev main_call9_v1 : Ref sig .tc := ⟨.hbm, 143, rfl⟩
abbrev main_v35 : Ref sig .tc := ⟨.hbm, 144, rfl⟩
abbrev main_v36 : Ref sig .tc := ⟨.hbm, 145, rfl⟩
abbrev main_call10_cst : Ref sig .tc := ⟨.hbm, 146, rfl⟩
abbrev main_call10_v0 : Ref sig .tc := ⟨.hbm, 147, rfl⟩
abbrev main_call10_cst_0 : Ref sig .tc := ⟨.hbm, 148, rfl⟩
abbrev main_call10_v1 : Ref sig .tc := ⟨.hbm, 149, rfl⟩
abbrev main_call10_v2 : Ref sig .tc := ⟨.hbm, 150, rfl⟩
abbrev main_call10_v3 : Ref sig .tc := ⟨.hbm, 151, rfl⟩
abbrev main_call10_v4 : Ref sig .tc := ⟨.hbm, 152, rfl⟩
abbrev main_call10_v5 : Ref sig .tc := ⟨.hbm, 153, rfl⟩
abbrev main_call10_v6 : Ref sig .tc := ⟨.hbm, 154, rfl⟩
abbrev main_call10_cst_1 : Ref sig .tc := ⟨.hbm, 155, rfl⟩
abbrev main_call10_v7 : Ref sig .tc := ⟨.hbm, 156, rfl⟩
abbrev main_call10_v8 : Ref sig .tc := ⟨.hbm, 157, rfl⟩
abbrev main_call10_v9 : Ref sig .tc := ⟨.hbm, 158, rfl⟩
abbrev main_call10_v10 : Ref sig .tc := ⟨.hbm, 159, rfl⟩
abbrev main_v37 : Ref sig .tc := ⟨.hbm, 160, rfl⟩
abbrev main_v38 : Ref sig .tc := ⟨.hbm, 161, rfl⟩
abbrev main_call11_c : Ref sig .tc := ⟨.hbm, 162, rfl⟩
abbrev main_call11_v0 : Ref sig .tc := ⟨.hbm, 163, rfl⟩
abbrev main_call11_v1 : Ref sig .tc := ⟨.hbm, 164, rfl⟩
abbrev main_call11_c_0 : Ref sig .tc := ⟨.hbm, 165, rfl⟩
abbrev main_call11_v2 : Ref sig .tc := ⟨.hbm, 166, rfl⟩
abbrev main_call11_v3 : Ref sig .tc := ⟨.hbm, 167, rfl⟩
abbrev main_call11_v4 : Ref sig .tc := ⟨.hbm, 168, rfl⟩
abbrev main_call11_v5 : Ref sig .tc := ⟨.hbm, 169, rfl⟩
abbrev main_call11_c_1 : Ref sig .tc := ⟨.hbm, 170, rfl⟩
abbrev main_call11_c_2 : Ref sig .tc := ⟨.hbm, 171, rfl⟩
abbrev main_call11_v6 : Ref sig .tc := ⟨.hbm, 172, rfl⟩
abbrev main_call11_v7 : Ref sig .tc := ⟨.hbm, 173, rfl⟩
abbrev main_call11_v8 : Ref sig .tc := ⟨.hbm, 174, rfl⟩
abbrev main_call11_v9 : Ref sig .tc := ⟨.hbm, 175, rfl⟩
abbrev main_call11_v10 : Ref sig .tc := ⟨.hbm, 176, rfl⟩
abbrev main_call11_v11 : Ref sig .tc := ⟨.hbm, 177, rfl⟩
abbrev main_call11_c_3 : Ref sig .tc := ⟨.hbm, 178, rfl⟩
abbrev main_call11_v12 : Ref sig .tc := ⟨.hbm, 179, rfl⟩
abbrev main_call11_v13 : Ref sig .tc := ⟨.hbm, 180, rfl⟩
abbrev main_call11_cst : Ref sig .tc := ⟨.hbm, 181, rfl⟩
abbrev main_call11_v14 : Ref sig .tc := ⟨.hbm, 182, rfl⟩
abbrev main_v39 : Ref sig .tc := ⟨.hbm, 183, rfl⟩
abbrev main_v40 : Ref sig .tc := ⟨.hbm, 184, rfl⟩
abbrev main_v41 : Ref sig .tc := ⟨.hbm, 185, rfl⟩
abbrev main_v42 : Ref sig .tc := ⟨.hbm, 186, rfl⟩

abbrev nD : Nat := 1
abbrev τ : Topo := Topo.v7x

variable {F : FTy → Type} [FloatOps F]

class Facts₀ : Prop where
  shapeCasts_S8x512x1024_S4096x1024 : S8x512x1024.ShapeCasts S4096x1024
  shapeCasts_S8x512_S4096 : S8x512.ShapeCasts S4096
  bcast_S_S4096 : S_.BroadcastsInDim S4096 (![] : Fin 0 → Fin S4096.rank)
  reducesTo_S4096x20000_S4096_d1 : S4096x20000.ReducesTo [1] S4096
  h_S_ : 0 < S_.numel
  bcast_S4096_S4096x1_0 : S4096.BroadcastsInDim S4096x1 (![0] : Fin 1 → Fin S4096x1.rank)
  bcast_S4096x1_S4096x20000_0_1 : S4096x1.BroadcastsInDim S4096x20000 (![0, 1] : Fin 2 → Fin S4096x20000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096x20002_S4096_d1 : S4096x20002.ReducesTo [1] S4096
  bcast_S4096x1_S4096x20002_0_1 : S4096x1.BroadcastsInDim S4096x20002 (![0, 1] : Fin 2 → Fin S4096x20002.rank)
  concatenates_S4096_S4096_S4096_S12288_d0 : Shape.Concatenates [S4096, S4096, S4096] S12288 0
  dot_S4096x1024_S1024x256_S4096x256_1_0_0_1_n_n_wf : DotDims.WF S4096x1024 S1024x256 S4096x256 [1] [0] [0] [1] [] []
  dot_S4096x256_S256x20000_S4096x20000_1_0_0_1_n_n_wf : DotDims.WF S4096x256 S256x20000 S4096x20000 [1] [0] [0] [1] [] []
  gather_S4096x20000_S4096x1x1_S4096x1_n_1_0_0_1_2_11_wf : GatherDims.WF S4096x20000 S4096x1x1 S4096x1 [] [1] [0] [1] [0] 2 ![1, 1]
  dot_S4096x1024_S1024x64_S4096x64_1_0_0_1_n_n_wf : DotDims.WF S4096x1024 S1024x64 S4096x64 [1] [0] [0] [1] [] []
  dot_S4096x64_S64x20000_S4096x20000_1_0_0_1_n_n_wf : DotDims.WF S4096x64 S64x20000 S4096x20000 [1] [0] [0] [1] [] []
  dot_S4096x1024_S1024x20002_S4096x20002_1_0_0_1_n_n_wf : DotDims.WF S4096x1024 S1024x20002 S4096x20002 [1] [0] [0] [1] [] []
  gather_S4096x20002_S4096x1x1_S4096x1_n_1_0_0_1_2_11_wf : GatherDims.WF S4096x20002 S4096x1x1 S4096x1 [] [1] [0] [1] [0] 2 ![1, 1]

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x20000_S4096x20000_1_0_0_1_n_n : DotDims S4096x256 S256x20000 S4096x20000 where
  lhsContracting := [1]
  rhsContracting := [0]
  lhsNonContracting := [0]
  rhsNonContracting := [1]
  lhsBatch := []
  rhsBatch := []
  wf := dot_S4096x256_S256x20000_S4096x20000_1_0_0_1_n_n_wf
def gather_S4096x20000_S4096x1x1_S4096x1_n_1_0_0_1_2_11 : GatherDims S4096x20000 S4096x1x1 S4096x1 where
  offsetDims := []
  collapsedSliceDims := [1]
  operandBatchingDims := [0]
  startIndicesBatchingDims := [0]
  startIndexMap := [1]
  indexVectorDim := 2
  sliceSizes := ![1, 1]
  wf := gather_S4096x20000_S4096x1x1_S4096x1_n_1_0_0_1_2_11_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x20000_S4096x20000_1_0_0_1_n_n : DotDims S4096x64 S64x20000 S4096x20000 where
  lhsContracting := [1]
  rhsContracting := [0]
  lhsNonContracting := [0]
  rhsNonContracting := [1]
  lhsBatch := []
  rhsBatch := []
  wf := dot_S4096x64_S64x20000_S4096x20000_1_0_0_1_n_n_wf
def dot_S4096x1024_S1024x20002_S4096x20002_1_0_0_1_n_n : DotDims S4096x1024 S1024x20002 S4096x20002 where
  lhsContracting := [1]
  rhsContracting := [0]
  lhsNonContracting := [0]
  rhsNonContracting := [1]
  lhsBatch := []
  rhsBatch := []
  wf := dot_S4096x1024_S1024x20002_S4096x20002_1_0_0_1_n_n_wf
def gather_S4096x20002_S4096x1x1_S4096x1_n_1_0_0_1_2_11 : GatherDims S4096x20002 S4096x1x1 S4096x1 where
  offsetDims := []
  collapsedSliceDims := [1]
  operandBatchingDims := [0]
  startIndicesBatchingDims := [0]
  startIndexMap := [1]
  indexVectorDim := 2
  sliceSizes := ![1, 1]
  wf := gather_S4096x20002_S4096x1x1_S4096x1_n_1_0_0_1_2_11_wf

class Facts : Prop extends Facts₀ where

variable [Facts]
-- ==== Proof.LibNary3.lean ====
import Idealize.ShloMosaic.Lib.StableHlo.Run

noncomputable section

namespace Idealize.ShloMosaic.StableHlo

open Idealize.SL.Sem

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

end Idealize.ShloMosaic.StableHlo

end
-- ==== Proof.RefStage.lean ====
import proofs.«427659_j7121055776931_3_alg».proof.Proof.Gen.ReferenceIdeal
import proofs.«427659_j7121055776931_3_alg».proof.Proof.RefRead
import proofs.«427659_j7121055776931_3_alg».proof.Proof.LibNary3
import Idealize.ShloMosaic.Lib.StableHlo.Run
import Idealize.ShloMosaic.Lib.Pipeline.Frame

noncomputable section

namespace Cert.ReferenceIdeal.Stage

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]
variable (V W : Valuation τ sig (Elt F))

-- The seven launch arrays, read off the launch valuation `V`.
abbrev X0 : (⟨S8x512x1024, .f32⟩ : BufTy).Contents (Elt F) := V (Proc.devRef .tc main_arg0)
abbrev X1 : (⟨S8x512, .i32⟩ : BufTy).Contents (Elt F) := V (Proc.devRef .tc main_arg1)
abbrev X2 : (⟨S1024x20002, .f32⟩ : BufTy).Contents (Elt F) := V (Proc.devRef .tc main_arg2)
abbrev X3 : (⟨S1024x256, .f32⟩ : BufTy).Contents (Elt F) := V (Proc.devRef .tc main_arg3)
abbrev X4 : (⟨S256x20000, .f32⟩ : BufTy).Contents (Elt F) := V (Proc.devRef .tc main_arg4)
abbrev X5 : (⟨S1024x64, .f32⟩ : BufTy).Contents (Elt F) := V (Proc.devRef .tc main_arg5)
abbrev X6 : (⟨S64x20000, .f32⟩ : BufTy).Contents (Elt F) := V (Proc.devRef .tc main_arg6)

-- `I k`: before stretch `k`, every buffer a later operation still reads holds its stage of the launch arrays.
abbrev I0 : Prop :=
  W (Proc.devRef .tc main_arg0) = (X0 V)
  ∧ W (Proc.devRef .tc main_arg1) = (X1 V)
  ∧ W (Proc.devRef .tc main_arg2) = (X2 V)
  ∧ W (Proc.devRef .tc main_arg3) = (X3 V)
  ∧ W (Proc.devRef .tc main_arg4) = (X4 V)
  ∧ W (Proc.devRef .tc main_arg5) = (X5 V)
  ∧ W (Proc.devRef .tc main_arg6) = (X6 V)

abbrev s0 : List (HloOp τ sig (Elt F)) :=
  [ reshape main_arg0 main_v0 rfl shapeCasts_S8x512x1024_S4096x1024,
    reshape main_arg1 main_v1 rfl shapeCasts_S8x512_S4096,
    nullary main_c (constantI S_ 32 20000#32),
    unary main_c main_v2 (broadcastInDim S4096 ![] bcast_S_S4096),
    binary main_v1 main_v2 main_v3 (cmpi .sge),
    nullary main_c_0 (constantI S_ 32 40000#32),
    unary main_c_0 main_v4 (broadcastInDim S4096 ![] bcast_S_S4096),
    binary main_v1 main_v4 main_v5 (cmpi .slt),
    binary main_v3 main_v5 main_v6 (andi) ]

abbrev I1 : Prop :=
  W (Proc.devRef .tc main_arg2) = (X2 V)
  ∧ W (Proc.devRef .tc main_arg3) = (X3 V)
  ∧ W (Proc.devRef .tc main_arg4) = (X4 V)
  ∧ W (Proc.devRef .tc main_arg5) = (X5 V)
  ∧ W (Proc.devRef .tc main_arg6) = (X6 V)
  ∧ W (Proc.devRef .tc main_v0) = val_main_v0 (F := F) (X0 V)
  ∧ W (Proc.devRef .tc main_v1) = val_main_v1 (F := F) (X1 V)
  ∧ W (Proc.devRef .tc main_v6) = val_main_v6 (F := F) (X1 V)

-- A stretch carries the invariant on: a buffer it writes by reading its operations in order, any other is untouched.
set_option maxHeartbeats 400000 in
theorem step0 (h : I0 V W) : I1 V (after s0 W) := by
  refine ⟨?_, ?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s1 : List (HloOp τ sig (Elt F)) :=
  [ nullary main_c_1 (constantI S_ 32 20000#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S4096, .i32⟩) main_call0_v1) (broadcastInDim S4096 ![] bcast_S_S4096),
    TRef.ternary (TRef.of (T := ⟨S4096, .i1⟩) main_v6) (TRef.of (T := ⟨S4096, .i32⟩) main_call0_v1) (TRef.of (T := ⟨S4096, .i32⟩) main_v1) (TRef.of (T := ⟨S4096, .i32⟩) main_v7) select,
    binary main_v0 main_arg3 main_v8 ((fun l r => Host.dotGeneral dot_S4096x1024_S1024x256_S4096x256_1_0_0_1_n_n none l r)),
    binary main_v8 main_arg4 main_v9 ((fun l r => Host.dotGeneral dot_S4096x256_S256x20000_S4096x20000_1_0_0_1_n_n none l r)),
    nullary main_c_2 (constantI S_ 32 20000#32),
    unary main_c_2 main_v10 (broadcastInDim S4096 ![] bcast_S_S4096),
    binary main_v1 main_v10 main_v11 (subi) ]

abbrev I2 : Prop :=
  W (Proc.devRef .tc main_arg2) = (X2 V)
  ∧ W (Proc.devRef .tc main_arg5) = (X5 V)
  ∧ W (Proc.devRef .tc main_arg6) = (X6 V)
  ∧ W (Proc.devRef .tc main_v0) = val_main_v0 (F := F) (X0 V)
  ∧ W (Proc.devRef .tc main_v1) = val_main_v1 (F := F) (X1 V)
  ∧ W (Proc.devRef .tc main_v6) = val_main_v6 (F := F) (X1 V)
  ∧ W (Proc.devRef .tc main_v7) = val_main_v7 (F := F) (X1 V)
  ∧ W (Proc.devRef .tc main_v9) = val_main_v9 (F := F) (X0 V) (X3 V) (X4 V)
  ∧ W (Proc.devRef .tc main_v11) = val_main_v11 (F := F) (X1 V)

set_option maxHeartbeats 400000 in
theorem step1 (h : I1 V W) : I2 V (after s1 W) := by
  refine ⟨?_, ?_, ?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s2 : List (HloOp τ sig (Elt F)) :=
  [ nullary main_c_3 (constantI S_ 32 0#32),
    nullary main_c_4 (constantI S_ 32 19999#32),
    TRef.unary (TRef.of (T := ⟨S_, .i32⟩) main_c_3) (TRef.of (T := ⟨S_, .i32⟩) main_call1_v0) id,
    TRef.unary (TRef.of (T := ⟨S_, .i32⟩) main_call1_v0) (TRef.of (T := ⟨S4096, .i32⟩) main_call1_v1) (broadcastInDim S4096 ![] bcast_S_S4096),
    TRef.binary (TRef.of (T := ⟨S4096, .i32⟩) main_call1_v1) (TRef.of (T := ⟨S4096, .i32⟩) main_v11) (TRef.of (T := ⟨S4096, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S4096, .i32⟩) main_call1_v4) (broadcastInDim S4096 ![] bcast_S_S4096),
    TRef.binary (TRef.of (T := ⟨S4096, .i32⟩) main_call1_v4) (TRef.of (T := ⟨S4096, .i32⟩) main_call1_v2) (TRef.of (T := ⟨S4096, .i32⟩) main_v12) minsi,
    TRef.nullary (TRef.of (T := ⟨S_, .f32⟩) main_call2_cst) (constant S_ .f32 0xFF800000#32) ]

abbrev I3 : Prop :=
  W (Proc.devRef .tc main_arg2) = (X2 V)
  ∧ W (Proc.devRef .tc main_arg5) = (X5 V)
  ∧ W (Proc.devRef .tc main_arg6) = (X6 V)
  ∧ W (Proc.devRef .tc main_v0) = val_main_v0 (F := F) (X0 V)
  ∧ W (Proc.devRef .tc main_v1) = val_main_v1 (F := F) (X1 V)
  ∧ W (Proc.devRef .tc main_v6) = val_main_v6 (F := F) (X1 V)
  ∧ W (Proc.devRef .tc main_v7) = val_main_v7 (F := F) (X1 V)
  ∧ W (Proc.devRef .tc main_v9) = val_main_v9 (F := F) (X0 V) (X3 V) (X4 V)
  ∧ W (Proc.devRef .tc main_v12) = val_main_v12 (F := F) (X1 V)
  ∧ W (Proc.devRef .tc main_call2_cst) = val_main_call2_cst (F := F)

set_option maxHeartbeats 400000 in
theorem step2 (h : I2 V W) : I3 V (after s2 W) := by
  refine ⟨?_, ?_, ?_, ?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s3 : List (HloOp τ sig (Elt F)) :=
  [ TRef.binary (TRef.of (T := ⟨S4096x20000, .f32⟩) main_v9) (TRef.of (T := ⟨S_, .f32⟩) main_call2_cst) (TRef.of (T := ⟨S4096, .f32⟩) main_call2_v0) (fun x v => Host.reduce FloatOps.maximumf x v reducesTo_S4096x20000_S4096_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S4096, .f32⟩) main_call2_v1) (broadcastInDim S4096 ![] bcast_S_S4096),
    TRef.binary (TRef.of (T := ⟨S4096, .f32⟩) main_call2_v1) (TRef.of (T := ⟨S4096, .f32⟩) main_call2_v0) (TRef.of (T := ⟨S4096, .f32⟩) main_call2_v2) maximumf,
    TRef.unary (TRef.of (T := ⟨S4096, .f32⟩) main_call2_v2) (TRef.of (T := ⟨S4096x1, .f32⟩) main_call2_v3) (broadcastInDim S4096x1 ![0] bcast_S4096_S4096x1_0),
    TRef.unary (TRef.of (T := ⟨S4096x1, .f32⟩) main_call2_v3) (TRef.of (T := ⟨S4096x20000, .f32⟩) main_call2_v4) (broadcastInDim S4096x20000 ![0, 1] bcast_S4096x1_S4096x20000_0_1),
    TRef.binary (TRef.of (T := ⟨S4096x20000, .f32⟩) main_v9) (TRef.of (T := ⟨S4096x20000, .f32⟩) main_call2_v4) (TRef.of (T := ⟨S4096x20000, .f32⟩) main_call2_v5) subf,
    TRef.unary (TRef.of (T := ⟨S4096x20000, .f32⟩) main_call2_v5) (TRef.of (T := ⟨S4096x20000, .f32⟩) main_call2_v6) Host.exp,
    TRef.nullary (TRef.of (T := ⟨S_, .f32⟩) main_call2_cst_1) (constant S_ .f32 0x00000000#32),
    TRef.binary (TRef.of (T := ⟨S4096x20000, .f32⟩) main_call2_v6) (TRef.of (T := ⟨S_, .f32⟩) main_call2_cst_1) (TRef.of (T := ⟨S4096, .f32⟩) main_call2_v7) (fun x v => Host.reduceAdd x v reducesTo_S4096x20000_S4096_d1 h_S_),
    TRef.unary (TRef.of (T := ⟨S4096, .f32⟩) main_call2_v7) (TRef.of (T := ⟨S4096x1, .f32⟩) main_call2_v8) (broadcastInDim S4096x1 ![0] bcast_S4096_S4096x1_0),
    TRef.unary (TRef.of (T := ⟨S4096x1, .f32⟩) main_call2_v8) (TRef.of (T := ⟨S4096x1, .f32⟩) main_call2_v9) Host.log,
    TRef.unary (TRef.of (T := ⟨S4096x1, .f32⟩) main_call2_v9) (TRef.of (T := ⟨S4096x20000, .f32⟩) main_call2_v10) (broadcastInDim S4096x20000 ![0, 1] bcast_S4096x1_S4096x20000_0_1),
    TRef.binary (TRef.of (T := ⟨S4096x20000, .f32⟩) main_call2_v5) (TRef.of (T := ⟨S4096x20000, .f32⟩) main_call2_v10) (TRef.of (T := ⟨S4096x20000, .f32⟩) main_v13) subf ]

abbrev I4 : Prop :=
  W (Proc.devRef .tc main_arg2) = (X2 V)
  ∧ W (Proc.devRef .tc main_arg5) = (X5 V)
  ∧ W (Proc.devRef .tc main_arg6) = (X6 V)
  ∧ W (Proc.devRef .tc main_v0) = val_main_v0 (F := F) (X0 V)
  ∧ W (Proc.devRef .tc main_v1) = val_main_v1 (F := F) (X1 V)
  ∧ W (Proc.devRef .tc main_v6) = val_main_v6 (F := F) (X1 V)
  ∧ W (Proc.devRef .tc main_v7) = val_main_v7 (F := F) (X1 V)
  ∧ W (Proc.devRef .tc main_v12) = val_main_v12 (F := F) (X1 V)
  ∧ W (Proc.devRef .tc main_v13) = val_main_v13 (F := F) (X0 V) (X3 V) (X4 V)

set_option maxHeartbeats 400000 in
theorem step3 (h : I3 V W) : I4 V (after s3 W) := by
  refine ⟨?_, ?_, ?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s4 : List (HloOp τ sig (Elt F)) :=
  [ unary main_v12 main_v14 (broadcastInDim S4096x1 ![0] bcast_S4096_S4096x1_0),
    TRef.nullary (TRef.of (T := ⟨S_, .i32⟩) main_call3_c) (constantI S_ 32 0#32),
    TRef.unary (TRef.of (T := ⟨S_, .i32⟩) main_call3_c) (TRef.of (T := ⟨S4096x1, .i32⟩) main_call3_v0) (broadcastInDim S4096x1 ![] bcast_S_S4096x1),
    TRef.binary (TRef.of (T := ⟨S4096x1, .i32⟩) main_v14) (TRef.of (T := ⟨S4096x1, .i32⟩) main_call3_v0) (TRef.of (T := ⟨S4096x1, .i1⟩) main_call3_v1) (cmpi .slt),
    TRef.nullary (TRef.of (T := ⟨S_, .i32⟩) main_call3_c_0) (constantI S_ 32 20000#32),
    TRef.unary (TRef.of (T := ⟨S_, .i32⟩) main_call3_c_0) (TRef.of (T := ⟨S4096x1, .i32⟩) main_call3_v2) (broadcastInDim S4096x1 ![] bcast_S_S4096x1),
    TRef.binary (TRef.of (T := ⟨S4096x1, .i32⟩) main_v14) (TRef.of (T := ⟨S4096x1, .i32⟩) main_call3_v2) (TRef.of (T := ⟨S4096x1, .i32⟩) main_call3_v3) addi,
    TRef.ternary (TRef.of (T := ⟨S4096x1, .i1⟩) main_call3_v1) (TRef.of (T := ⟨S4096x1, .i32⟩) main_call3_v3) (TRef.of (T := ⟨S4096x1, .i32⟩) main_v14) (TRef.of (T := ⟨S4096x1, .i32⟩) main_call3_v4) select,
    TRef.reshape (TRef.of (T := ⟨S4096x1, .i32⟩) main_call3_v4) (TRef.of (T := ⟨S4096x1x1, .i32⟩) main_call3_v5) rfl shapeCasts_S4096x1_S4096x1x1 ]

abbrev I5 : Prop :=
  W (Proc.devRef .tc main_arg2) = (X2 V)
  ∧ W (Proc.devRef .tc main_arg5) = (X5 V)
  ∧ W (Proc.devRef .tc main_arg6) = (X6 V)
  ∧ W (Proc.devRef .tc main_v0) = val_main_v0 (F := F) (X0 V)
  ∧ W (Proc.devRef .tc main_v1) = val_main_v1 (F := F) (X1 V)
  ∧ W (Proc.devRef .tc main_v6) = val_main_v6 (F := F) (X1 V)
  ∧ W (Proc.devRef .tc main_v7) = val_main_v7 (F := F) (X1 V)
  ∧ W (Proc.devRef .tc main_v13) = val_main_v13 (F := F) (X0 V) (X3 V) (X4 V)
  ∧ W (Proc.devRef .tc main_call3_v5) = val_main_call3_v5 (F := F) (X1 V)

set_option maxHeartbeats 400000 in
theorem step4 (h : I4 V W) : I5 V (after s4 W) := by
  refine ⟨?_, ?_, ?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s5 : List (HloOp τ sig (Elt F)) :=
  [ TRef.nullary (TRef.of (T := ⟨S1, .i32⟩) main_call3_c_1) (constantI S1 32 19999#32),
    TRef.nullary (TRef.of (T := ⟨S_, .i32⟩) main_call3_c_2) (constantI S_ 32 0#32),
    TRef.unary (TRef.of (T := ⟨S_, .i32⟩) main_call3_c_2) (TRef.of (T := ⟨S4096x1x1, .i32⟩) main_call3_v6) (broadcastInDim S4096x1x1 ![] bcast_S_S4096x1x1),
    TRef.binary (TRef.of (T := ⟨S4096x1x1, .i32⟩) main_call3_v5) (TRef.of (T := ⟨S4096x1x1, .i32⟩) main_call3_v6) (TRef.of (T := ⟨S4096x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4096x1x1, .i32⟩) main_call3_v9) (broadcastInDim S4096x1x1 ![0, 1, 2] bcast_S1x1x1_S4096x1x1_0_1_2),
    TRef.binary (TRef.of (T := ⟨S4096x1x1, .i32⟩) main_call3_v5) (TRef.of (T := ⟨S4096x1x1, .i32⟩) main_call3_v9) (TRef.of (T := ⟨S4096x1x1, .i1⟩) main_call3_v10) (cmpi .sle),
    TRef.binary (TRef.of (T := ⟨S4096x1x1, .i1⟩) main_call3_v7) (TRef.of (T := ⟨S4096x1x1, .i1⟩) main_call3_v10) (TRef.of (T := ⟨S4096x1x1, .i1⟩) main_call3_v11) andi,
    TRef.nullary (TRef.of (T := ⟨S_, .i1⟩) main_call3_c_3) (constantI S_ 1 1#1),
    TRef.binary (TRef.of (T := ⟨S4096x1x1, .i1⟩) main_call3_v11) (TRef.of (T := ⟨S_, .i1⟩) main_call3_c_3) (TRef.of (T := ⟨S4096x1, .i1⟩) main_call3_v12) (fun x v => Host.reduce IntOp.andi x v reducesTo_S4096x1x1_S4096x1_d2 h_S_),
    TRef.binary (TRef.of (T := ⟨S4096x20000, .f32⟩) main_v13) (TRef.of (T := ⟨S4096x1x1, .i32⟩) main_call3_v5) (TRef.of (T := ⟨S4096x1, .f32⟩) main_call3_v13) (fun x i => Host.gather gather_S4096x20000_S4096x1x1_S4096x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S4096x1, .f32⟩) main_call3_v14) (broadcastInDim S4096x1 ![] bcast_S_S4096x1),
    TRef.ternary (TRef.of (T := ⟨S4096x1, .i1⟩) main_call3_v12) (TRef.of (T := ⟨S4096x1, .f32⟩) main_call3_v13) (TRef.of (T := ⟨S4096x1, .f32⟩) main_call3_v14) (TRef.of (T := ⟨S4096x1, .f32⟩) main_v15) select ]

abbrev I6 : Prop :=
  W (Proc.devRef .tc main_arg2) = (X2 V)
  ∧ W (Proc.devRef .tc main_arg5) = (X5 V)
  ∧ W (Proc.devRef .tc main_arg6) = (X6 V)
  ∧ W (Proc.devRef .tc main_v0) = val_main_v0 (F := F) (X0 V)
  ∧ W (Proc.devRef .tc main_v1) = val_main_v1 (F := F) (X1 V)
  ∧ W (Proc.devRef .tc main_v6) = val_main_v6 (F := F) (X1 V)
  ∧ W (Proc.devRef .tc main_v7) = val_main_v7 (F := F) (X1 V)
  ∧ W (Proc.devRef .tc main_v15) = val_main_v15 (F := F) (X0 V) (X1 V) (X3 V) (X4 V)

set_option maxHeartbeats 400000 in
theorem step5 (h : I5 V W) : I6 V (after s5 W) := by
  refine ⟨?_, ?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s6 : List (HloOp τ sig (Elt F)) :=
  [ reshape main_v15 main_v16 rfl shapeCasts_S4096x1_S4096,
    unary main_v16 main_v17 (Host.negf),
    nullary main_cst (constant S_ .f32 0x00000000#32),
    TRef.unary (TRef.of (T := ⟨S_, .f32⟩) main_cst) (TRef.of (T := ⟨S_, .f32⟩) main_call4_v0) id,
    TRef.unary (TRef.of (T := ⟨S_, .f32⟩) main_call4_v0) (TRef.of (T := ⟨S4096, .f32⟩) main_call4_v1) (broadcastInDim S4096 ![] bcast_S_S4096),
    TRef.ternary (TRef.of (T := ⟨S4096, .i1⟩) main_v6) (TRef.of (T := ⟨S4096, .f32⟩) main_v17) (TRef.of (T := ⟨S4096, .f32⟩) main_call4_v1) (TRef.of (T := ⟨S4096, .f32⟩) main_v18) select,
    nullary main_c_5 (constantI S_ 32 40000#32),
    unary main_c_5 main_v19 (broadcastInDim S4096 ![] bcast_S_S4096),
    binary main_v1 main_v19 main_v20 (cmpi .sge) ]

abbrev I7 : Prop :=
  W (Proc.devRef .tc main_arg2) = (X2 V)
  ∧ W (Proc.devRef .tc main_arg5) = (X5 V)
  ∧ W (Proc.devRef .tc main_arg6) = (X6 V)
  ∧ W (Proc.devRef .tc main_v0) = val_main_v0 (F := F) (X0 V)
  ∧ W (Proc.devRef .tc main_v1) = val_main_v1 (F := F) (X1 V)
  ∧ W (Proc.devRef .tc main_v7) = val_main_v7 (F := F) (X1 V)
  ∧ W (Proc.devRef .tc main_v18) = val_main_v18 (F := F) (X0 V) (X1 V) (X3 V) (X4 V)
  ∧ W (Proc.devRef .tc main_v20) = val_main_v20 (F := F) (X1 V)

set_option maxHeartbeats 400000 in
theorem step6 (h : I6 V W) : I7 V (after s6 W) := by
  refine ⟨?_, ?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s7 : List (HloOp τ sig (Elt F)) :=
  [ nullary main_c_6 (constantI S_ 32 60000#32),
    unary main_c_6 main_v21 (broadcastInDim S4096 ![] bcast_S_S4096),
    binary main_v1 main_v21 main_v22 (cmpi .slt),
    binary main_v20 main_v22 main_v23 (andi),
    nullary main_c_7 (constantI S_ 32 20001#32),
    TRef.unary (TRef.of (T := ⟨S_, .i32⟩) main_c_7) (TRef.of (T := ⟨S_, .i32⟩) main_call5_v0) id,
    TRef.unary (TRef.of (T := ⟨S_, .i32⟩) main_call5_v0) (TRef.of (T := ⟨S4096, .i32⟩) main_call5_v1) (broadcastInDim S4096 ![] bcast_S_S4096),
    TRef.ternary (TRef.of (T := ⟨S4096, .i1⟩) main_v23) (TRef.of (T := ⟨S4096, .i32⟩) main_call5_v1) (TRef.of (T := ⟨S4096, .i32⟩) main_v7) (TRef.of (T := ⟨S4096, .i32⟩) main_v24) select,
    binary main_v0 main_arg5 main_v25 ((fun l r => Host.dotGeneral dot_S4096x1024_S1024x64_S4096x64_1_0_0_1_n_n none l r)) ]

abbrev I8 : Prop :=
  W (Proc.devRef .tc main_arg2) = (X2 V)
  ∧ W (Proc.devRef .tc main_arg6) = (X6 V)
  ∧ W (Proc.devRef .tc main_v0) = val_main_v0 (F := F) (X0 V)
  ∧ W (Proc.devRef .tc main_v1) = val_main_v1 (F := F) (X1 V)
  ∧ W (Proc.devRef .tc main_v18) = val_main_v18 (F := F) (X0 V) (X1 V) (X3 V) (X4 V)
  ∧ W (Proc.devRef .tc main_v23) = val_main_v23 (F := F) (X1 V)
  ∧ W (Proc.devRef .tc main_v24) = val_main_v24 (F := F) (X1 V)
  ∧ W (Proc.devRef .tc main_v25) = val_main_v25 (F := F) (X0 V) (X5 V)

set_option maxHeartbeats 400000 in
theorem step7 (h : I7 V W) : I8 V (after s7 W) := by
  refine ⟨?_, ?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s8 : List (HloOp τ sig (Elt F)) :=
  [ binary main_v25 main_arg6 main_v26 ((fun l r => Host.dotGeneral dot_S4096x64_S64x20000_S4096x20000_1_0_0_1_n_n none l r)),
    nullary main_c_8 (constantI S_ 32 40000#32),
    unary main_c_8 main_v27 (broadcastInDim S4096 ![] bcast_S_S4096),
    binary main_v1 main_v27 main_v28 (subi),
    nullary main_c_9 (constantI S_ 32 0#32),
    nullary main_c_10 (constantI S_ 32 19999#32),
    TRef.unary (TRef.of (T := ⟨S_, .i32⟩) main_c_9) (TRef.of (T := ⟨S_, .i32⟩) main_call6_v0) id,
    TRef.unary (TRef.of (T := ⟨S_, .i32⟩) main_call6_v0) (TRef.of (T := ⟨S4096, .i32⟩) main_call6_v1) (broadcastInDim S4096 ![] bcast_S_S4096),
    TRef.binary (TRef.of (T := ⟨S4096, .i32⟩) main_call6_v1) (TRef.of (T := ⟨S4096, .i32⟩) main_v28) (TRef.of (T := ⟨S4096, .i32⟩) main_call6_v2) maxsi,
    TRef.unary (TRef.of (T := ⟨S_, .i32⟩) main_c_10) (TRef.of (T := ⟨S_, .i32⟩) main_call6_v3) id,
    TRef.unary (TRef.of (T := ⟨S_, .i32⟩) main_call6_v3) (TRef.of (T := ⟨S4096, .i32⟩) main_call6_v4) (broadcastInDim S4096 ![] bcast_S_S4096),
    TRef.binary (TRef.of (T := ⟨S4096, .i32⟩) main_call6_v4) (TRef.of (T := ⟨S4096, .i32⟩) main_call6_v2) (TRef.of (T := ⟨S4096, .i32⟩) main_v29) minsi ]

abbrev I9 : Prop :=
  W (Proc.devRef .tc main_arg2) = (X2 V)
  ∧ W (Proc.devRef .tc main_v0) = val_main_v0 (F := F) (X0 V)
  ∧ W (Proc.devRef .tc main_v18) = val_main_v18 (F := F) (X0 V) (X1 V) (X3 V) (X4 V)
  ∧ W (Proc.devRef .tc main_v23) = val_main_v23 (F := F) (X1 V)
  ∧ W (Proc.devRef .tc main_v24) = val_main_v24 (F := F) (X1 V)
  ∧ W (Proc.devRef .tc main_v26) = val_main_v26 (F := F) (X0 V) (X5 V) (X6 V)
  ∧ W (Proc.devRef .tc main_v29) = val_main_v29 (F := F) (X1 V)

set_option maxHeartbeats 400000 in
theorem step8 (h : I8 V W) : I9 V (after s8 W) := by
  refine ⟨?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s9 : List (HloOp τ sig (Elt F)) :=
  [ TRef.nullary (TRef.of (T := ⟨S_, .f32⟩) main_call7_cst) (constant S_ .f32 0xFF800000#32),
    TRef.binary (TRef.of (T := ⟨S4096x20000, .f32⟩) main_v26) (TRef.of (T := ⟨S_, .f32⟩) main_call7_cst) (TRef.of (T := ⟨S4096, .f32⟩) main_call7_v0) (fun x v => Host.reduce FloatOps.maximumf x v reducesTo_S4096x20000_S4096_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S4096, .f32⟩) main_call7_v1) (broadcastInDim S4096 ![] bcast_S_S4096),
    TRef.binary (TRef.of (T := ⟨S4096, .f32⟩) main_call7_v1) (TRef.of (T := ⟨S4096, .f32⟩) main_call7_v0) (TRef.of (T := ⟨S4096, .f32⟩) main_call7_v2) maximumf,
    TRef.unary (TRef.of (T := ⟨S4096, .f32⟩) main_call7_v2) (TRef.of (T := ⟨S4096x1, .f32⟩) main_call7_v3) (broadcastInDim S4096x1 ![0] bcast_S4096_S4096x1_0),
    TRef.unary (TRef.of (T := ⟨S4096x1, .f32⟩) main_call7_v3) (TRef.of (T := ⟨S4096x20000, .f32⟩) main_call7_v4) (broadcastInDim S4096x20000 ![0, 1] bcast_S4096x1_S4096x20000_0_1),
    TRef.binary (TRef.of (T := ⟨S4096x20000, .f32⟩) main_v26) (TRef.of (T := ⟨S4096x20000, .f32⟩) main_call7_v4) (TRef.of (T := ⟨S4096x20000, .f32⟩) main_call7_v5) subf,
    TRef.unary (TRef.of (T := ⟨S4096x20000, .f32⟩) main_call7_v5) (TRef.of (T := ⟨S4096x20000, .f32⟩) main_call7_v6) Host.exp ]

abbrev I10 : Prop :=
  W (Proc.devRef .tc main_arg2) = (X2 V)
  ∧ W (Proc.devRef .tc main_v0) = val_main_v0 (F := F) (X0 V)
  ∧ W (Proc.devRef .tc main_v18) = val_main_v18 (F := F) (X0 V) (X1 V) (X3 V) (X4 V)
  ∧ W (Proc.devRef .tc main_v23) = val_main_v23 (F := F) (X1 V)
  ∧ W (Proc.devRef .tc main_v24) = val_main_v24 (F := F) (X1 V)
  ∧ W (Proc.devRef .tc main_v29) = val_main_v29 (F := F) (X1 V)
  ∧ W (Proc.devRef .tc main_call7_v5) = val_main_call7_v5 (F := F) (X0 V) (X5 V) (X6 V)
  ∧ W (Proc.devRef .tc main_call7_v6) = val_main_call7_v6 (F := F) (X0 V) (X5 V) (X6 V)

set_option maxHeartbeats 400000 in
theorem step9 (h : I9 V W) : I10 V (after s9 W) := by
  refine ⟨?_, ?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s10 : List (HloOp τ sig (Elt F)) :=
  [ TRef.nullary (TRef.of (T := ⟨S_, .f32⟩) main_call7_cst_1) (constant S_ .f32 0x00000000#32),
    TRef.binary (TRef.of (T := ⟨S4096x20000, .f32⟩) main_call7_v6) (TRef.of (T := ⟨S_, .f32⟩) main_call7_cst_1) (TRef.of (T := ⟨S4096, .f32⟩) main_call7_v7) (fun x v => Host.reduceAdd x v reducesTo_S4096x20000_S4096_d1 h_S_),
    TRef.unary (TRef.of (T := ⟨S4096, .f32⟩) main_call7_v7) (TRef.of (T := ⟨S4096x1, .f32⟩) main_call7_v8) (broadcastInDim S4096x1 ![0] bcast_S4096_S4096x1_0),
    TRef.unary (TRef.of (T := ⟨S4096x1, .f32⟩) main_call7_v8) (TRef.of (T := ⟨S4096x1, .f32⟩) main_call7_v9) Host.log,
    TRef.unary (TRef.of (T := ⟨S4096x1, .f32⟩) main_call7_v9) (TRef.of (T := ⟨S4096x20000, .f32⟩) main_call7_v10) (broadcastInDim S4096x20000 ![0, 1] bcast_S4096x1_S4096x20000_0_1),
    TRef.binary (TRef.of (T := ⟨S4096x20000, .f32⟩) main_call7_v5) (TRef.of (T := ⟨S4096x20000, .f32⟩) main_call7_v10) (TRef.of (T := ⟨S4096x20000, .f32⟩) main_v30) subf,
    unary main_v29 main_v31 (broadcastInDim S4096x1 ![0] bcast_S4096_S4096x1_0),
    TRef.nullary (TRef.of (T := ⟨S_, .i32⟩) main_call8_c) (constantI S_ 32 0#32),
    TRef.unary (TRef.of (T := ⟨S_, .i32⟩) main_call8_c) (TRef.of (T := ⟨S4096x1, .i32⟩) main_call8_v0) (broadcastInDim S4096x1 ![] bcast_S_S4096x1),
    TRef.binary (TRef.of (T := ⟨S4096x1, .i32⟩) main_v31) (TRef.of (T := ⟨S4096x1, .i32⟩) main_call8_v0) (TRef.of (T := ⟨S4096x1, .i1⟩) main_call8_v1) (cmpi .slt),
    TRef.nullary (TRef.of (T := ⟨S_, .i32⟩) main_call8_c_0) (constantI S_ 32 20000#32),
    TRef.unary (TRef.of (T := ⟨S_, .i32⟩) main_call8_c_0) (TRef.of (T := ⟨S4096x1, .i32⟩) main_call8_v2) (broadcastInDim S4096x1 ![] bcast_S_S4096x1),
    TRef.binary (TRef.of (T := ⟨S4096x1, .i32⟩) main_v31) (TRef.of (T := ⟨S4096x1, .i32⟩) main_call8_v2) (TRef.of (T := ⟨S4096x1, .i32⟩) main_call8_v3) addi,
    TRef.ternary (TRef.of (T := ⟨S4096x1, .i1⟩) main_call8_v1) (TRef.of (T := ⟨S4096x1, .i32⟩) main_call8_v3) (TRef.of (T := ⟨S4096x1, .i32⟩) main_v31) (TRef.of (T := ⟨S4096x1, .i32⟩) main_call8_v4) select ]

abbrev I11 : Prop :=
  W (Proc.devRef .tc main_arg2) = (X2 V)
  ∧ W (Proc.devRef .tc main_v0) = val_main_v0 (F := F) (X0 V)
  ∧ W (Proc.devRef .tc main_v18) = val_main_v18 (F := F) (X0 V) (X1 V) (X3 V) (X4 V)
  ∧ W (Proc.devRef .tc main_v23) = val_main_v23 (F := F) (X1 V)
  ∧ W (Proc.devRef .tc main_v24) = val_main_v24 (F := F) (X1 V)
  ∧ W (Proc.devRef .tc main_v30) = val_main_v30 (F := F) (X0 V) (X5 V) (X6 V)
  ∧ W (Proc.devRef .tc main_call8_v4) = val_main_call8_v4 (F := F) (X1 V)

set_option maxHeartbeats 400000 in
theorem step10 (h : I10 V W) : I11 V (after s10 W) := by
  refine ⟨?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s11 : List (HloOp τ sig (Elt F)) :=
  [ TRef.reshape (TRef.of (T := ⟨S4096x1, .i32⟩) main_call8_v4) (TRef.of (T := ⟨S4096x1x1, .i32⟩) main_call8_v5) rfl shapeCasts_S4096x1_S4096x1x1,
    TRef.nullary (TRef.of (T := ⟨S1, .i32⟩) main_call8_c_1) (constantI S1 32 19999#32),
    TRef.nullary (TRef.of (T := ⟨S_, .i32⟩) main_call8_c_2) (constantI S_ 32 0#32),
    TRef.unary (TRef.of (T := ⟨S_, .i32⟩) main_call8_c_2) (TRef.of (T := ⟨S4096x1x1, .i32⟩) main_call8_v6) (broadcastInDim S4096x1x1 ![] bcast_S_S4096x1x1),
    TRef.binary (TRef.of (T := ⟨S4096x1x1, .i32⟩) main_call8_v5) (TRef.of (T := ⟨S4096x1x1, .i32⟩) main_call8_v6) (TRef.of (T := ⟨S4096x1x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S4096x1x1, .i32⟩) main_call8_v9) (broadcastInDim S4096x1x1 ![0, 1, 2] bcast_S1x1x1_S4096x1x1_0_1_2),
    TRef.binary (TRef.of (T := ⟨S4096x1x1, .i32⟩) main_call8_v5) (TRef.of (T := ⟨S4096x1x1, .i32⟩) main_call8_v9) (TRef.of (T := ⟨S4096x1x1, .i1⟩) main_call8_v10) (cmpi .sle),
    TRef.binary (TRef.of (T := ⟨S4096x1x1, .i1⟩) main_call8_v7) (TRef.of (T := ⟨S4096x1x1, .i1⟩) main_call8_v10) (TRef.of (T := ⟨S4096x1x1, .i1⟩) main_call8_v11) andi,
    TRef.nullary (TRef.of (T := ⟨S_, .i1⟩) main_call8_c_3) (constantI S_ 1 1#1),
    TRef.binary (TRef.of (T := ⟨S4096x1x1, .i1⟩) main_call8_v11) (TRef.of (T := ⟨S_, .i1⟩) main_call8_c_3) (TRef.of (T := ⟨S4096x1, .i1⟩) main_call8_v12) (fun x v => Host.reduce IntOp.andi x v reducesTo_S4096x1x1_S4096x1_d2 h_S_),
    TRef.binary (TRef.of (T := ⟨S4096x20000, .f32⟩) main_v30) (TRef.of (T := ⟨S4096x1x1, .i32⟩) main_call8_v5) (TRef.of (T := ⟨S4096x1, .f32⟩) main_call8_v13) (fun x i => Host.gather gather_S4096x20000_S4096x1x1_S4096x1_n_1_0_0_1_2_11 x i) ]

abbrev I12 : Prop :=
  W (Proc.devRef .tc main_arg2) = (X2 V)
  ∧ W (Proc.devRef .tc main_v0) = val_main_v0 (F := F) (X0 V)
  ∧ W (Proc.devRef .tc main_v18) = val_main_v18 (F := F) (X0 V) (X1 V) (X3 V) (X4 V)
  ∧ W (Proc.devRef .tc main_v23) = val_main_v23 (F := F) (X1 V)
  ∧ W (Proc.devRef .tc main_v24) = val_main_v24 (F := F) (X1 V)
  ∧ W (Proc.devRef .tc main_call8_v12) = val_main_call8_v12 (F := F) (X1 V)
  ∧ W (Proc.devRef .tc main_call8_v13) = val_main_call8_v13 (F := F) (X0 V) (X1 V) (X5 V) (X6 V)

set_option maxHeartbeats 400000 in
theorem step11 (h : I11 V W) : I12 V (after s11 W) := by
  refine ⟨?_, ?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s12 : List (HloOp τ sig (Elt F)) :=
  [ TRef.nullary (TRef.of (T := ⟨S_, .f32⟩) main_call8_cst) (constant S_ .f32 0x7FC00000#32),
    TRef.unary (TRef.of (T := ⟨S_, .f32⟩) main_call8_cst) (TRef.of (T := ⟨S4096x1, .f32⟩) main_call8_v14) (broadcastInDim S4096x1 ![] bcast_S_S4096x1),
    TRef.ternary (TRef.of (T := ⟨S4096x1, .i1⟩) main_call8_v12) (TRef.of (T := ⟨S4096x1, .f32⟩) main_call8_v13) (TRef.of (T := ⟨S4096x1, .f32⟩) main_call8_v14) (TRef.of (T := ⟨S4096x1, .f32⟩) main_v32) select,
    reshape main_v32 main_v33 rfl shapeCasts_S4096x1_S4096,
    unary main_v33 main_v34 (Host.negf),
    nullary main_cst_11 (constant S_ .f32 0x00000000#32),
    TRef.unary (TRef.of (T := ⟨S_, .f32⟩) main_cst_11) (TRef.of (T := ⟨S_, .f32⟩) main_call9_v0) id,
    TRef.unary (TRef.of (T := ⟨S_, .f32⟩) main_call9_v0) (TRef.of (T := ⟨S4096, .f32⟩) main_call9_v1) (broadcastInDim S4096 ![] bcast_S_S4096),
    TRef.ternary (TRef.of (T := ⟨S4096, .i1⟩) main_v23) (TRef.of (T := ⟨S4096, .f32⟩) main_v34) (TRef.of (T := ⟨S4096, .f32⟩) main_call9_v1) (TRef.of (T := ⟨S4096, .f32⟩) main_v35) select ]

abbrev I13 : Prop :=
  W (Proc.devRef .tc main_arg2) = (X2 V)
  ∧ W (Proc.devRef .tc main_v0) = val_main_v0 (F := F) (X0 V)
  ∧ W (Proc.devRef .tc main_v18) = val_main_v18 (F := F) (X0 V) (X1 V) (X3 V) (X4 V)
  ∧ W (Proc.devRef .tc main_v24) = val_main_v24 (F := F) (X1 V)
  ∧ W (Proc.devRef .tc main_v35) = val_main_v35 (F := F) (X0 V) (X1 V) (X5 V) (X6 V)

set_option maxHeartbeats 400000 in
theorem step12 (h : I12 V W) : I13 V (after s12 W) := by
  refine ⟨?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s13 : List (HloOp τ sig (Elt F)) :=
  [ binary main_v0 main_arg2 main_v36 ((fun l r => Host.dotGeneral dot_S4096x1024_S1024x20002_S4096x20002_1_0_0_1_n_n none l r)),
    TRef.nullary (TRef.of (T := ⟨S_, .f32⟩) main_call10_cst) (constant S_ .f32 0xFF800000#32),
    TRef.binary (TRef.of (T := ⟨S4096x20002, .f32⟩) main_v36) (TRef.of (T := ⟨S_, .f32⟩) main_call10_cst) (TRef.of (T := ⟨S4096, .f32⟩) main_call10_v0) (fun x v => Host.reduce FloatOps.maximumf x v reducesTo_S4096x20002_S4096_d1 h_S_),
    TRef.nullary (TRef.of (T := ⟨S_, .f32⟩) main_call10_cst_0) (constant S_ .f32 0xFF800000#32),
    TRef.unary (TRef.of (T := ⟨S_, .f32⟩) main_call10_cst_0) (TRef.of (T := ⟨S4096, .f32⟩) main_call10_v1) (broadcastInDim S4096 ![] bcast_S_S4096),
    TRef.binary (TRef.of (T := ⟨S4096, .f32⟩) main_call10_v1) (TRef.of (T := ⟨S4096, .f32⟩) main_call10_v0) (TRef.of (T := ⟨S4096, .f32⟩) main_call10_v2) maximumf,
    TRef.unary (TRef.of (T := ⟨S4096, .f32⟩) main_call10_v2) (TRef.of (T := ⟨S4096x1, .f32⟩) main_call10_v3) (broadcastInDim S4096x1 ![0] bcast_S4096_S4096x1_0),
    TRef.unary (TRef.of (T := ⟨S4096x1, .f32⟩) main_call10_v3) (TRef.of (T := ⟨S4096x20002, .f32⟩) main_call10_v4) (broadcastInDim S4096x20002 ![0, 1] bcast_S4096x1_S4096x20002_0_1),
    TRef.binary (TRef.of (T := ⟨S4096x20002, .f32⟩) main_v36) (TRef.of (T := ⟨S4096x20002, .f32⟩) main_call10_v4) (TRef.of (T := ⟨S4096x20002, .f32⟩) main_call10_v5) subf ]

abbrev I14 : Prop :=
  W (Proc.devRef .tc main_v18) = val_main_v18 (F := F) (X0 V) (X1 V) (X3 V) (X4 V)
  ∧ W (Proc.devRef .tc main_v24) = val_main_v24 (F := F) (X1 V)
  ∧ W (Proc.devRef .tc main_v35) = val_main_v35 (F := F) (X0 V) (X1 V) (X5 V) (X6 V)
  ∧ W (Proc.devRef .tc main_call10_v5) = val_main_call10_v5 (F := F) (X0 V) (X2 V)

set_option maxHeartbeats 400000 in
theorem step13 (h : I13 V W) : I14 V (after s13 W) := by
  refine ⟨?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s14 : List (HloOp τ sig (Elt F)) :=
  [ TRef.unary (TRef.of (T := ⟨S4096x20002, .f32⟩) main_call10_v5) (TRef.of (T := ⟨S4096x20002, .f32⟩) main_call10_v6) Host.exp,
    TRef.nullary (TRef.of (T := ⟨S_, .f32⟩) main_call10_cst_1) (constant S_ .f32 0x00000000#32),
    TRef.binary (TRef.of (T := ⟨S4096x20002, .f32⟩) main_call10_v6) (TRef.of (T := ⟨S_, .f32⟩) main_call10_cst_1) (TRef.of (T := ⟨S4096, .f32⟩) main_call10_v7) (fun x v => Host.reduceAdd x v reducesTo_S4096x20002_S4096_d1 h_S_),
    TRef.unary (TRef.of (T := ⟨S4096, .f32⟩) main_call10_v7) (TRef.of (T := ⟨S4096x1, .f32⟩) main_call10_v8) (broadcastInDim S4096x1 ![0] bcast_S4096_S4096x1_0),
    TRef.unary (TRef.of (T := ⟨S4096x1, .f32⟩) main_call10_v8) (TRef.of (T := ⟨S4096x1, .f32⟩) main_call10_v9) Host.log,
    TRef.unary (TRef.of (T := ⟨S4096x1, .f32⟩) main_call10_v9) (TRef.of (T := ⟨S4096x20002, .f32⟩) main_call10_v10) (broadcastInDim S4096x20002 ![0, 1] bcast_S4096x1_S4096x20002_0_1),
    TRef.binary (TRef.of (T := ⟨S4096x20002, .f32⟩) main_call10_v5) (TRef.of (T := ⟨S4096x20002, .f32⟩) main_call10_v10) (TRef.of (T := ⟨S4096x20002, .f32⟩) main_v37) subf,
    unary main_v24 main_v38 (broadcastInDim S4096x1 ![0] bcast_S4096_S4096x1_0),
    TRef.nullary (TRef.of (T := ⟨S_, .i32⟩) main_call11_c) (constantI S_ 32 0#32) ]

abbrev I15 : Prop :=
  W (Proc.devRef .tc main_v18) = val_main_v18 (F := F) (X0 V) (X1 V) (X3 V) (X4 V)
  ∧ W (Proc.devRef .tc main_v35) = val_main_v35 (F := F) (X0 V) (X1 V) (X5 V) (X6 V)
  ∧ W (Proc.devRef .tc main_v37) = val_main_v37 (F := F) (X0 V) (X2 V)
  ∧ W (Proc.devRef .tc main_v38) = val_main_v38 (F := F) (X1 V)
  ∧ W (Proc.devRef .tc main_call11_c) = val_main_call11_c (F := F)

set_option maxHeartbeats 400000 in
theorem step14 (h : I14 V W) : I15 V (after s14 W) := by
  refine ⟨?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s15 : List (HloOp τ sig (Elt F)) :=
  [ TRef.unary (TRef.of (T := ⟨S_, .i32⟩) main_call11_c) (TRef.of (T := ⟨S4096x1, .i32⟩) main_call11_v0) (broadcastInDim S4096x1 ![] bcast_S_S4096x1),
    TRef.binary (TRef.of (T := ⟨S4096x1, .i32⟩) main_v38) (TRef.of (T := ⟨S4096x1, .i32⟩) main_call11_v0) (TRef.of (T := ⟨S4096x1, .i1⟩) main_call11_v1) (cmpi .slt),
    TRef.nullary (TRef.of (T := ⟨S_, .i32⟩) main_call11_c_0) (constantI S_ 32 20002#32),
    TRef.unary (TRef.of (T := ⟨S_, .i32⟩) main_call11_c_0) (TRef.of (T := ⟨S4096x1, .i32⟩) main_call11_v2) (broadcastInDim S4096x1 ![] bcast_S_S4096x1),
    TRef.binary (TRef.of (T := ⟨S4096x1, .i32⟩) main_v38) (TRef.of (T := ⟨S4096x1, .i32⟩) main_call11_v2) (TRef.of (T := ⟨S4096x1, .i32⟩) main_call11_v3) addi,
    TRef.ternary (TRef.of (T := ⟨S4096x1, .i1⟩) main_call11_v1) (TRef.of (T := ⟨S4096x1, .i32⟩) main_call11_v3) (TRef.of (T := ⟨S4096x1, .i32⟩) main_v38) (TRef.of (T := ⟨S4096x1, .i32⟩) main_call11_v4) select,
    TRef.reshape (TRef.of (T := ⟨S4096x1, .i32⟩) main_call11_v4) (TRef.of (T := ⟨S4096x1x1, .i32⟩) main_call11_v5) rfl shapeCasts_S4096x1_S4096x1x1,
    TRef.nullary (TRef.of (T := ⟨S1, .i32⟩) main_call11_c_1) (constantI S1 32 20001#32),
    TRef.nullary (TRef.of (T := ⟨S_, .i32⟩) main_call11_c_2) (constantI S_ 32 0#32) ]

abbrev I16 : Prop :=
  W (Proc.devRef .tc main_v18) = val_main_v18 (F := F) (X0 V) (X1 V) (X3 V) (X4 V)
  ∧ W (Proc.devRef .tc main_v35) = val_main_v35 (F := F) (X0 V) (X1 V) (X5 V) (X6 V)
  ∧ W (Proc.devRef .tc main_v37) = val_main_v37 (F := F) (X0 V) (X2 V)
  ∧ W (Proc.devRef .tc main_call11_v5) = val_main_call11_v5 (F := F) (X1 V)
  ∧ W (Proc.devRef .tc main_call11_c_1) = val_main_call11_c_1 (F := F)
  ∧ W (Proc.devRef .tc main_call11_c_2) = val_main_call11_c_2 (F := F)

set_option maxHeartbeats 400000 in
theorem step15 (h : I15 V W) : I16 V (after s15 W) := by
  refine ⟨?_, ?_, ?_, ?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s16 : List (HloOp τ sig (Elt F)) :=
  [ TRef.unary (TRef.of (T := ⟨S_, .i32⟩) main_call11_c_2) (TRef.of (T := ⟨S4096x1x1, .i32⟩) main_call11_v6) (broadcastInDim S4096x1x1 ![] bcast_S_S4096x1x1),
    TRef.binary (TRef.of (T := ⟨S4096x1x1, .i32⟩) main_call11_v5) (TRef.of (T := ⟨S4096x1x1, .i32⟩) main_call11_v6) (TRef.of (T := ⟨S4096x1x1, .i1⟩) main_call11_v7) (cmpi .sge),
    TRef.unary (TRef.of (T := ⟨S1, .i32⟩) main_call11_c_1) (TRef.of (T := ⟨S1x1x1, .i32⟩) main_call11_v8) (broadcastInDim S1x1x1 ![2] bcast_S1_S1x1x1_2),
    TRef.unary (TRef.of (T := ⟨S1x1x1, .i32⟩) main_call11_v8) (TRef.of (T := ⟨S4096x1x1, .i32⟩) main_call11_v9) (broadcastInDim S4096x1x1 ![0, 1, 2] bcast_S1x1x1_S4096x1x1_0_1_2),
    TRef.binary (TRef.of (T := ⟨S4096x1x1, .i32⟩) main_call11_v5) (TRef.of (T := ⟨S4096x1x1, .i32⟩) main_call11_v9) (TRef.of (T := ⟨S4096x1x1, .i1⟩) main_call11_v10) (cmpi .sle),
    TRef.binary (TRef.of (T := ⟨S4096x1x1, .i1⟩) main_call11_v7) (TRef.of (T := ⟨S4096x1x1, .i1⟩) main_call11_v10) (TRef.of (T := ⟨S4096x1x1, .i1⟩) main_call11_v11) andi,
    TRef.nullary (TRef.of (T := ⟨S_, .i1⟩) main_call11_c_3) (constantI S_ 1 1#1),
    TRef.binary (TRef.of (T := ⟨S4096x1x1, .i1⟩) main_call11_v11) (TRef.of (T := ⟨S_, .i1⟩) main_call11_c_3) (TRef.of (T := ⟨S4096x1, .i1⟩) main_call11_v12) (fun x v => Host.reduce IntOp.andi x v reducesTo_S4096x1x1_S4096x1_d2 h_S_),
    TRef.binary (TRef.of (T := ⟨S4096x20002, .f32⟩) main_v37) (TRef.of (T := ⟨S4096x1x1, .i32⟩) main_call11_v5) (TRef.of (T := ⟨S4096x1, .f32⟩) main_call11_v13) (fun x i => Host.gather gather_S4096x20002_S4096x1x1_S4096x1_n_1_0_0_1_2_11 x i),
    TRef.nullary (TRef.of (T := ⟨S_, .f32⟩) main_call11_cst) (constant S_ .f32 0x7FC00000#32),
    TRef.unary (TRef.of (T := ⟨S_, .f32⟩) main_call11_cst) (TRef.of (T := ⟨S4096x1, .f32⟩) main_call11_v14) (broadcastInDim S4096x1 ![] bcast_S_S4096x1),
    TRef.ternary (TRef.of (T := ⟨S4096x1, .i1⟩) main_call11_v12) (TRef.of (T := ⟨S4096x1, .f32⟩) main_call11_v13) (TRef.of (T := ⟨S4096x1, .f32⟩) main_call11_v14) (TRef.of (T := ⟨S4096x1, .f32⟩) main_v39) select,
    reshape main_v39 main_v40 rfl shapeCasts_S4096x1_S4096,
    unary main_v40 main_v41 (Host.negf) ]

abbrev I17 : Prop :=
  W (Proc.devRef .tc main_v18) = val_main_v18 (F := F) (X0 V) (X1 V) (X3 V) (X4 V)
  ∧ W (Proc.devRef .tc main_v35) = val_main_v35 (F := F) (X0 V) (X1 V) (X5 V) (X6 V)
  ∧ W (Proc.devRef .tc main_v41) = val_main_v41 (F := F) (X0 V) (X1 V) (X2 V)

set_option maxHeartbeats 400000 in
theorem step16 (h : I16 V W) : I17 V (after s16 W) := by
  refine ⟨?_, ?_, ?_⟩ <;>
    (simp (disch := decide) only [after_cons, after_nil, nullary_result', unary_result', binary_result', ternary_result', reshape_result', nary3_result', nullary_result_ne', unary_result_ne', binary_result_ne', ternary_result_ne', reshape_result_ne', nary_result_ne']
     try simp only [TRef.ofBuf, TRef.toBuf, cast_eq, h]
     first | done | rfl)

abbrev s17 : List (HloOp τ sig (Elt F)) :=
  [ nary ![main_v18, main_v35, main_v41] main_v42 (fun u => concatenate S12288 0 [⟨S4096, u 0⟩, ⟨S4096, u 1⟩, ⟨S4096, u 2⟩] concatenates_S4096_S4096_S4096_S12288_d0) ]

set_option maxHeartbeats 400000 in
theorem step17 (h : I17 V W) :
    after s17 W (Proc.devRef .tc main_v42) = val_main_v42 (F := F) (X0 V) (X1 V) (X2 V) (X3 V) (X4 V) (X5 V) (X6 V) := by
  obtain ⟨h_v18, h_v35, h_v41⟩ := h
  simp (disch := decide) only [after_cons, after_nil, nullary_result', unary_result', binary_result', ternary_result', reshape_result', nary3_result', nullary_result_ne', unary_result_ne', binary_result_ne', ternary_result_ne', reshape_result_ne', nary_result_ne']
  unfold val_main_v42
  rw [← h_v18, ← h_v35, ← h_v41]
  rfl

abbrev ops : List (HloOp τ sig (Elt F)) := s0 ++ (s1 ++ (s2 ++ (s3 ++ (s4 ++ (s5 ++ (s6 ++ (s7 ++ (s8 ++ (s9 ++ (s10 ++ (s11 ++ (s12 ++ (s13 ++ (s14 ++ (s15 ++ (s16 ++ (s17)))))))))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [ops, s0, s1, s2, s3, s4, s5, s6, s7, s8, s9, s10, s11, s12, s13, s14, s15, s16, s17, List.cons_append, List.nil_append, List.Forall, TRef.unary, TRef.binary, TRef.ternary, nullary_bufs_sub, unary_bufs_sub, binary_bufs_sub, ternary_bufs_sub, reshape_bufs_sub, nary_bufs_sub, and_self]
theorem ops_fresh : ∀ op ∈ (ops : List (HloOp τ sig (Elt F))), op.fresh = ∅ := by
  intro op h
  simp only [ops, List.mem_append] at h
  rcases h with h | h | h | h | h | h | h | h | h | h | h | h | h | h | h | h | h | h <;>
    (repeat (cases h with | head => rfl | tail _ h => ?_)) <;> exact nomatch h

-- No operation writes an argument.
theorem ops_keep (r : Ref sig .tc)
    (hr : r ∈ [main_arg0, main_arg1, main_arg2, main_arg3, main_arg4, main_arg5, main_arg6]) :
    after ops V (Proc.devRef .tc r) = V (Proc.devRef .tc r) := by
  simp only [List.mem_cons, List.not_mem_nil, or_false] at hr
  rcases hr with rfl | rfl | rfl | rfl | rfl | rfl | rfl <;>
    simp (disch := decide) only [ops, after_append, after_cons, after_nil, nullary_result_ne', unary_result_ne', binary_result_ne', ternary_result_ne', reshape_result_ne', nary_result_ne']

-- Chained from the launch valuation, the result buffer ends at the last stage.
theorem ops_result : after ops V (Proc.devRef .tc main_v42) = val_main_v42 (F := F) (X0 V) (X1 V) (X2 V) (X3 V) (X4 V) (X5 V) (X6 V) := by
  simp only [ops, after_append]
  exact step17 V _ (step16 V _ (step15 V _ (step14 V _ (step13 V _ (step12 V _ (step11 V _ (step10 V _ (step9 V _ (step8 V _ (step7 V _ (step6 V _ (step5 V _ (step4 V _ (step3 V _ (step2 V _ (step1 V _ (step0 V V ⟨rfl, rfl, rfl, rfl, rfl, rfl, rfl⟩)))))))))))))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
        = val_main_v42 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
    :=
  (θ_run defs _ _).mono (fun _ h c => ⟨(h c main_v42).trans (ops_result (launchContents m c)),
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide))⟩)
    (run_seq scopedRefs_eq scopedSems_eq defs main (fun _ => ops) main_eq (fun _ => ops_sub) m ρ (fun _ => ops_fresh))

end Cert.ReferenceIdeal.Stage

end
-- ==== Proof.KernelFrame.lean ====
import proofs.«427659_j7121055776931_3_alg».proof.Proof.Gen.Kernel.Regions
import proofs.«427659_j7121055776931_3_alg».proof.Proof.Gen.Kernel.Skeleton
import proofs.«427659_j7121055776931_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

abbrev VT (G : FTy → Type) : Type := (c : Dev nD) → (b : Ref sig .tc) → Buf (Elt G) ((c : Thread nD τ).loc b)

section Proj
variable (V : VT F)

abbrev rX : Rect S2048x1024 := Rect.unit (s := S2048x1024) ![0, 0] S2048x1024.size inb_S2048x1024_S2048x1024_0_0

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rP0 : Rect S1024x256 := Rect.unit (s := S1024x256) ![0, 0] S1024x256.size inb_S1024x256_S1024x256_0_0
abbrev rO0 : Rect S2048x256 := Rect.unit (s := S2048x256) ![0, 0] S2048x256.size inb_S2048x256_S2048x256_0_0

def projOut0 (x : Vec F S2048x1024 .bf16) (p : Vec F S1024x256 .bf16) : Vec F S2048x256 .bf16 :=
  View.canon [⟨rO0, k0_pay1 (View.ld x rX) (View.ld p rP0)⟩]

theorem projOut0_covers (q : Vec F S2048x256 .bf16) (y : S2048x256.Idx) :
    ∃ pc ∈ ([⟨rO0, q⟩] : List (View.Piece (Elt F) S2048x256 .bf16)), y ∈ pc.1.set :=
  View.cover_of_tiled [⟨rO0, q⟩] S2048x256.size (by rfl) y

set_option maxHeartbeats 1000000 in
theorem projRun0 (c : Dev nD) (E : Set ℕ) (i : grid0.Coords) (arg1 : Memref sig .tc .vmem S2048x1024 .bf16) (harg1 : arg1.IsWhole)
    (arg2 : Memref sig .tc .vmem S1024x256 .bf16) (harg2 : arg2.IsWhole) (arg3 : Memref sig .tc .vmem S2048x256 .bf16) (harg3 : arg3.IsWhole)
    (x : Vec F S2048x1024 .bf16) (p : Vec F S1024x256 .bf16) {T0 T1 T2 : Type} (g : T2 → Vec F S2048x256 .bf16) (K : PUnit → sProp 𝕄) :
    iprop(((∃ _ : T0, owns (c : Thread nD τ) arg1 fullShare x) ∗ (∃ _ : T1, owns (c : Thread nD τ) arg2 fullShare p)
          ∗ (∃ d, owns (c : Thread nD τ) arg3 fullShare (g d)))
        ∗ (iprop(owns (c : Thread nD τ) arg1 fullShare x ∗ owns (c : Thread nD τ) arg2 fullShare p
            ∗ owns (c : Thread nD τ) arg3 fullShare (projOut0 x p)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨⟨%d0, %f0, %hf0, H0⟩, ⟨%d1, %f1, %hf1, H1⟩, ⟨%d2, %f2, -, H2⟩⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projOut0_covers _)

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projOut0 (blk0 V c 0 t) (blk0 V c 1 t)
  Φ _ := Pipeline.ΦA spec0 c
  q _ := fullShare
  owed _ := 0

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = projOut0 (blk0 V c 0 t) (blk0 V c 1 t) := by dsimp only [dat0]

theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; dsimp only [dat0]) t d).trans
    (by unfold Dat.fetched Dat.blockOf blk0; dsimp only [dat0]; rfl)
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; dsimp only [dat0]) t d).trans
    (by unfold Dat.fetched Dat.blockOf blk0; dsimp only [dat0]; rfl)

theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc ∗ _)
    ⊢ wp frame _ _ (bodyAt0 t) fun _ => iprop((dat0 V c).Φ t.castSucc ∗ (dat0 V c).owesAt () t.castSucc ∗ _)
  unfold bodyAt0
  simp only [dat0_before0, dat0_before1]
  rw [dat0_after0, dat0_after1, dat0_after2]
  iintro ⟨HΦ, Ho, Hw⟩
  iapply (projRun0 c Set.univ _ _ _ _ _ _ _ (blk0 V c 0 t) (blk0 V c 1 t) _ _)
  isplitl [Hw]; · iexact Hw
  iintro Hw
  isplitl [HΦ]; · iexact HΦ
  isplitl [Ho]; · iexact Ho
  iexact Hw

abbrev rP1 : Rect S1024x64 := Rect.unit (s := S1024x64) ![0, 0] S1024x64.size inb_S1024x64_S1024x64_0_0
abbrev rO1 : Rect S2048x64 := Rect.unit (s := S2048x64) ![0, 0] S2048x64.size inb_S2048x64_S2048x64_0_0

def projOut1 (x : Vec F S2048x1024 .bf16) (p : Vec F S1024x64 .bf16) : Vec F S2048x64 .bf16 :=
  View.canon [⟨rO1, k1_pay1 (View.ld x rX) (View.ld p rP1)⟩]

theorem projOut1_covers (q : Vec F S2048x64 .bf16) (y : S2048x64.Idx) :
    ∃ pc ∈ ([⟨rO1, q⟩] : List (View.Piece (Elt F) S2048x64 .bf16)), y ∈ pc.1.set :=
  View.cover_of_tiled [⟨rO1, q⟩] S2048x64.size (by rfl) y

set_option maxHeartbeats 1000000 in
theorem projRun1 (c : Dev nD) (E : Set ℕ) (i : grid1.Coords) (arg1 : Memref sig .tc .vmem S2048x1024 .bf16) (harg1 : arg1.IsWhole)
    (arg2 : Memref sig .tc .vmem S1024x64 .bf16) (harg2 : arg2.IsWhole) (arg3 : Memref sig .tc .vmem S2048x64 .bf16) (harg3 : arg3.IsWhole)
    (x : Vec F S2048x1024 .bf16) (p : Vec F S1024x64 .bf16) {T0 T1 T2 : Type} (g : T2 → Vec F S2048x64 .bf16) (K : PUnit → sProp 𝕄) :
    iprop(((∃ _ : T0, owns (c : Thread nD τ) arg1 fullShare x) ∗ (∃ _ : T1, owns (c : Thread nD τ) arg2 fullShare p)
          ∗ (∃ d, owns (c : Thread nD τ) arg3 fullShare (g d)))
        ∗ (iprop(owns (c : Thread nD τ) arg1 fullShare x ∗ owns (c : Thread nD τ) arg2 fullShare p
            ∗ owns (c : Thread nD τ) arg3 fullShare (projOut1 x p)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨⟨%d0, %f0, %hf0, H0⟩, ⟨%d1, %f1, %hf1, H1⟩, ⟨%d2, %f2, -, H2⟩⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projOut1_covers _)

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => projOut1 (blk1 V c 0 t) (blk1 V c 1 t)
  Φ _ := Pipeline.ΦA spec1 c
  q _ := fullShare
  owed _ := 0

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) :
    (dat1 V c).after 2 t = projOut1 (blk1 V c 0 t) (blk1 V c 1 t) := by dsimp only [dat1]

theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; dsimp only [dat1]) t d).trans
    (by unfold Dat.fetched Dat.blockOf blk1; dsimp only [dat1]; rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; dsimp only [dat1]) t d).trans
    (by unfold Dat.fetched Dat.blockOf blk1; dsimp only [dat1]; rfl)

theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc ∗ _)
    ⊢ wp frame _ _ (bodyAt1 t) fun _ => iprop((dat1 V c).Φ t.castSucc ∗ (dat1 V c).owesAt () t.castSucc ∗ _)
  unfold bodyAt1
  simp only [dat1_before0, dat1_before1]
  rw [dat1_after0, dat1_after1, dat1_after2]
  iintro ⟨HΦ, Ho, Hw⟩
  iapply (projRun1 c Set.univ _ _ _ _ _ _ _ (blk1 V c 0 t) (blk1 V c 1 t) _ _)
  isplitl [Hw]; · iexact Hw
  iintro Hw
  isplitl [HΦ]; · iexact HΦ
  isplitl [Ho]; · iexact Ho
  iexact Hw

end Proj

abbrev anyAt (c : Dev nD) {sp : Space} {sh : Shape} {e : EltTy} (a : Memref sig .tc sp sh e) : sProp 𝕄 :=
  iprop(∃ f : Buf (Elt F) (a.view.loc (c : Thread nD τ)), a.view.loc (c : Thread nD τ) ↦[a.view.set]{fullShare} f)

theorem owns_any (c : Dev nD) {sp : Space} {sh : Shape} {e : EltTy} (a : Memref sig .tc sp sh e) (d : sh.Idx → Elt F e) :
    (owns (c : Thread nD τ) a fullShare d : sProp 𝕄) ⊢ anyAt c a := by
  unfold owns; iintro ⟨%f, -, H⟩; iexists f; iexact H

theorem any_owns (c : Dev nD) {sp : Space} {sh : Shape} {e : EltTy} (a : Memref sig .tc sp sh e) (P : (sh.Idx → Elt F e) → Prop) (hP : ∀ X, P X) :
    (anyAt c a : sProp 𝕄) ⊢ iprop(∃ X, ⌜P X⌝ ∗ owns (c : Thread nD τ) a fullShare X) := by
  unfold owns; iintro ⟨%f, H⟩; iexists (a.view.read (Elt F) f); isplitr; · ipureintro; exact hP _
  iexists f; isplitr; · ipureintro; rfl
  iexact H

theorem scr_in (c : Dev nD) (b : Ref sig .tc) :
    (iprop(∃ f : Buf (Elt F) ((c : Thread nD τ).loc b), ((c : Thread nD τ).loc b) ↦{fullShare} f) : sProp 𝕄) ⊢ anyAt c (Memref.whole b) := by
  iintro ⟨%f, H⟩; iapply (owns_any c (Memref.whole b) f); rw [owns_whole]; iexact H

theorem scr_out (c : Dev nD) (b : Ref sig .tc) :
    (anyAt c (Memref.whole b) : sProp 𝕄) ⊢ iprop(∃ f : Buf (Elt F) ((c : Thread nD τ).loc b), ((c : Thread nD τ).loc b) ↦{fullShare} f) := by
  iintro H
  ihave H' := (any_owns c (Memref.whole b) (fun _ => True) fun _ => trivial) $$ H
  icases H' with ⟨%X, -, H'⟩
  iexists X
  iapply (Entails.of_eq (owns_whole (Val := Elt F) (Ix := Unit) (Name := ℕ) (U := UR sig nD τ) (Lvl := ℕ) (c : Thread nD τ) b fullShare X))
  iexact H'

abbrev vocab0 (v : ℕ) : Prop :=
  Scalar.cmpi .ne (Scalar.extui (Scalar.cmpi .eq (BitVec.ofNat 32 v) 0#32) : BitVec 32) 0#32 = 1#1

def rdatL (cfg : Cfg sig Λ₀) (V : VT F) (c : Dev nD) :
    RDat τ (Elt F) Unit ℕ (UR sig nD τ) ℕ cfg c where
  A w := V c (Pipeline.arrRef cfg.spec w)
  after _ _ _ _ := True
  Φ _ := Pipeline.ΦA cfg.spec c
  q _ := fullShare
  owed _ := 0

set_option maxHeartbeats 1000000 in
theorem kernelRun2 (c : Dev nD) (i : grid2.Coords)
    (arg2 : Memref sig .tc .vmem S2048x256 .bf16) (harg2 : arg2.IsWhole) (arg3 : Memref sig .tc .vmem S256x512 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (E : Set ℕ) (K : PUnit → sProp 𝕄) :
    iprop(((anyAt c arg2 ∗ anyAt c arg3 ∗ anyAt c arg4 ∗ anyAt c arg5 ∗ anyAt c arg6) ∗ anyAt c arg7 ∗ anyAt c arg8 ∗ anyAt c arg9) ∗ (((anyAt c arg2 ∗ anyAt c arg3 ∗ anyAt c arg4 ∗ anyAt c arg5 ∗ anyAt c arg6) ∗ anyAt c arg7 ∗ anyAt c arg8 ∗ anyAt c arg9) -∗ K ⟨⟩))
      ⊢ wp frame (wpE (defs₀ (F := F)) Variants.none c none) E (cc2__tail_ce_kernel i arg2 harg2 arg3 harg3 arg4 harg4 arg5 harg5 arg6 harg6 arg7 harg7 arg8 harg8 arg9 harg9) K := by
  simp only [cc2__tail_ce_kernel_eq_skeleton]; unfold cc2__tail_ce_kernel_skel
  unfold anyAt
  iintro ⟨⟨⟨⟨%f0, H0⟩, ⟨%f1, H1⟩, ⟨%f2, H2⟩, ⟨%f3, H3⟩, ⟨%f4, H4⟩⟩, ⟨%f5, H5⟩, ⟨%f6, H6⟩, ⟨%f7, H7⟩⟩, Hk⟩
  by_cases h1 : vocab0 (i 1).val <;> by_cases h2 : k2_cond2 i = 1#1
  all_goals
    sl_exec (disch := first | sl_exact h1 | sl_exact h2)
    sl_step
    iapply Hk
    isplitl [H0 H1 H2 H3 H4]
    · isplitl [H0]; · iexists _; iexact H0
      isplitl [H1]; · iexists _; iexact H1
      isplitl [H2]; · iexists _; iexact H2
      isplitl [H3]; · iexists _; iexact H3
      iexists _; iexact H4
    isplitl [H5]; · iexists _; iexact H5
    isplitl [H6]; · iexists _; iexact H6
    iexists _; iexact H7

theorem body2 (V : VT F) (c : Dev nD) :
    (rdatL cfg2 V c).BodyObligation (defs₀ (F := F)) Variants.none () Set.univ := fun t Y hY => by
  rw [bigSep_W2, bigSep_W2]
  show iprop(Pipeline.ΦA spec2 c ∗ _) ⊢ wp frame _ _ (bodyAt2 t) fun _ => iprop(Pipeline.ΦA spec2 c ∗ _)
  unfold Pipeline.ΦA bodyAt2
  rw [scopedRest2_split]
  iintro ⟨⟨⟨Hs, Hrest⟩, Hp⟩, Ho, Hw⟩
  iapply (kernelRun2 c (grid2.coords t) _ _ _ _ _ _ _ _ _ _ _ _ _ _ _ _ Set.univ _)
  isplitl [Hw Hs]
  · isplitl [Hw]
    · iapply (BIClass.sep_mono (owns_any c _ _) (BIClass.sep_mono (owns_any c _ _) (BIClass.sep_mono (owns_any c _ _) (BIClass.sep_mono (owns_any c _ _) (owns_any c _ _))))); iexact Hw
    iapply (BIClass.sep_mono (scr_in c _) (BIClass.sep_mono (scr_in c _) (scr_in c _))); iexact Hs
  iintro ⟨Hw, Hs⟩
  isplitl [Hs Hrest Hp]
  · isplitr [Hp]; swap; · iexact Hp
    isplitr [Hrest]; swap; · iexact Hrest
    iapply (BIClass.sep_mono (scr_out c _) (BIClass.sep_mono (scr_out c _) (scr_out c _))); iexact Hs
  isplitl [Ho]; · iexact Ho
  iapply (BIClass.sep_mono (any_owns c _ _ fun _ => trivial) (BIClass.sep_mono (any_owns c _ _ fun _ => trivial) (BIClass.sep_mono (any_owns c _ _ fun _ => trivial) (BIClass.sep_mono (any_owns c _ _ fun _ => trivial) (any_owns c _ _ fun _ => trivial))))); iexact Hw

set_option maxHeartbeats 1000000 in
theorem kernelRun3 (c : Dev nD) (i : grid3.Coords)
    (arg2 : Memref sig .tc .vmem S2048x64 .bf16) (harg2 : arg2.IsWhole) (arg3 : Memref sig .tc .vmem S64x512 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (E : Set ℕ) (K : PUnit → sProp 𝕄) :
    iprop(((anyAt c arg2 ∗ anyAt c arg3 ∗ anyAt c arg4 ∗ anyAt c arg5 ∗ anyAt c arg6) ∗ anyAt c arg7 ∗ anyAt c arg8 ∗ anyAt c arg9) ∗ (((anyAt c arg2 ∗ anyAt c arg3 ∗ anyAt c arg4 ∗ anyAt c arg5 ∗ anyAt c arg6) ∗ anyAt c arg7 ∗ anyAt c arg8 ∗ anyAt c arg9) -∗ K ⟨⟩))
      ⊢ wp frame (wpE (defs₀ (F := F)) Variants.none c none) E (cc3__tail_ce_kernel i arg2 harg2 arg3 harg3 arg4 harg4 arg5 harg5 arg6 harg6 arg7 harg7 arg8 harg8 arg9 harg9) K := by
  simp only [cc3__tail_ce_kernel_eq_skeleton]; unfold cc3__tail_ce_kernel_skel
  unfold anyAt
  iintro ⟨⟨⟨⟨%f0, H0⟩, ⟨%f1, H1⟩, ⟨%f2, H2⟩, ⟨%f3, H3⟩, ⟨%f4, H4⟩⟩, ⟨%f5, H5⟩, ⟨%f6, H6⟩, ⟨%f7, H7⟩⟩, Hk⟩
  by_cases h1 : vocab0 (i 1).val <;> by_cases h2 : k3_cond2 i = 1#1
  all_goals
    sl_exec (disch := first | sl_exact h1 | sl_exact h2)
    sl_step
    iapply Hk
    isplitl [H0 H1 H2 H3 H4]
    · isplitl [H0]; · iexists _; iexact H0
      isplitl [H1]; · iexists _; iexact H1
      isplitl [H2]; · iexists _; iexact H2
      isplitl [H3]; · iexists _; iexact H3
      iexists _; iexact H4
    isplitl [H5]; · iexists _; iexact H5
    isplitl [H6]; · iexists _; iexact H6
    iexists _; iexact H7

theorem body3 (V : VT F) (c : Dev nD) :
    (rdatL cfg3 V c).BodyObligation (defs₀ (F := F)) Variants.none () Set.univ := fun t Y hY => by
  rw [bigSep_W3, bigSep_W3]
  show iprop(Pipeline.ΦA spec3 c ∗ _) ⊢ wp frame _ _ (bodyAt3 t) fun _ => iprop(Pipeline.ΦA spec3 c ∗ _)
  unfold Pipeline.ΦA bodyAt3
  rw [scopedRest3_split]
  iintro ⟨⟨⟨Hs, Hrest⟩, Hp⟩, Ho, Hw⟩
  iapply (kernelRun3 c (grid3.coords t) _ _ _ _ _ _ _ _ _ _ _ _ _ _ _ _ Set.univ _)
  isplitl [Hw Hs]
  · isplitl [Hw]
    · iapply (BIClass.sep_mono (owns_any c _ _) (BIClass.sep_mono (owns_any c _ _) (BIClass.sep_mono (owns_any c _ _) (BIClass.sep_mono (owns_any c _ _) (owns_any c _ _))))); iexact Hw
    iapply (BIClass.sep_mono (scr_in c _) (BIClass.sep_mono (scr_in c _) (scr_in c _))); iexact Hs
  iintro ⟨Hw, Hs⟩
  isplitl [Hs Hrest Hp]
  · isplitr [Hp]; swap; · iexact Hp
    isplitr [Hrest]; swap; · iexact Hrest
    iapply (BIClass.sep_mono (scr_out c _) (BIClass.sep_mono (scr_out c _) (scr_out c _))); iexact Hs
  isplitl [Ho]; · iexact Ho
  iapply (BIClass.sep_mono (any_owns c _ _ fun _ => trivial) (BIClass.sep_mono (any_owns c _ _ fun _ => trivial) (BIClass.sep_mono (any_owns c _ _ fun _ => trivial) (BIClass.sep_mono (any_owns c _ _ fun _ => trivial) (any_owns c _ _ fun _ => trivial))))); iexact Hw

set_option maxHeartbeats 1000000 in
theorem kernelRun4 (c : Dev nD) (i : grid4.Coords)
    (arg2 : Memref sig .tc .vmem S2048x1024 .bf16) (harg2 : arg2.IsWhole) (arg3 : Memref sig .tc .vmem S1024x512 .bf16) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (E : Set ℕ) (K : PUnit → sProp 𝕄) :
    iprop(((anyAt c arg2 ∗ anyAt c arg3 ∗ anyAt c arg4 ∗ anyAt c arg5) ∗ anyAt c arg6 ∗ anyAt c arg7 ∗ anyAt c arg8) ∗ (((anyAt c arg2 ∗ anyAt c arg3 ∗ anyAt c arg4 ∗ anyAt c arg5) ∗ anyAt c arg6 ∗ anyAt c arg7 ∗ anyAt c arg8) -∗ K ⟨⟩))
      ⊢ wp frame (wpE (defs₀ (F := F)) Variants.none c none) E (cc4__head_ce_kernel i arg2 harg2 arg3 harg3 arg4 harg4 arg5 harg5 arg6 harg6 arg7 harg7 arg8 harg8) K := by
  simp only [cc4__head_ce_kernel_eq_skeleton]; unfold cc4__head_ce_kernel_skel
  unfold anyAt
  iintro ⟨⟨⟨⟨%f0, H0⟩, ⟨%f1, H1⟩, ⟨%f2, H2⟩, ⟨%f3, H3⟩⟩, ⟨%f4, H4⟩, ⟨%f5, H5⟩, ⟨%f6, H6⟩⟩, Hk⟩
  by_cases h1 : vocab0 (i 1).val <;> by_cases h2 : k4_cond2 i = 1#1
  all_goals
    sl_exec (disch := first | sl_exact h1 | sl_exact h2)
    sl_step
    iapply Hk
    isplitl [H0 H1 H2 H3]
    · isplitl [H0]; · iexists _; iexact H0
      isplitl [H1]; · iexists _; iexact H1
      isplitl [H2]; · iexists _; iexact H2
      iexists _; iexact H3
    isplitl [H4]; · iexists _; iexact H4
    isplitl [H5]; · iexists _; iexact H5
    iexists _; iexact H6

theorem body4 (V : VT F) (c : Dev nD) :
    (rdatL cfg4 V c).BodyObligation (defs₀ (F := F)) Variants.none () Set.univ := fun t Y hY => by
  rw [bigSep_W4, bigSep_W4]
  show iprop(Pipeline.ΦA spec4 c ∗ _) ⊢ wp frame _ _ (bodyAt4 t) fun _ => iprop(Pipeline.ΦA spec4 c ∗ _)
  unfold Pipeline.ΦA bodyAt4
  rw [scopedRest4_split]
  iintro ⟨⟨⟨Hs, Hrest⟩, Hp⟩, Ho, Hw⟩
  iapply (kernelRun4 c (grid4.coords t) _ _ _ _ _ _ _ _ _ _ _ _ _ _ Set.univ _)
  isplitl [Hw Hs]
  · isplitl [Hw]
    · iapply (BIClass.sep_mono (owns_any c _ _) (BIClass.sep_mono (owns_any c _ _) (BIClass.sep_mono (owns_any c _ _) (owns_any c _ _)))); iexact Hw
    iapply (BIClass.sep_mono (scr_in c _) (BIClass.sep_mono (scr_in c _) (scr_in c _))); iexact Hs
  iintro ⟨Hw, Hs⟩
  isplitl [Hs Hrest Hp]
  · isplitr [Hp]; swap; · iexact Hp
    isplitr [Hrest]; swap; · iexact Hrest
    iapply (BIClass.sep_mono (scr_out c _) (BIClass.sep_mono (scr_out c _) (scr_out c _))); iexact Hs
  isplitl [Ho]; · iexact Ho
  iapply (BIClass.sep_mono (any_owns c _ _ fun _ => trivial) (BIClass.sep_mono (any_owns c _ _ fun _ => trivial) (BIClass.sep_mono (any_owns c _ _ fun _ => trivial) (any_owns c _ _ fun _ => trivial)))); iexact Hw

theorem held_split (p : Fin 5) (hw : Pipeline.WinFacts (cfgs p).spec) (c : Dev nD) (V : Valuation τ sig (Elt F)) :
    (StableHlo.held (c : Thread nD τ) (Pipeline.ucRefs τ sig) V : sProp 𝕄)
      = iprop(Pipeline.arrPts (cfgs p).spec c (fun w => V (Pipeline.arrRef (cfgs p).spec w)) ∗ Pipeline.unscopedRest (cfgs p).spec c (fun b => V b)) := by
  rw [← Pipeline.unscopedBufs_held (Ix := Unit) (Name := ℕ) (U := UR sig nD τ) (Lvl := ℕ) c V,
    Pipeline.unscopedBufs_split cfgs p hw.arr_unscoped hw.arr_inj c]
  rfl

theorem held_join (p : Fin 5) (hw : Pipeline.WinFacts (cfgs p).spec) (c : Dev nD) (V : Valuation τ sig (Elt F))
    (A : (w : Fin (cfgs p).W) → Buf (Elt F) (((cfgs p).spec w).arr.view.loc (c : Thread nD τ))) :
    iprop(Pipeline.arrPts (cfgs p).spec c A ∗ Pipeline.unscopedRest (cfgs p).spec c (fun b => V b))
      ⊢ (StableHlo.held (c : Thread nD τ) (Pipeline.ucRefs τ sig) (Pipeline.withArrays (cfgs p).spec c V A) : sProp 𝕄) := by
  rw [held_split p hw c]
  refine sep_mono (Entails.of_eq ?_) (Entails.of_eq ?_)
  · unfold Pipeline.arrPts; exact bigSep_congr fun w _ => by beta_reduce; rw [Pipeline.withArrays_arr _ hw.arr_inj]
  · unfold Pipeline.unscopedRest
    exact bigSep_congr fun b hb => by
      beta_reduce
      rw [Pipeline.withArrays_of_ne _ c V A b fun w e => (Finset.mem_sdiff.mp hb).2 (Finset.mem_image.mpr ⟨w, Finset.mem_univ _, e⟩)]

theorem arrays_pts {cfg : Cfg sig Λ₀} {c : Dev nD} (rd : RDat τ (Elt F) Unit ℕ (UR sig nD τ) ℕ cfg c)
    (harr : ∀ w, (cfg.spec w).arr.IsWhole) (hshare : ∀ w, rd.share w = fullShare)
    (A : (w : Fin cfg.W) → Buf (Elt F) ((cfg.spec w).arr.view.loc (c : Thread nD τ))) :
    (rd.arrays A : sProp 𝕄) = Pipeline.arrPts cfg.spec c A := by
  unfold RDat.arrays Pipeline.arrPts
  exact bigSep_congr fun w _ => by rw [(harr w).set_eq_univ, hshare w]

theorem arraysAt_open {cfg : Cfg sig Λ₀} {c : Dev nD} (rd : RDat τ (Elt F) Unit ℕ (UR sig nD τ) ℕ cfg c)
    (harr : ∀ w, (cfg.spec w).arr.IsWhole) (hshare : ∀ w, rd.share w = fullShare) (n : ℕ) :
    (rd.arraysAt n : sProp 𝕄) ⊢ iprop(∃ A, ⌜∀ w, rd.ArrAt w n (A w)⌝ ∗ Pipeline.arrPts cfg.spec c A) := by
  unfold RDat.arraysAt
  iintro Ha
  ihave Ha' := (BI.bigSep_exists_pi Finset.univ (fun w F => iprop(⌜rd.ArrAt w n F⌝
      ∗ (cfg.win w).arr.view.loc (c : Thread nD τ) ↦[(cfg.win w).arr.view.set]{rd.share w} F))) $$ Ha
  icases Ha' with ⟨%A, Ha⟩
  ihave Ha2 := (BI.bigSep_pure_sep Finset.univ (fun w => rd.ArrAt w n (A w))
      (fun w => (cfg.win w).arr.view.loc (c : Thread nD τ) ↦[(cfg.win w).arr.view.set]{rd.share w} A w)) $$ Ha
  icases Ha2 with ⟨%hA', Ha⟩
  iexists A; isplitr; · ipureintro; exact fun w => hA' w (Finset.mem_univ w)
  unfold Pipeline.arrPts
  iapply (Entails.of_eq (bigSep_congr (fun w _ => by rw [(harr w).set_eq_univ, hshare w]) :
      (bigSep Finset.univ fun w => ((cfg.win w).arr.view.loc (c : Thread nD τ) ↦[(cfg.win w).arr.view.set]{rd.share w} A w : sProp 𝕄))
        = bigSep Finset.univ fun w => (((c : Thread nD τ).loc (Pipeline.arrRef cfg.spec w)) ↦{fullShare} A w : sProp 𝕄)))
  iexact Ha

section Run
variable (m : (ℓ : Loc nD τ sig) → Buf (Elt F) ℓ)

abbrev Rr (c : Dev nD) : sProp 𝕄 := iprop((∃ r, prngReg c r) ∗ ∃ W, owes (c : Thread nD τ) (0 : CellTallies nD τ sig Unit) W)
abbrev 𝒱n : Variants := Variants.none
abbrev Lz : GSem nD τ sig → Finset Unit := fun _ => ∅
abbrev lvz : GSem nD τ sig → Unit → ℕ := fun _ _ => 0
abbrev Er : Fin 6 → Dev nD → sProp 𝕄 := fun _ c => Rr c

abbrev U9 : VT F := fun c b => V9 m c b
def W10 (c : Dev nD) : Valuation τ sig (Elt F) :=
  Pipeline.withArrays spec0 c (V9 m c) fun w => (dat0 (U9 m) c).arrAt w cfg0.N
abbrev U10 : VT F := fun c b => W10 m c b
def W11 (c : Dev nD) : Valuation τ sig (Elt F) :=
  Pipeline.withArrays spec1 c (W10 m c) fun w => (dat1 (U10 m) c).arrAt w cfg1.N
abbrev U11 : VT F := fun c b => W11 m c b

def rdats : (p : Fin 5) → (c : Dev nD) → RDat τ (Elt F) Unit ℕ (UR sig nD τ) ℕ (Pipeline.pin (pcfgs (F := F)) adm p) c
  | ⟨0, _⟩ => fun c => (dat0 (U9 m) c).toR
  | ⟨1, _⟩ => fun c => (dat1 (U10 m) c).toR
  | ⟨2, _⟩ => fun c => rdatL cfg2 (U11 m) c
  | ⟨3, _⟩ => fun c => rdatL cfg3 (U11 m) c
  | ⟨4, _⟩ => fun c => rdatL cfg4 (U11 m) c

def Agree (l : List (Ref sig .tc)) (c : Dev nD) (V : Valuation τ sig (Elt F)) : Prop :=
  ∀ b : Ref sig .tc, b ∉ l → V b = W11 m c b

def TS (Q : Dev nD → Valuation τ sig (Elt F) → Prop) (c : Dev nD) : sProp 𝕄 :=
  iprop(∃ V : Valuation τ sig (Elt F), ⌜Q c V⌝ ∗ StableHlo.held (c : Thread nD τ) (Pipeline.ucRefs τ sig) V ∗ Rr c)

theorem W11_kept (c : Dev nD) (r : Ref sig .tc) (h0 : ∀ w, Pipeline.arrRef spec0 w ≠ r) (h1 : ∀ w, Pipeline.arrRef spec1 w ≠ r)
    (hw : r ∉ hostOps0_W ∧ r ∉ hostOps0_1_W ∧ r ∉ hostOps0_2_W ∧ r ∉ hostOps0_3_W ∧ r ∉ hostOps0_4_W ∧ r ∉ hostOps0_5_W
      ∧ r ∉ hostOps0_6_W ∧ r ∉ hostOps0_7_W ∧ r ∉ hostOps0_8_W) : W11 m c r = m ((c : Thread nD τ).loc r) := by
  obtain ⟨a1, a2, a3, a4, a5, a6, a7, a8, a9⟩ := hw
  unfold W11; rw [Pipeline.withArrays_of_ne _ c _ _ r h1]
  unfold W10; rw [Pipeline.withArrays_of_ne _ c _ _ r h0]
  exact (V9_of m c r a9).trans <| (V8_of m c r a8).trans <| (V7_of m c r a7).trans <| (V6_of m c r a6).trans <| (V5_of m c r a5).trans <|
    (V4_of m c r a4).trans <| (V3_of m c r a3).trans <| (V2_of m c r a2).trans <| (V1_of m c r a1).trans rfl

end Run

section Regs
variable (m : (ℓ : Loc nD τ sig) → Buf (Elt F) ℓ)

theorem agree_in (p : Fin 5) (l : List (Ref sig .tc)) (hl : ∀ w, Pipeline.arrRef (cfgs p).spec w ∉ l) (c : Dev nD)
    (V : Valuation τ sig (Elt F)) (hV : Agree m l c V) (w : Fin (cfgs p).W) :
    (rdatL (cfgs p) (U11 m) c).A w = V (Pipeline.arrRef (cfgs p).spec w) := (hV _ (hl w)).symm

theorem agree_exit (p : Fin 5) (L : Pipeline.LaunchFacts (nD := nD) (τ := τ) cfgs p) (l : List (Ref sig .tc)) (r : Ref sig .tc)
    (hio : ∀ w, Pipeline.arrRef (cfgs p).spec w ∉ l ++ [r] → ((cfgs p).win w).isOut = false) (c : Dev nD) (V : Valuation τ sig (Elt F))
    (A : (w : Fin (cfgs p).W) → Buf (Elt F) (((cfgs p).spec w).arr.view.loc (c : Thread nD τ)))
    (hV : Agree m l c V) (hA : ∀ w, (rdatL (cfgs p) (U11 m) c).ArrAt w (cfgs p).N (A w)) :
    Agree m (l ++ [r]) c (Pipeline.withArrays (cfgs p).spec c V A) := by
  intro b hb
  by_cases h : ∃ w, Pipeline.arrRef (cfgs p).spec w = b
  · obtain ⟨w, rfl⟩ := h
    rw [Pipeline.withArrays_arr (cfgs p).spec L.win.arr_inj c V A w]
    have h1 := hA w
    rw [(rdatL (cfgs p) (U11 m) c).ArrAt_in w (hio w hb) (cfgs p).N] at h1
    exact h1
  · rw [Pipeline.withArrays_of_ne _ c V A b fun w e => h ⟨w, e⟩]
    exact hV b fun hm => hb (List.mem_append_left _ hm)

set_option backward.isDefEq.respectTransparency.types false in
/-- Entered at any valuation Q admits (each names the arrays' entry contents); left with the arrays at what the write-backs may leave, which Q' admits. -/
def genReg (rds : (p : Fin 5) → (c : Dev nD) → RDat τ (Elt F) Unit ℕ (UR sig nD τ) ℕ (Pipeline.pin (pcfgs (F := F)) adm p) c)
    (p : Fin 5) (L : Pipeline.LaunchFacts (nD := nD) (τ := τ) cfgs p) (Q Q' : Dev nD → Valuation τ sig (Elt F) → Prop)
    (hb : ∀ c, (rds p c).BodyObligation (defs₀ (F := F)) 𝒱n () Set.univ)
    (hΦ : ∀ c t, (rds p c).Φ t = Pipeline.ΦA (cfgs p).spec c) (hq : ∀ c w, (rds p c).q w = fullShare)
    (ho : ∀ c t, (rds p c).owed t = 0) (hrec : ∀ c x, x ∈ (rds p c).recorded 0)
    (hA : ∀ c V, Q c V → ∀ w, (rds p c).A w = V (Pipeline.arrRef (cfgs p).spec w))
    (hex : ∀ c V A, Q c V → (∀ w, (rds p c).ArrAt w (cfgs p).N (A w)) → Q' c (Pipeline.withArrays (cfgs p).spec c V A)) :
    Pipeline.RDat.RegionSeg (pcfgs (F := F)) adm rds () defs₀ 𝒱n Lz lvz p where
  win := L.win.to₀
  block_pos := L.block_pos
  stage_whole := L.stage_whole
  K := PEmpty
  osem k := k.elim
  ho := Pipeline.OwnSemFacts.none _
  hbody := hb
  hwaits := Pipeline.RDat.hwaits_of_owed_zero _ _ _ _ Lz lvz p ho
  pre := TS Q
  post := TS Q'
  X c := iprop(∃ r, prngReg c r)
  Y c := iprop(∃ r, prngReg c r)
  Z c := iprop(∃ V : Valuation τ sig (Elt F), ⌜Q c V⌝
    ∗ Pipeline.unscopedRest (Ix := Unit) (Name := ℕ) (U := UR sig nD τ) (Lvl := ℕ) (cfgs p).spec c (fun b => V b))
  hentry c := by
    rw [Pipeline.ownSems0_none]
    unfold TS Pipeline.RDat.owesAt Pipeline.owesWithin
    rw [ho]
    iintro ⟨⟨%V, %hV, Hh, Hp, HO⟩, -, -⟩
    ihave Hh' := (Entails.of_eq (held_split p L.win c V)) $$ Hh
    icases Hh' with ⟨Ha, Hrest⟩
    have hAeq : ((rds p c).arrays (rds p c).A : sProp 𝕄)
        = Pipeline.arrPts (cfgs p).spec c (fun w => V (Pipeline.arrRef (cfgs p).spec w)) :=
      (arrays_pts _ L.arr_whole (fun w => RDat.share_full _ (hq c) w) _).trans
        (congrArg (Pipeline.arrPts (cfgs p).spec c) (funext (hA c V hV)))
    imodintro
    isplitl [Ha]; · iapply (Entails.of_eq hAeq.symm); iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexists V; isplitr; · ipureintro; exact hV
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    unfold TS Pipeline.RDat.owesAt Pipeline.owesWithin
    rw [ho]
    iintro ⟨Ha, ⟨%W, -, HO⟩, HY, ⟨%V, %hV, Hrest⟩⟩
    ihave Ha' := (arraysAt_open (rds p c) L.arr_whole (fun w => RDat.share_full _ (hq c) w) _) $$ Ha
    icases Ha' with ⟨%A, %hA', Ha⟩
    imodintro
    iexists (Pipeline.withArrays (cfgs p).spec c V A)
    isplitr; · ipureintro; exact hex c V A hV hA'
    isplitl [Ha Hrest]
    · iapply (held_join p L.win c V A); isplitl [Ha] <;> iassumption
    isplitl [HY]; · iexact HY
    iexists W; iexact HO

def reg0 :=
  genReg (rdats m) 0 launch0 (fun c V => V = V9 m c) (fun c V => V = W10 m c) (fun c => (body_obligation0 (U9 m) c).toR)
    (fun _ _ => rfl) (fun _ _ => rfl) (fun _ _ => rfl) (fun _ _ => trivial) (fun c V hV w => by subst hV; rfl)
    fun c V A hV hA => by
      subst hV; exact congrArg (Pipeline.withArrays spec0 c (V9 m c)) (funext fun w => (dat0 (U9 m) c).toR_arrAt w _ _ (hA w))
def reg1 :=
  genReg (rdats m) 1 launch1 (fun c V => V = W10 m c) (Agree m []) (fun c => (body_obligation1 (U10 m) c).toR)
    (fun _ _ => rfl) (fun _ _ => rfl) (fun _ _ => rfl) (fun _ _ => trivial) (fun c V hV w => by subst hV; rfl)
    fun c V A hV hA b _ => by
      subst hV; exact congrFun (congrArg (Pipeline.withArrays spec1 c (W10 m c)) (funext fun w => (dat1 (U10 m) c).toR_arrAt w _ _ (hA w))) _
def reg2 :=
  genReg (rdats m) 2 launch2 (Agree m []) (Agree m [main_v35]) (body2 (U11 m))
    (fun _ _ => rfl) (fun _ _ => rfl) (fun _ _ => rfl) (fun _ _ => trivial) (agree_in m 2 [] (by decide)) (agree_exit m 2 launch2 [] main_v35 (by decide))
def reg3 :=
  genReg (rdats m) 3 launch3 (Agree m [main_v35]) (Agree m [main_v35, main_v36]) (body3 (U11 m))
    (fun _ _ => rfl) (fun _ _ => rfl) (fun _ _ => rfl) (fun _ _ => trivial) (agree_in m 3 _ (by decide)) (agree_exit m 3 launch3 [main_v35] main_v36 (by decide))
def reg4 :=
  genReg (rdats m) 4 launch4 (Agree m [main_v35, main_v36]) (Agree m [main_v35, main_v36, main_v37]) (body4 (U11 m))
    (fun _ _ => rfl) (fun _ _ => rfl) (fun _ _ => rfl) (fun _ _ => trivial) (agree_in m 4 _ (by decide)) (agree_exit m 4 launch4 [main_v35, main_v36] main_v37 (by decide))

end Regs

section Launch
variable (m : (ℓ : Loc nD τ sig) → Buf (Elt F) ℓ) (ρ : Dev nD → PrngReg)

theorem agree_after5 (c : Dev nD) (V : Valuation τ sig (Elt F)) (hV : Agree m [main_v35, main_v36, main_v37] c V) :
    Agree m [main_v35, main_v36, main_v37, main_v38, main_v39, main_v40, main_v41] c (StableHlo.after hostOps5 V) := by
  intro b hb
  rw [StableHlo.after_of_writes_sub hostOps5 V hostOps5_writes (r := b) (fun hm => hb (List.mem_append_right [main_v35, main_v36, main_v37] hm))]
  exact hV b fun hm => hb (List.mem_append_left hostOps5_W hm)

set_option backward.isDefEq.respectTransparency.types false in
def seg14x : Pipeline.HostSeg (Name := ℕ) (U := UR sig nD τ) (pcfgs (F := F)) defs₀ 𝒱n Lz lvz where
  prog := StableHlo.seq hostOps5
  pre c := TS (Agree m [main_v35, main_v36, main_v37]) c
  post c := TS (Agree m [main_v35, main_v36, main_v37, main_v38, main_v39, main_v40, main_v41]) c
  run c {β} k K := by
    unfold TS
    iintro ⟨Hk, Hbd, ⟨%V, %hV, Hh, HR⟩, Hla⟩
    have h := (Pipeline.HostSeg.ofOps (Name := ℕ) (U := UR sig nD τ) (pcfgs (F := F)) defs₀ 𝒱n Lz lvz (Pipeline.ucRefs τ sig) hostOps5
      (fun op h => Pipeline.sub_ucRefs op ((List.forall_iff_forall_mem.mp hostOps5_sub) op h))
      (fun op h => (List.forall_iff_forall_mem.mp hostOps5_fresh) op h) (fun _ => V) (fun c => Rr c)).run c k K
    dsimp only [Pipeline.HostSeg.ofOps] at h
    iapply h
    isplitl [Hk]
    · iintro ⟨Hbd, Hh, HR⟩
      iapply Hk
      isplitl [Hbd]; · iexact Hbd
      iexists (StableHlo.after hostOps5 V)
      isplitr; · ipureintro; exact agree_after5 m c V hV
      isplitl [Hh] <;> iassumption
    isplitl [Hbd]; · iexact Hbd
    isplitl [Hh HR]; · isplitl [Hh] <;> iassumption
    iexact Hla

abbrev segsR : List (Pipeline.RDat.Seg (pcfgs (F := F)) adm (rdats m) () defs₀ 𝒱n Lz lvz) :=
  [.host (seg0 m 𝒱n Lz lvz Er), .host (seg1 m 𝒱n Lz lvz Er), .host (seg2 m 𝒱n Lz lvz Er), .host (seg3 m 𝒱n Lz lvz Er),
   .host (seg4 m 𝒱n Lz lvz Er), .host (seg5 m 𝒱n Lz lvz Er), .host (seg6 m 𝒱n Lz lvz Er), .host (seg7 m 𝒱n Lz lvz Er),
   .host (seg8 m 𝒱n Lz lvz Er), .region (reg0 m), .region (reg1 m), .region (reg2 m), .region (reg3 m), .region (reg4 m),
   .host (seg14x m)]

abbrev Tn (c : Dev nD) : sProp 𝕄 :=
  iprop(∃ V : Valuation τ sig (Elt F), ⌜Agree m [main_v35, main_v36, main_v37, main_v38, main_v39, main_v40, main_v41] c V⌝ ∗ StableHlo.held (c : Thread nD τ) (Pipeline.ucRefs τ sig) V ∗ ∃ r, prngReg c r)

abbrev Kept (μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)

set_option backward.isDefEq.respectTransparency.types false in
theorem frameF : θ_run defs (onTc (τ := τ) (main (F := F))) ⟨m, fun _ => 0, ρ⟩ (fun r => ∀ c : Dev nD, Kept m r.2.mem c) := by
  refine Pipeline.RDat.θ_run_regions_kit_dev (pcfgs (F := F)) adm (rdats m) () cellOf_inj emb₁ defs₀ 𝒱n Lz lvz m ρ main
    (fun _ => segsR m)
    (fun c Q => by
      rewrite [main_chain c, Pipeline.RDat.Seg.run_eq_chain]
      exact .rfl)
    (fun c => by simp only [segsR, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tn m)
    (hch := fun c => ⟨.rfl, .rfl, .rfl, .rfl, .rfl, .rfl, .rfl, .rfl, .rfl, ?_, .rfl, .rfl, .rfl, .rfl, .rfl, ?_⟩)
    (hinit := ?_) (QY := fun c s => Kept m s.mem c)
    (hfin := fun c s' => ?_) (hQ := fun _ h => h)
  · show iprop(StableHlo.held (c : Thread nD τ) (Pipeline.ucRefs τ sig) (V9 m c) ∗ Rr c) ⊢ TS (fun c V => V = V9 m c) c
    unfold TS
    iintro ⟨Hh, HR⟩
    iexists (V9 m c); isplitr; · ipureintro; rfl
    isplitl [Hh] <;> iassumption
  · show TS (Agree m [main_v35, main_v36, main_v37, main_v38, main_v39, main_v40, main_v41]) c ⊢ iprop(Tn m c ∗ ∃ W, owes (c.tc : Thread nD τ) (0 : CellTallies nD τ sig Unit) W)
    unfold TS
    iintro ⟨%V, %hV, Hh, Hp, HO⟩
    isplitr [HO]; swap; · iexact HO
    iexists V; isplitr; · ipureintro; exact hV
    isplitl [Hh] <;> iassumption
  · refine Pipeline.initEach Lz lvz fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨%V, %hV, Hh, -⟩, HSI⟩
    unfold StableHlo.held
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      refine ⟨?_, ?_, ?_, ?_, ?_, ?_, ?_⟩ <;>
        exact (h _ (Finset.mem_filter.mpr ⟨StableHlo.devRef_mem_tcRefs _, by decide⟩)).trans
          ((hV _ (by decide)).trans (W11_kept m c _ (by decide) (by decide) (by decide)))
    · iexact HSI

end Launch

theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frameF m ρ

end Cert.Kernel.Hand

end
-- ==== Proof.Ideal.State.lean ====
import proofs.«427659_j7121055776931_3_alg».proof.Proof.Gen.KernelIdeal.Skeleton
import Idealize.ShloMosaic.PureOps.Ideal

noncomputable section

namespace Cert.KernelIdeal.Hand

open Cert.KernelIdeal Cert.KernelIdeal.Gen Idealize.ShloMosaic

abbrev St2 : Type := Vec Ideal S2048x1 .f32 × Vec Ideal S2048x1 .f32 × Vec Ideal S2048x1 .f32

def init2 : St2 := (k2_pay4 (F := Ideal), k2_pay5 (F := Ideal), k2_pay6 (F := Ideal))

def step2 (i : grid2.Coords) (x : Vec Ideal S2048x256 .bf16) (w : Vec Ideal S256x512 .bf16) (lab : Vec Ideal S2048x1 .i32)
    (st : St2) : St2 :=
  (k2_pay2 (k2_pay10 i x w st.1),
   k2_pay1 (k2_pay8 i x w) (k2_pay10 i x w st.1) st.1 st.2.1,
   k2_pay9 i x w lab st.2.2)

def out2 (st : St2) (mask : Vec Ideal S2048x1 .f32) : Vec Ideal S2048x1 .f32 :=
  k2_pay3 st.1 st.2.1 st.2.2 mask

abbrev St3 : Type := Vec Ideal S2048x1 .f32 × Vec Ideal S2048x1 .f32 × Vec Ideal S2048x1 .f32

def init3 : St3 := (k3_pay4 (F := Ideal), k3_pay5 (F := Ideal), k3_pay6 (F := Ideal))

def step3 (i : grid3.Coords) (x : Vec Ideal S2048x64 .bf16) (w : Vec Ideal S64x512 .bf16) (lab : Vec Ideal S2048x1 .i32)
    (st : St3) : St3 :=
  (k3_pay2 (k3_pay10 i x w st.1),
   k3_pay1 (k3_pay8 i x w) (k3_pay10 i x w st.1) st.1 st.2.1,
   k3_pay9 i x w lab st.2.2)

def out3 (st : St3) (mask : Vec Ideal S2048x1 .f32) : Vec Ideal S2048x1 .f32 :=
  k3_pay3 st.1 st.2.1 st.2.2 mask

abbrev St4 : Type := Vec Ideal S2048x1 .f32 × Vec Ideal S2048x1 .f32 × Vec Ideal S2048x1 .f32

def init4 : St4 := (k4_pay4 (F := Ideal), k4_pay5 (F := Ideal), k4_pay6 (F := Ideal))

def step4 (i : grid4.Coords) (x : Vec Ideal S2048x1024 .bf16) (w : Vec Ideal S1024x512 .bf16) (lab : Vec Ideal S2048x1 .i32)
    (st : St4) : St4 :=
  (k4_pay2 (k4_pay10 i x w st.1),
   k4_pay1 (k4_pay8 i x w) (k4_pay10 i x w st.1) st.1 st.2.1,
   k4_pay9 i x w lab st.2.2)

def out4 (st : St4) : Vec Ideal S2048x1 .f32 :=
  k4_pay3 st.1 st.2.1 st.2.2

end Cert.KernelIdeal.Hand

end
-- ==== Proof.Ideal.Proj.lean ====
import proofs.«427659_j7121055776931_3_alg».proof.Proof.Gen.KernelIdeal.Launch
import proofs.«427659_j7121055776931_3_alg».proof.Proof.Gen.KernelIdeal.Skeleton
import proofs.«427659_j7121055776931_3_alg».proof.Proof.Gen.KernelIdeal.Points
import proofs.«427659_j7121055776931_3_alg».proof.Proof.Ideal.State
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws
import Idealize.ShloMosaic.Lib.StackMember
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ
open Idealize.ShloMosaic.ValueIdx
variable (V : (c : Dev nD) → (b : Ref sig .tc) → Buf (Elt Ideal) ((c : Thread nD τ).loc b))
def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))
abbrev r0_0 : Rect S2048x1024 := Rect.unit (s := S2048x1024) ![0, 0] S2048x1024.size inb_S2048x1024_S2048x1024_0_0
abbrev r0_1 : Rect S1024x256 := Rect.unit (s := S1024x256) ![0, 0] S1024x256.size inb_S1024x256_S1024x256_0_0
abbrev r0_2 : Rect S2048x256 := Rect.unit (s := S2048x256) ![0, 0] S2048x256.size inb_S2048x256_S2048x256_0_0
def out0_2 (x0 : Vec Ideal S2048x1024 .bf16) (x1 : Vec Ideal S1024x256 .bf16) : Vec Ideal S2048x256 .bf16 :=
  View.canon [⟨r0_2, k0_pay1 (View.ld x0 r0_0) (View.ld x1 r0_1)⟩]
theorem cover0_2 (p0 : Vec Ideal S2048x256 .bf16) (y : S2048x256.Idx) :
    ∃ pc ∈ ([⟨r0_2, p0⟩] : List (View.Piece (Elt Ideal) S2048x256 .bf16)), y ∈ pc.1.set :=
  View.cover_of_tiled [⟨r0_2, p0⟩] S2048x256.size (by rfl) y
set_option maxHeartbeats 1000000 in
theorem sound_kernel0 (c : Dev nD) (E : Set ℕ) (i : grid0.Coords) (arg0 : Memref sig .tc .vmem S2048x1024 .bf16) (harg0 : arg0.IsWhole) (arg1 : Memref sig .tc .vmem S1024x256 .bf16) (harg1 : arg1.IsWhole) (arg2 : Memref sig .tc .vmem S2048x256 .bf16) (harg2 : arg2.IsWhole)
    (x0 : Vec Ideal S2048x1024 .bf16) (x1 : Vec Ideal S1024x256 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := Ideal)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)
def dat0 (c : Dev nD) : Dat τ (Elt Ideal) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0
theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))
theorem sound_body0 (c : Dev nD) (t : Fin cfg0.N) :
    bodyPre0 V c t ⊢ wp frame (wpE (defs₀ (F := Ideal)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2
theorem body_obligation0_exact (c : Dev nD) : BodyObligation (dat0 V c) (defs₀ (F := Ideal)) Variants.none () Set.univ := fun t => by
  rw [bigSep_W0, bigSep_W0]
  exact sound_body0 V c t
theorem body_obligation0 (c : Dev nD) : BodyObligationLoose (dat0 V c) (defs₀ (F := Ideal)) Variants.none () Set.univ :=
  (body_obligation0_exact V c).loose
theorem hin0 (c : Dev nD) : Pipeline.ΦA spec0 c ⊢ (dat0 V c).Φ 0 := .rfl
theorem hout0 (c : Dev nD) : (dat0 V c).Φ (Fin.last cfg0.N) ⊢ Pipeline.ΦA spec0 c := .rfl
abbrev xArr0 (c : Dev nD) : FVec Ideal S4096x1024 .bf16 := V c main_v20
abbrev pArr0 (c : Dev nD) : FVec Ideal S1024x256 .bf16 := V c main_v22
abbrev outArr0 (c : Dev nD) : FVec Ideal S4096x256 .bf16 := (dat0 V c).arrAt 2 cfg0.N
theorem hz0 : (![0, 0] : Fin 2 → Nat) = fun _ => 0 := funext fun a => by fin_cases a <;> rfl
def G0 (x : FVec Ideal S4096x1024 .bf16) (P : FVec Ideal S1024x256 .bf16) : FVec Ideal S4096x256 .bf16 :=
  fun idx => ∑ h : Fin 1024, x (ix2 (idx 0 : Fin 4096) h) * P (ix2 h (idx 1 : Fin 256))
theorem pay0_apply (x : Vec Ideal S2048x1024 .bf16) (P : Vec Ideal S1024x256 .bf16) (r : Fin 2048) (q : Fin 256) :
    k0_pay1 x P (ix2 r q) = ∑ h : Fin 1024, (x : FVec Ideal S2048x1024 .bf16) (ix2 r h) * (P : FVec Ideal S1024x256 .bf16) (ix2 h q) := by
  unfold k0_pay1
  rw [truncf_apply]
  simp only [shapeCast_self]
  exact (congrFun (matmul_zero_eq_dotGeneral _ none _ _) _).trans (StackMember.dotGeneral_plain_apply none _ _ r q)
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 1
    ∧ win0_2.index t (1 : Fin 2) = 0 :=
  (by decide +kernel : ∀ t : Fin grid0.N, _)
theorem idx_onto0 : ∀ (q0 : Fin 2), ∃ t : Fin cfg0.N, win0_2.index t (0 : Fin 2) = q0.val ∧ win0_2.index t (1 : Fin 2) = 0 :=
  (by decide +kernel : ∀ (q0 : Fin 2), ∃ t : Fin grid0.N, win0_2.index t (0 : Fin 2) = q0.val ∧ win0_2.index t (1 : Fin 2) = 0)
theorem flushed0_eq (c : Dev nD) (t : Fin cfg0.N) :
    (dat0 V c).flushed 2 t = ((cfg0.win 2).blk t).view.read (Elt Ideal) (G0 (xArr0 V c) (pArr0 V c)) := by
  show (cfg0.win 2).cut (grid0.coords t) ((dat0 V c).after 2 t) = _
  rw [after0_2]
  unfold out0_2
  rw [View.canon_unit_zero hz0]
  simp only [View.ld_unit_zero (S := S2048x1024) hz0, View.ld_unit_zero (S := S1024x256) hz0]
  obtain ⟨e0, e1, e2, e3, e4, e5⟩ := idx_facts0 t
  refine funext fun (j : S2048x256.Idx) => ?_
  obtain ⟨r, q, rfl⟩ : ∃ (r : Fin 2048) (q : Fin 256), j = ix2 r q := ⟨j 0, j 1, eq_ix2 j⟩
  refine (pay0_apply (iblk0 V c 0 t) (iblk0 V c 1 t) r q).trans ?_
  show ∑ h : Fin 1024, xArr0 V c (((cfg0.win 0).blk t).view.emb (ix2 r h)) * pArr0 V c (((cfg0.win 1).blk t).view.emb (ix2 h q))
    = ∑ h : Fin 1024, xArr0 V c (ix2 ((((cfg0.win 2).blk t).view.emb (ix2 r q)) 0 : Fin 4096) h) * pArr0 V c (ix2 h ((((cfg0.win 2).blk t).view.emb (ix2 r q)) 1 : Fin 256))
  refine Finset.sum_congr rfl fun h _ => ?_
  have h0 : ((cfg0.win 0).blk t).view.emb (ix2 r h) = ix2 ((((cfg0.win 2).blk t).view.emb (ix2 r q)) 0 : Fin 4096) h := by
    funext a; apply Fin.ext
    match a with
    | ⟨0, _⟩ => show win0_0.index t (0 : Fin 2) * 2048 + 1 * r.val = win0_2.index t (0 : Fin 2) * 2048 + 1 * r.val; omega
    | ⟨1, _⟩ => show win0_0.index t (1 : Fin 2) * 1024 + 1 * h.val = h.val; omega
  have h1 : ((cfg0.win 1).blk t).view.emb (ix2 h q) = ix2 h ((((cfg0.win 2).blk t).view.emb (ix2 r q)) 1 : Fin 256) := by
    funext a; apply Fin.ext
    match a with
    | ⟨0, _⟩ => show win0_1.index t (0 : Fin 2) * 1024 + 1 * h.val = h.val; omega
    | ⟨1, _⟩ => show win0_1.index t (1 : Fin 2) * 256 + 1 * q.val = win0_2.index t (1 : Fin 2) * 256 + 1 * q.val; omega
  exact congrArg₂ (· * ·) (congrArg (xArr0 V c) h0) (congrArg (pArr0 V c) h1)
theorem mem_blk0 (t : Fin cfg0.N) (i : S4096x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v33).slice (win0_2.rect t)).set ↔ _
  rw [View.set_slice_whole, Rect.mem_set_unit]
  exact Iff.rfl
theorem cover0 (i : S4096x256.Idx) : ∃ t : Fin cfg0.N, (cfg0.win 2).flush t = true ∧ i ∈ ((cfg0.win 2).blk t).view.set := by
  have hi0 : (i 0).val < 4096 := (i 0).isLt
  have hi1 : (i 1).val < 256 := (i 1).isLt
  obtain ⟨t, q0, q1⟩ := idx_onto0 ⟨(i 0).val / 2048, by omega⟩
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; rw [q0]; show (i 0).val / 2048 * 2048 ≤ (i 0).val ∧ (i 0).val < (i 0).val / 2048 * 2048 + 2048; omega
  | ⟨1, _⟩ => show win0_2.index t (1 : Fin 2) * 256 ≤ (i 1).val ∧ (i 1).val < win0_2.index t (1 : Fin 2) * 256 + 256; rw [q1]; omega
theorem final0 (c : Dev nD) : (dat0 V c).arrAt 2 cfg0.N = G0 (xArr0 V c) (pArr0 V c) :=
  (dat0 V c).arrAt_eq_of_cover 2 (G0 (xArr0 V c) (pArr0 V c)) (fun t _ => flushed0_eq V c t) cover0
theorem out0_val (c : Dev nD) (R : Fin 4096) (q : Fin 256) :
    outArr0 V c (ix2 R q) = ∑ h : Fin 1024, xArr0 V c (ix2 R h) * pArr0 V c (ix2 h q) := by
  show (dat0 V c).arrAt 2 cfg0.N (ix2 R q) = _
  rw [final0]
  rfl
theorem in0_val (c : Dev nD) (w : Fin cfg0.W) (hw : w ≠ 2) : (dat0 V c).arrAt w cfg0.N = V c (Pipeline.arrRef spec0 w) :=
  match w, hw with
  | ⟨0, _⟩, _ => ((dat0 V c).arrAt_in 0 rfl _).trans (A_eq0 V c 0)
  | ⟨1, _⟩, _ => ((dat0 V c).arrAt_in 1 rfl _).trans (A_eq0 V c 1)
  | ⟨2, _⟩, hw => absurd rfl hw
  | ⟨_ + 3, h⟩, _ => absurd h (Nat.not_lt.2 (Nat.le_add_left _ _))
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))
abbrev r1_1 : Rect S1024x64 := Rect.unit (s := S1024x64) ![0, 0] S1024x64.size inb_S1024x64_S1024x64_0_0
abbrev r1_2 : Rect S2048x64 := Rect.unit (s := S2048x64) ![0, 0] S2048x64.size inb_S2048x64_S2048x64_0_0
def out1_2 (x0 : Vec Ideal S2048x1024 .bf16) (x1 : Vec Ideal S1024x64 .bf16) : Vec Ideal S2048x64 .bf16 :=
  View.canon [⟨r1_2, k1_pay1 (View.ld x0 r0_0) (View.ld x1 r1_1)⟩]
theorem cover1_2 (p0 : Vec Ideal S2048x64 .bf16) (y : S2048x64.Idx) :
    ∃ pc ∈ ([⟨r1_2, p0⟩] : List (View.Piece (Elt Ideal) S2048x64 .bf16)), y ∈ pc.1.set :=
  View.cover_of_tiled [⟨r1_2, p0⟩] S2048x64.size (by rfl) y
set_option maxHeartbeats 1000000 in
theorem sound_kernel1 (c : Dev nD) (E : Set ℕ) (i : grid1.Coords) (arg0 : Memref sig .tc .vmem S2048x1024 .bf16) (harg0 : arg0.IsWhole) (arg1 : Memref sig .tc .vmem S1024x64 .bf16) (harg1 : arg1.IsWhole) (arg2 : Memref sig .tc .vmem S2048x64 .bf16) (harg2 : arg2.IsWhole)
    (x0 : Vec Ideal S2048x1024 .bf16) (x1 : Vec Ideal S1024x64 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := Ideal)) Variants.none c none) E (cc1__proj_kernel i arg0 harg0 arg1 harg1 arg2 harg2) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0
theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2
theorem body_obligation1_exact (c : Dev nD) : BodyObligation (dat1 V c) (defs₀ (F := Ideal)) Variants.none () Set.univ := fun t => by
  rw [bigSep_W1, bigSep_W1]
  exact sound_body1 V c t
theorem body_obligation1 (c : Dev nD) : BodyObligationLoose (dat1 V c) (defs₀ (F := Ideal)) Variants.none () Set.univ :=
  (body_obligation1_exact V c).loose
theorem hin1 (c : Dev nD) : Pipeline.ΦA spec1 c ⊢ (dat1 V c).Φ 0 := .rfl
theorem hout1 (c : Dev nD) : (dat1 V c).Φ (Fin.last cfg1.N) ⊢ Pipeline.ΦA spec1 c := .rfl
abbrev xArr1 (c : Dev nD) : FVec Ideal S4096x1024 .bf16 := V c main_v20
abbrev pArr1 (c : Dev nD) : FVec Ideal S1024x64 .bf16 := V c main_v24
abbrev outArr1 (c : Dev nD) : FVec Ideal S4096x64 .bf16 := (dat1 V c).arrAt 2 cfg1.N
def G1 (x : FVec Ideal S4096x1024 .bf16) (P : FVec Ideal S1024x64 .bf16) : FVec Ideal S4096x64 .bf16 :=
  fun idx => ∑ h : Fin 1024, x (ix2 (idx 0 : Fin 4096) h) * P (ix2 h (idx 1 : Fin 64))
theorem pay1_apply (x : Vec Ideal S2048x1024 .bf16) (P : Vec Ideal S1024x64 .bf16) (r : Fin 2048) (q : Fin 64) :
    k1_pay1 x P (ix2 r q) = ∑ h : Fin 1024, (x : FVec Ideal S2048x1024 .bf16) (ix2 r h) * (P : FVec Ideal S1024x64 .bf16) (ix2 h q) := by
  unfold k1_pay1
  rw [truncf_apply]
  simp only [shapeCast_self]
  exact (congrFun (matmul_zero_eq_dotGeneral _ none _ _) _).trans (StackMember.dotGeneral_plain_apply none _ _ r q)
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 1
    ∧ win1_2.index t (1 : Fin 2) = 0 :=
  (by decide +kernel : ∀ t : Fin grid1.N, _)
theorem idx_onto1 : ∀ (q0 : Fin 2), ∃ t : Fin cfg1.N, win1_2.index t (0 : Fin 2) = q0.val ∧ win1_2.index t (1 : Fin 2) = 0 :=
  (by decide +kernel : ∀ (q0 : Fin 2), ∃ t : Fin grid1.N, win1_2.index t (0 : Fin 2) = q0.val ∧ win1_2.index t (1 : Fin 2) = 0)
theorem flushed1_eq (c : Dev nD) (t : Fin cfg1.N) :
    (dat1 V c).flushed 2 t = ((cfg1.win 2).blk t).view.read (Elt Ideal) (G1 (xArr1 V c) (pArr1 V c)) := by
  show (cfg1.win 2).cut (grid1.coords t) ((dat1 V c).after 2 t) = _
  rw [after1_2]
  unfold out1_2
  rw [View.canon_unit_zero hz0]
  simp only [View.ld_unit_zero (S := S2048x1024) hz0, View.ld_unit_zero (S := S1024x64) hz0]
  obtain ⟨e0, e1, e2, e3, e4, e5⟩ := idx_facts1 t
  refine funext fun (j : S2048x64.Idx) => ?_
  obtain ⟨r, q, rfl⟩ : ∃ (r : Fin 2048) (q : Fin 64), j = ix2 r q := ⟨j 0, j 1, eq_ix2 j⟩
  refine (pay1_apply (iblk1 V c 0 t) (iblk1 V c 1 t) r q).trans ?_
  show ∑ h : Fin 1024, xArr1 V c (((cfg1.win 0).blk t).view.emb (ix2 r h)) * pArr1 V c (((cfg1.win 1).blk t).view.emb (ix2 h q))
    = ∑ h : Fin 1024, xArr1 V c (ix2 ((((cfg1.win 2).blk t).view.emb (ix2 r q)) 0 : Fin 4096) h) * pArr1 V c (ix2 h ((((cfg1.win 2).blk t).view.emb (ix2 r q)) 1 : Fin 64))
  refine Finset.sum_congr rfl fun h _ => ?_
  have h0 : ((cfg1.win 0).blk t).view.emb (ix2 r h) = ix2 ((((cfg1.win 2).blk t).view.emb (ix2 r q)) 0 : Fin 4096) h := by
    funext a; apply Fin.ext
    match a with
    | ⟨0, _⟩ => show win1_0.index t (0 : Fin 2) * 2048 + 1 * r.val = win1_2.index t (0 : Fin 2) * 2048 + 1 * r.val; omega
    | ⟨1, _⟩ => show win1_0.index t (1 : Fin 2) * 1024 + 1 * h.val = h.val; omega
  have h1 : ((cfg1.win 1).blk t).view.emb (ix2 h q) = ix2 h ((((cfg1.win 2).blk t).view.emb (ix2 r q)) 1 : Fin 64) := by
    funext a; apply Fin.ext
    match a with
    | ⟨0, _⟩ => show win1_1.index t (0 : Fin 2) * 1024 + 1 * h.val = h.val; omega
    | ⟨1, _⟩ => show win1_1.index t (1 : Fin 2) * 64 + 1 * q.val = win1_2.index t (1 : Fin 2) * 64 + 1 * q.val; omega
  exact congrArg₂ (· * ·) (congrArg (xArr1 V c) h0) (congrArg (pArr1 V c) h1)
theorem mem_blk1 (t : Fin cfg1.N) (i : S4096x64.Idx) :
    i ∈ ((cfg1.win 2).blk t).view.set ↔ ∀ a : Fin 2, win1_2.index t a * S2048x64.size a ≤ (i a).val ∧ (i a).val < win1_2.index t a * S2048x64.size a + S2048x64.size a := by
  show i ∈ ((View.whole main_v34).slice (win1_2.rect t)).set ↔ _
  rw [View.set_slice_whole, Rect.mem_set_unit]
  exact Iff.rfl
theorem cover1 (i : S4096x64.Idx) : ∃ t : Fin cfg1.N, (cfg1.win 2).flush t = true ∧ i ∈ ((cfg1.win 2).blk t).view.set := by
  have hi0 : (i 0).val < 4096 := (i 0).isLt
  have hi1 : (i 1).val < 64 := (i 1).isLt
  obtain ⟨t, q0, q1⟩ := idx_onto1 ⟨(i 0).val / 2048, by omega⟩
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; rw [q0]; show (i 0).val / 2048 * 2048 ≤ (i 0).val ∧ (i 0).val < (i 0).val / 2048 * 2048 + 2048; omega
  | ⟨1, _⟩ => show win1_2.index t (1 : Fin 2) * 64 ≤ (i 1).val ∧ (i 1).val < win1_2.index t (1 : Fin 2) * 64 + 64; rw [q1]; omega
theorem final1 (c : Dev nD) : (dat1 V c).arrAt 2 cfg1.N = G1 (xArr1 V c) (pArr1 V c) :=
  (dat1 V c).arrAt_eq_of_cover 2 (G1 (xArr1 V c) (pArr1 V c)) (fun t _ => flushed1_eq V c t) cover1
theorem out1_val (c : Dev nD) (R : Fin 4096) (q : Fin 64) :
    outArr1 V c (ix2 R q) = ∑ h : Fin 1024, xArr1 V c (ix2 R h) * pArr1 V c (ix2 h q) := by
  show (dat1 V c).arrAt 2 cfg1.N (ix2 R q) = _
  rw [final1]
  rfl
theorem in1_val (c : Dev nD) (w : Fin cfg1.W) (hw : w ≠ 2) : (dat1 V c).arrAt w cfg1.N = V c (Pipeline.arrRef spec1 w) :=
  match w, hw with
  | ⟨0, _⟩, _ => ((dat1 V c).arrAt_in 0 rfl _).trans (A_eq1 V c 0)
  | ⟨1, _⟩, _ => ((dat1 V c).arrAt_in 1 rfl _).trans (A_eq1 V c 1)
  | ⟨2, _⟩, hw => absurd rfl hw
  | ⟨_ + 3, h⟩, _ => absurd h (Nat.not_lt.2 (Nat.le_add_left _ _))
end Cert.KernelIdeal.Hand
end
-- ==== Proof.Ideal.Data2.lean ====
import proofs.«427659_j7121055776931_3_alg».proof.Proof.Gen.KernelIdeal.Launch
import proofs.«427659_j7121055776931_3_alg».proof.Proof.Gen.KernelIdeal.Skeleton
import proofs.«427659_j7121055776931_3_alg».proof.Proof.Gen.KernelIdeal.Points
import proofs.«427659_j7121055776931_3_alg».proof.Proof.Ideal.State
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

def iblk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

def wbuf2 (c : Dev nD) (t : Fin cfg2.N) : win2_1.block.Idx → Elt Ideal win2_1.elt :=
  win2_1.fill (grid2.coords t) (fun _ => FloatOps.ofBits (F := Ideal) .bf16 0#16) (iblk2 V c 1 t)

def stAt2 (c : Dev nD) : (n : ℕ) → n < cfg2.N → St2
  | 0, hn => step2 (grid2.coords ⟨0, hn⟩) (iblk2 V c 0 ⟨0, hn⟩) (wbuf2 V c ⟨0, hn⟩) (iblk2 V c 2 ⟨0, hn⟩) init2
  | n + 1, hn => step2 (grid2.coords ⟨n + 1, hn⟩) (iblk2 V c 0 ⟨n + 1, hn⟩) (wbuf2 V c ⟨n + 1, hn⟩) (iblk2 V c 2 ⟨n + 1, hn⟩)
      (if (n + 1) % 40 = 0 then init2 else stAt2 c n (Nat.lt_of_succ_lt hn))

abbrev scM2_0 : Memref sig .tc .vmem S2048x1 .f32 := Memref.whole cc2_scratch0
abbrev scM2_1 : Memref sig .tc .vmem S2048x1 .f32 := Memref.whole cc2_scratch1
abbrev scM2_2 : Memref sig .tc .vmem S2048x1 .f32 := Memref.whole cc2_scratch2

def PhiS2 (c : Dev nD) : (n : ℕ) → n ≤ cfg2.N → sProp 𝕄
  | 0, _ => Pipeline.ΦA spec2 c
  | n + 1, hn => iprop(iprop(owns (c : Thread nD τ) scM2_0 fullShare (stAt2 V c n hn).1
        ∗ owns (c : Thread nD τ) scM2_1 fullShare (stAt2 V c n hn).2.1
        ∗ owns (c : Thread nD τ) scM2_2 fullShare (stAt2 V c n hn).2.2)
      ∗ Pipeline.scopedRestBut (Ix := Unit) (Name := ℕ) (U := UR sig nD τ) (Lvl := ℕ) (Val := Elt Ideal) spec2 c [cc2_scratch0, cc2_scratch1, cc2_scratch2]
      ∗ (∃ r, prngReg c r))

def dat2 (c : Dev nD) : Dat τ (Elt Ideal) Unit ℕ (UR sig nD τ) ℕ cfg2 c where
  A w := V c (Pipeline.arrRef spec2 w)
  after w t := match w with
    | ⟨0, _⟩ => iblk2 V c 0 t
    | ⟨1, _⟩ => wbuf2 V c t
    | ⟨2, _⟩ => iblk2 V c 2 t
    | ⟨3, _⟩ => iblk2 V c 3 t
    | ⟨4, _⟩ => out2 (stAt2 V c t.val t.isLt) (iblk2 V c 3 t)
  Φ t := PhiS2 V c t.val (Nat.le_of_lt_succ t.isLt)
  q _ := fullShare
  owed _ := 0

end Cert.KernelIdeal.Hand

end
-- ==== Proof.Ideal.Data3.lean ====
import proofs.«427659_j7121055776931_3_alg».proof.Proof.Gen.KernelIdeal.Launch
import proofs.«427659_j7121055776931_3_alg».proof.Proof.Gen.KernelIdeal.Skeleton
import proofs.«427659_j7121055776931_3_alg».proof.Proof.Gen.KernelIdeal.Points
import proofs.«427659_j7121055776931_3_alg».proof.Proof.Ideal.State
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

def iblk3 (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

def wbuf3 (c : Dev nD) (t : Fin cfg3.N) : win3_1.block.Idx → Elt Ideal win3_1.elt :=
  win3_1.fill (grid3.coords t) (fun _ => FloatOps.ofBits (F := Ideal) .bf16 0#16) (iblk3 V c 1 t)

def stAt3 (c : Dev nD) : (n : ℕ) → n < cfg3.N → St3
  | 0, hn => step3 (grid3.coords ⟨0, hn⟩) (iblk3 V c 0 ⟨0, hn⟩) (wbuf3 V c ⟨0, hn⟩) (iblk3 V c 2 ⟨0, hn⟩) init3
  | n + 1, hn => step3 (grid3.coords ⟨n + 1, hn⟩) (iblk3 V c 0 ⟨n + 1, hn⟩) (wbuf3 V c ⟨n + 1, hn⟩) (iblk3 V c 2 ⟨n + 1, hn⟩)
      (if (n + 1) % 40 = 0 then init3 else stAt3 c n (Nat.lt_of_succ_lt hn))

abbrev scM3_0 : Memref sig .tc .vmem S2048x1 .f32 := Memref.whole cc3_scratch0
abbrev scM3_1 : Memref sig .tc .vmem S2048x1 .f32 := Memref.whole cc3_scratch1
abbrev scM3_2 : Memref sig .tc .vmem S2048x1 .f32 := Memref.whole cc3_scratch2

def PhiS3 (c : Dev nD) : (n : ℕ) → n ≤ cfg3.N → sProp 𝕄
  | 0, _ => Pipeline.ΦA spec3 c
  | n + 1, hn => iprop(iprop(owns (c : Thread nD τ) scM3_0 fullShare (stAt3 V c n hn).1
        ∗ owns (c : Thread nD τ) scM3_1 fullShare (stAt3 V c n hn).2.1
        ∗ owns (c : Thread nD τ) scM3_2 fullShare (stAt3 V c n hn).2.2)
      ∗ Pipeline.scopedRestBut (Ix := Unit) (Name := ℕ) (U := UR sig nD τ) (Lvl := ℕ) (Val := Elt Ideal) spec3 c [cc3_scratch0, cc3_scratch1, cc3_scratch2]
      ∗ (∃ r, prngReg c r))

def dat3 (c : Dev nD) : Dat τ (Elt Ideal) Unit ℕ (UR sig nD τ) ℕ cfg3 c where
  A w := V c (Pipeline.arrRef spec3 w)
  after w t := match w with
    | ⟨0, _⟩ => iblk3 V c 0 t
    | ⟨1, _⟩ => wbuf3 V c t
    | ⟨2, _⟩ => iblk3 V c 2 t
    | ⟨3, _⟩ => iblk3 V c 3 t
    | ⟨4, _⟩ => out3 (stAt3 V c t.val t.isLt) (iblk3 V c 3 t)
  Φ t := PhiS3 V c t.val (Nat.le_of_lt_succ t.isLt)
  q _ := fullShare
  owed _ := 0

end Cert.KernelIdeal.Hand

end
-- ==== Proof.Ideal.Data4.lean ====
import proofs.«427659_j7121055776931_3_alg».proof.Proof.Gen.KernelIdeal.Launch
import proofs.«427659_j7121055776931_3_alg».proof.Proof.Gen.KernelIdeal.Skeleton
import proofs.«427659_j7121055776931_3_alg».proof.Proof.Gen.KernelIdeal.Points
import proofs.«427659_j7121055776931_3_alg».proof.Proof.Ideal.State
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

def iblk4 (c : Dev nD) (w : Fin cfg4.W) (t : Fin cfg4.N) : ((cfg4.win w).xblock (cfg4.grid.coords t)).Idx → Elt Ideal (cfg4.win w).elt :=
  ((cfg4.win w).blk t).view.read (Elt Ideal) (V c (Pipeline.arrRef spec4 w))

def wbuf4 (c : Dev nD) (t : Fin cfg4.N) : win4_1.block.Idx → Elt Ideal win4_1.elt :=
  win4_1.fill (grid4.coords t) (fun _ => FloatOps.ofBits (F := Ideal) .bf16 0#16) (iblk4 V c 1 t)

def stAt4 (c : Dev nD) : (n : ℕ) → n < cfg4.N → St4
  | 0, hn => step4 (grid4.coords ⟨0, hn⟩) (iblk4 V c 0 ⟨0, hn⟩) (wbuf4 V c ⟨0, hn⟩) (iblk4 V c 2 ⟨0, hn⟩) init4
  | n + 1, hn => step4 (grid4.coords ⟨n + 1, hn⟩) (iblk4 V c 0 ⟨n + 1, hn⟩) (wbuf4 V c ⟨n + 1, hn⟩) (iblk4 V c 2 ⟨n + 1, hn⟩)
      (if (n + 1) % 40 = 0 then init4 else stAt4 c n (Nat.lt_of_succ_lt hn))

abbrev scM4_0 : Memref sig .tc .vmem S2048x1 .f32 := Memref.whole cc4_scratch0
abbrev scM4_1 : Memref sig .tc .vmem S2048x1 .f32 := Memref.whole cc4_scratch1
abbrev scM4_2 : Memref sig .tc .vmem S2048x1 .f32 := Memref.whole cc4_scratch2

def PhiS4 (c : Dev nD) : (n : ℕ) → n ≤ cfg4.N → sProp 𝕄
  | 0, _ => Pipeline.ΦA spec4 c
  | n + 1, hn => iprop(iprop(owns (c : Thread nD τ) scM4_0 fullShare (stAt4 V c n hn).1
        ∗ owns (c : Thread nD τ) scM4_1 fullShare (stAt4 V c n hn).2.1
        ∗ owns (c : Thread nD τ) scM4_2 fullShare (stAt4 V c n hn).2.2)
      ∗ Pipeline.scopedRestBut (Ix := Unit) (Name := ℕ) (U := UR sig nD τ) (Lvl := ℕ) (Val := Elt Ideal) spec4 c [cc4_scratch0, cc4_scratch1, cc4_scratch2]
      ∗ (∃ r, prngReg c r))

def dat4 (c : Dev nD) : Dat τ (Elt Ideal) Unit ℕ (UR sig nD τ) ℕ cfg4 c where
  A w := V c (Pipeline.arrRef spec4 w)
  after w t := match w with
    | ⟨0, _⟩ => iblk4 V c 0 t
    | ⟨1, _⟩ => wbuf4 V c t
    | ⟨2, _⟩ => iblk4 V c 2 t
    | ⟨3, _⟩ => out4 (stAt4 V c t.val t.isLt)
  Φ t := PhiS4 V c t.val (Nat.le_of_lt_succ t.isLt)
  q _ := fullShare
  owed _ := 0

end Cert.KernelIdeal.Hand

end
-- ==== Proof.Ideal.Bounds.lean ====
import proofs.«427659_j7121055776931_3_alg».proof.Proof.Gen.KernelIdeal.Regions
import proofs.«427659_j7121055776931_3_alg».proof.Proof.Ideal.Proj
import proofs.«427659_j7121055776931_3_alg».proof.Proof.Ideal.Data2
import proofs.«427659_j7121055776931_3_alg».proof.Proof.Ideal.Data3
import proofs.«427659_j7121055776931_3_alg».proof.Proof.Ideal.Data4
set_option maxRecDepth 16384
noncomputable section
namespace Cert.KernelIdeal.Hand
open Cert.KernelIdeal Cert.KernelIdeal.Gen Idealize.ShloMosaic Idealize.ShloMosaic.TcCoe
variable (m : (ℓ : Loc nD τ sig) → Buf (Elt Ideal) ℓ)
abbrev X9 (c : Dev nD) : Valuation τ sig (Elt Ideal) := Gen.V9 (F := Ideal) m c
abbrev R9 : (c : Dev nD) → (b : Ref sig .tc) → Buf (Elt Ideal) ((c : Thread nD τ).loc b) := fun c b => X9 m c b
def X10 (c : Dev nD) : Valuation τ sig (Elt Ideal) :=
  Pipeline.withArrays spec0 c (X9 m c) fun w => (dat0 (R9 m) c).arrAt w cfg0.N
theorem X10_arr (c : Dev nD) (w : Fin cfg0.W) :
    X10 m c (Proc.devRef .tc (Pipeline.arrRef spec0 w)) = (dat0 (R9 m) c).arrAt w cfg0.N :=
  Pipeline.withArrays_arr spec0 launch0.win.arr_inj c _ _ w
theorem X10_of_ne (c : Dev nD) (b : Ref sig .tc) (hb : ∀ w, Pipeline.arrRef spec0 w ≠ b) :
    X10 m c (Proc.devRef .tc b) = X9 m c (Proc.devRef .tc b) :=
  Pipeline.withArrays_of_ne spec0 c _ _ b hb
abbrev R10 : (c : Dev nD) → (b : Ref sig .tc) → Buf (Elt Ideal) ((c : Thread nD τ).loc b) := fun c b => X10 m c b
theorem hF0 (c : Dev nD) (w : Fin cfg0.W) : (dat0 (R9 m) c).arrAt w cfg0.N = R10 m c (Pipeline.arrRef spec0 w) :=
  (X10_arr m c w).symm
theorem hrest0 (c : Dev nD) : ∀ b, b ∉ Finset.univ.image (Pipeline.arrRef spec0) → R10 m c b = R9 m c b :=
  fun b hb => X10_of_ne m c b fun w e => hb (Finset.mem_image.mpr ⟨w, Finset.mem_univ _, e⟩)
def X11 (c : Dev nD) : Valuation τ sig (Elt Ideal) :=
  Pipeline.withArrays spec1 c (X10 m c) fun w => (dat1 (R10 m) c).arrAt w cfg1.N
theorem X11_arr (c : Dev nD) (w : Fin cfg1.W) :
    X11 m c (Proc.devRef .tc (Pipeline.arrRef spec1 w)) = (dat1 (R10 m) c).arrAt w cfg1.N :=
  Pipeline.withArrays_arr spec1 launch1.win.arr_inj c _ _ w
theorem X11_of_ne (c : Dev nD) (b : Ref sig .tc) (hb : ∀ w, Pipeline.arrRef spec1 w ≠ b) :
    X11 m c (Proc.devRef .tc b) = X10 m c (Proc.devRef .tc b) :=
  Pipeline.withArrays_of_ne spec1 c _ _ b hb
abbrev R11 : (c : Dev nD) → (b : Ref sig .tc) → Buf (Elt Ideal) ((c : Thread nD τ).loc b) := fun c b => X11 m c b
theorem hF1 (c : Dev nD) (w : Fin cfg1.W) : (dat1 (R10 m) c).arrAt w cfg1.N = R11 m c (Pipeline.arrRef spec1 w) :=
  (X11_arr m c w).symm
theorem hrest1 (c : Dev nD) : ∀ b, b ∉ Finset.univ.image (Pipeline.arrRef spec1) → R11 m c b = R10 m c b :=
  fun b hb => X11_of_ne m c b fun w e => hb (Finset.mem_image.mpr ⟨w, Finset.mem_univ _, e⟩)
def X12 (c : Dev nD) : Valuation τ sig (Elt Ideal) :=
  Pipeline.withArrays spec2 c (X11 m c) fun w => (dat2 (R11 m) c).arrAt w cfg2.N
theorem X12_arr (c : Dev nD) (w : Fin cfg2.W) :
    X12 m c (Proc.devRef .tc (Pipeline.arrRef spec2 w)) = (dat2 (R11 m) c).arrAt w cfg2.N :=
  Pipeline.withArrays_arr spec2 launch2.win.arr_inj c _ _ w
theorem X12_of_ne (c : Dev nD) (b : Ref sig .tc) (hb : ∀ w, Pipeline.arrRef spec2 w ≠ b) :
    X12 m c (Proc.devRef .tc b) = X11 m c (Proc.devRef .tc b) :=
  Pipeline.withArrays_of_ne spec2 c _ _ b hb
abbrev R12 : (c : Dev nD) → (b : Ref sig .tc) → Buf (Elt Ideal) ((c : Thread nD τ).loc b) := fun c b => X12 m c b
theorem hF2 (c : Dev nD) (w : Fin cfg2.W) : (dat2 (R11 m) c).arrAt w cfg2.N = R12 m c (Pipeline.arrRef spec2 w) :=
  (X12_arr m c w).symm
theorem hrest2 (c : Dev nD) : ∀ b, b ∉ Finset.univ.image (Pipeline.arrRef spec2) → R12 m c b = R11 m c b :=
  fun b hb => X12_of_ne m c b fun w e => hb (Finset.mem_image.mpr ⟨w, Finset.mem_univ _, e⟩)
def X13 (c : Dev nD) : Valuation τ sig (Elt Ideal) :=
  Pipeline.withArrays spec3 c (X12 m c) fun w => (dat3 (R12 m) c).arrAt w cfg3.N
theorem X13_arr (c : Dev nD) (w : Fin cfg3.W) :
    X13 m c (Proc.devRef .tc (Pipeline.arrRef spec3 w)) = (dat3 (R12 m) c).arrAt w cfg3.N :=
  Pipeline.withArrays_arr spec3 launch3.win.arr_inj c _ _ w
theorem X13_of_ne (c : Dev nD) (b : Ref sig .tc) (hb : ∀ w, Pipeline.arrRef spec3 w ≠ b) :
    X13 m c (Proc.devRef .tc b) = X12 m c (Proc.devRef .tc b) :=
  Pipeline.withArrays_of_ne spec3 c _ _ b hb
abbrev R13 : (c : Dev nD) → (b : Ref sig .tc) → Buf (Elt Ideal) ((c : Thread nD τ).loc b) := fun c b => X13 m c b
theorem hF3 (c : Dev nD) (w : Fin cfg3.W) : (dat3 (R12 m) c).arrAt w cfg3.N = R13 m c (Pipeline.arrRef spec3 w) :=
  (X13_arr m c w).symm
theorem hrest3 (c : Dev nD) : ∀ b, b ∉ Finset.univ.image (Pipeline.arrRef spec3) → R13 m c b = R12 m c b :=
  fun b hb => X13_of_ne m c b fun w e => hb (Finset.mem_image.mpr ⟨w, Finset.mem_univ _, e⟩)
def X14 (c : Dev nD) : Valuation τ sig (Elt Ideal) :=
  Pipeline.withArrays spec4 c (X13 m c) fun w => (dat4 (R13 m) c).arrAt w cfg4.N
theorem X14_arr (c : Dev nD) (w : Fin cfg4.W) :
    X14 m c (Proc.devRef .tc (Pipeline.arrRef spec4 w)) = (dat4 (R13 m) c).arrAt w cfg4.N :=
  Pipeline.withArrays_arr spec4 launch4.win.arr_inj c _ _ w
theorem X14_of_ne (c : Dev nD) (b : Ref sig .tc) (hb : ∀ w, Pipeline.arrRef spec4 w ≠ b) :
    X14 m c (Proc.devRef .tc b) = X13 m c (Proc.devRef .tc b) :=
  Pipeline.withArrays_of_ne spec4 c _ _ b hb
abbrev R14 : (c : Dev nD) → (b : Ref sig .tc) → Buf (Elt Ideal) ((c : Thread nD τ).loc b) := fun c b => X14 m c b
theorem hF4 (c : Dev nD) (w : Fin cfg4.W) : (dat4 (R13 m) c).arrAt w cfg4.N = R14 m c (Pipeline.arrRef spec4 w) :=
  (X14_arr m c w).symm
theorem hrest4 (c : Dev nD) : ∀ b, b ∉ Finset.univ.image (Pipeline.arrRef spec4) → R14 m c b = R13 m c b :=
  fun b hb => X14_of_ne m c b fun w e => hb (Finset.mem_image.mpr ⟨w, Finset.mem_univ _, e⟩)
abbrev X15 (c : Dev nD) : Valuation τ sig (Elt Ideal) := StableHlo.after hostOps5 (X14 m c)
end Cert.KernelIdeal.Hand
end
-- ==== Proof.Ideal.Whole.lean ====
import Idealize.ShloMosaic.Lib.Pipeline.Value
import Idealize.ShloMosaic.Lib.Tactic
import Mathlib.Tactic.IntervalCases
import Mathlib.Tactic.FinCases

namespace Cert.KernelIdeal.Hand

open Idealize.ShloMosaic

-- Of the numbers below 40 only 0 passes the first test and only 39 the second.
theorem cond1_iff (n : ℕ) (hn : n < 40) :
    Scalar.cmpi .ne (Scalar.extui (Scalar.cmpi .eq (BitVec.ofNat 32 n) 0#32)) 0#32 = 1#1 ↔ n = 0 := by
  interval_cases n <;> decide

theorem cond2_iff (n : ℕ) (hn : n < 40) :
    Scalar.cmpi .ne (Scalar.extui (Scalar.cmpi .eq (BitVec.ofNat 32 n) 39#32)) 0#32 = 1#1 ↔ n = 39 := by
  interval_cases n <;> decide

theorem zeros2 : (![0, 0] : Fin 2 → ℕ) = fun _ => 0 := by funext a; fin_cases a <;> rfl

variable {sig : RefSig} {κ : Kind} {sp : Space} {S : Shape} {e : EltTy} {Val : EltTy → Type}

-- A write at every index decides what is read, whatever was written before.
theorem read_writes_whole [∀ e, Nonempty (Val e)] (v : View sig κ sp S e) (f : v.ty.Contents Val) {off : Fin S.rank → ℕ}
    (h : off = fun _ => 0) (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons_self, View.mem_set_unit_zero h inb y⟩),
    View.canon_cons_unit_zero h inb]

theorem readAt_whole (v : View sig κ sp S e) (f : v.ty.Contents Val) {off : Fin S.rank → ℕ} (h : off = fun _ => 0)
    (inb : ∀ a, off a + S.size a ≤ S.size a) : v.readAt Val (Rect.unit off S.size inb).toLoadRect f = v.read Val f :=
  View.ld_unit_zero h inb _

theorem readCov_whole [∀ e, Nonempty (Val e)] (v : View sig κ sp S e) {off : Fin S.rank → ℕ} (h : off = fun _ => 0)
    (inb : ∀ a, off a + S.size a ≤ S.size a) (w : S.Idx → Val e) (L : List (View.Piece Val S e)) :
    v.readCov (⟨Rect.unit off S.size inb, w⟩ :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

section
variable {sz : Fin 2 → ℕ} (v : View sig κ sp ⟨2, sz⟩ e) (inb : ∀ a, (![0, 0] : Fin 2 → ℕ) a + sz a ≤ sz a)

-- The same three at rank 2, in the form the printed bodies spell them.
theorem read_writes_whole2 [∀ e, Nonempty (Val e)] (f : v.ty.Contents Val) (w : Shape.Idx ⟨2, sz⟩ → Val e)
    (L : List (View.Piece Val ⟨2, sz⟩ e)) : v.read Val (v.writes Val f (⟨Rect.unit ![0, 0] sz inb, w⟩ :: L)) = w :=
  read_writes_whole (S := ⟨2, sz⟩) v f zeros2 inb w L

theorem readAt_whole2 (f : v.ty.Contents Val) : v.readAt Val (Rect.unit ![0, 0] sz inb).toLoadRect f = v.read Val f :=
  readAt_whole (S := ⟨2, sz⟩) v f zeros2 inb

theorem readCov_whole2 [∀ e, Nonempty (Val e)] (w : Shape.Idx ⟨2, sz⟩ → Val e) (L : List (View.Piece Val ⟨2, sz⟩ e)) :
    v.readCov (⟨Rect.unit ![0, 0] sz inb, w⟩ :: L) (Rect.unit ![0, 0] sz inb).toLoadRect = w :=
  readCov_whole (S := ⟨2, sz⟩) v zeros2 inb w L
end

end Cert.KernelIdeal.Hand
-- ==== Proof.Ideal.Body2.lean ====
import proofs.«427659_j7121055776931_3_alg».proof.Proof.Gen.KernelIdeal.Launch
import proofs.«427659_j7121055776931_3_alg».proof.Proof.Ideal.State
import proofs.«427659_j7121055776931_3_alg».proof.Proof.Ideal.Whole
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (E : Set ℕ) (i : grid2.Coords)
  (arg2 : Memref sig .tc .vmem S2048x256 .bf16) (harg2 : arg2.IsWhole)
  (arg3 : Memref sig .tc .vmem S256x512 .bf16) (harg3 : arg3.IsWhole)
  (arg4 : Memref sig .tc .vmem S2048x1 .i32) (harg4 : arg4.IsWhole)
  (arg5 : Memref sig .tc .vmem S2048x1 .f32) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x1 .f32) (harg8 : arg8.IsWhole)
  (arg9 : Memref sig .tc .vmem S2048x1 .f32) (harg9 : arg9.IsWhole)
  (x : Vec Ideal S2048x256 .bf16) (w : Vec Ideal S256x512 .bf16) (lab : Vec Ideal S2048x1 .i32) (mask : Vec Ideal S2048x1 .f32)
  (o : Vec Ideal S2048x1 .f32) (K : PUnit → sProp 𝕄)

-- At a row block's first tile the running columns start from their seeds, whatever they held.
theorem sound_kernel2_first (hj : (i 1).val = 0) :
    iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o
            ∗ owns (c : Thread nD τ) arg7 fullShare (step2 i x w lab init2).1 ∗ owns (c : Thread nD τ) arg8 fullShare (step2 i x w lab init2).2.1 ∗ owns (c : Thread nD τ) arg9 fullShare (step2 i x w lab init2).2.2) -∗ K ⟨⟩))
      ⊢ wp frame (wpE (defs₀ (F := Ideal)) Variants.none c none) E (cc2__tail_ce_kernel i arg2 harg2 arg3 harg3 arg4 harg4 arg5 harg5 arg6 harg6 arg7 harg7 arg8 harg8 arg9 harg9) K := by
  have hlt : (i 1).val < 40 := (i 1).isLt
  have h1 := (cond1_iff _ hlt).2 hj
  have h2 : ¬ k2_cond2 i = 1#1 := mt (cond2_iff _ hlt).1 (by omega)
  simp only [cc2__tail_ce_kernel_eq_skeleton]; unfold cc2__tail_ce_kernel_skel owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2 hf3 hf4 hf5 hf6
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; delta sound_kernel2_first.sl.r_1 sound_kernel2_first.sl.v31 sound_kernel2_first.sl.H7_1; rw [read_writes_whole2]
    simp only [readAt_whole2, readCov_whole2]; rfl
  isplitl [H8]
  · iexists _; isplitr; swap; · iexact H8
    ipureintro; delta sound_kernel2_first.sl.r sound_kernel2_first.sl.r_1 sound_kernel2_first.sl.v31 sound_kernel2_first.sl.v39 sound_kernel2_first.sl.H7_1 sound_kernel2_first.sl.H8_1; rw [read_writes_whole2]
    simp only [readAt_whole2, readCov_whole2]; rfl
  iexists _; isplitr; swap; · iexact H9
  ipureintro; delta sound_kernel2_first.sl.v24 sound_kernel2_first.sl.H9_1; rw [read_writes_whole2]
  simp only [readAt_whole2, readCov_whole2]; rfl

-- At a tile in the middle the running columns take one step.
theorem sound_kernel2_mid (hj0 : (i 1).val ≠ 0) (hj39 : (i 1).val ≠ 39) (st : St2) :
    iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o ∗ owns (c : Thread nD τ) arg7 fullShare st.1 ∗ owns (c : Thread nD τ) arg8 fullShare st.2.1 ∗ owns (c : Thread nD τ) arg9 fullShare st.2.2
        ∗ (iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o
            ∗ owns (c : Thread nD τ) arg7 fullShare (step2 i x w lab st).1 ∗ owns (c : Thread nD τ) arg8 fullShare (step2 i x w lab st).2.1 ∗ owns (c : Thread nD τ) arg9 fullShare (step2 i x w lab st).2.2) -∗ K ⟨⟩))
      ⊢ wp frame (wpE (defs₀ (F := Ideal)) Variants.none c none) E (cc2__tail_ce_kernel i arg2 harg2 arg3 harg3 arg4 harg4 arg5 harg5 arg6 harg6 arg7 harg7 arg8 harg8 arg9 harg9) K := by
  obtain ⟨m, l, s⟩ := st
  have hlt : (i 1).val < 40 := (i 1).isLt
  have h1 := mt (cond1_iff _ hlt).1 hj0
  have h2 : ¬ k2_cond2 i = 1#1 := mt (cond2_iff _ hlt).1 hj39
  simp only [cc2__tail_ce_kernel_eq_skeleton]; unfold cc2__tail_ce_kernel_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; delta sound_kernel2_mid.sl.r_1; rw [read_writes_whole2]
    simp only [readAt_whole2, readCov_whole2]; rfl
  isplitl [H8]
  · iexists _; isplitr; swap; · iexact H8
    ipureintro; delta sound_kernel2_mid.sl.r sound_kernel2_mid.sl.r_1; rw [read_writes_whole2]
    simp only [readAt_whole2, readCov_whole2]; rfl
  iexists _; isplitr; swap; · iexact H9
  ipureintro; rw [read_writes_whole2]
  simp only [readAt_whole2, readCov_whole2]; rfl

-- At the last tile they take one step and the row block's losses are written out.
theorem sound_kernel2_last (hj : (i 1).val = 39) (st : St2) :
    iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o ∗ owns (c : Thread nD τ) arg7 fullShare st.1 ∗ owns (c : Thread nD τ) arg8 fullShare st.2.1 ∗ owns (c : Thread nD τ) arg9 fullShare st.2.2
        ∗ (iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare (out2 (step2 i x w lab st) mask)
            ∗ owns (c : Thread nD τ) arg7 fullShare (step2 i x w lab st).1 ∗ owns (c : Thread nD τ) arg8 fullShare (step2 i x w lab st).2.1 ∗ owns (c : Thread nD τ) arg9 fullShare (step2 i x w lab st).2.2) -∗ K ⟨⟩))
      ⊢ wp frame (wpE (defs₀ (F := Ideal)) Variants.none c none) E (cc2__tail_ce_kernel i arg2 harg2 arg3 harg3 arg4 harg4 arg5 harg5 arg6 harg6 arg7 harg7 arg8 harg8 arg9 harg9) K := by
  obtain ⟨m, l, s⟩ := st
  have hlt : (i 1).val < 40 := (i 1).isLt
  have h1 := mt (cond1_iff _ hlt).1 (by omega)
  have h2 : k2_cond2 i = 1#1 := (cond2_iff _ hlt).2 hj
  simp only [cc2__tail_ce_kernel_eq_skeleton]; unfold cc2__tail_ce_kernel_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; rw [read_writes_whole2]; delta sound_kernel2_last.sl.v53 sound_kernel2_last.sl.v54 sound_kernel2_last.sl.v57 sound_kernel2_last.sl.H7_1 sound_kernel2_last.sl.H8_1 sound_kernel2_last.sl.H9_1 sound_kernel2_last.sl.r sound_kernel2_last.sl.r_1
    simp only [readAt_whole2, readCov_whole2]; rfl
  isplitl [H7]
  · iexists _; isplitr; swap; · iexact H7
    ipureintro; delta sound_kernel2_last.sl.H7_1 sound_kernel2_last.sl.r_1; rw [read_writes_whole2]
    simp only [readAt_whole2, readCov_whole2]; rfl
  isplitl [H8]
  · iexists _; isplitr; swap; · iexact H8
    ipureintro; delta sound_kernel2_last.sl.H8_1 sound_kernel2_last.sl.r sound_kernel2_last.sl.r_1; rw [read_writes_whole2]
    simp only [readAt_whole2, readCov_whole2]; rfl
  iexists _; isplitr; swap; · iexact H9
  ipureintro; delta sound_kernel2_last.sl.H9_1; rw [read_writes_whole2]
  simp only [readAt_whole2, readCov_whole2]; rfl

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def rowMax {n : ℕ} (s : Fin n → EReal) : EReal := Finset.univ.fold max ⊥ s

def ceRef {n : ℕ} (s : Fin n → EReal) (lab : Fin n) : EReal :=
  -((s lab - rowMax s) - Ideal.log (∑ c, Ideal.exp (s c - rowMax s)))

def ceRefN {n : ℕ} (s : Fin n → EReal) (lab : ℕ) : EReal :=
  if h : lab < n then ceRef s ⟨lab, h⟩ else 0

def tile (B : ℕ) {n : ℕ} (s : Fin n → EReal) (j : ℕ) (k : Fin B) : EReal :=
  if h : j * B + k.val < n then s ⟨j * B + k.val, h⟩ else ⊥

structure St where
  m : EReal
  l : EReal
  sel : EReal

def St.init : St := ⟨⊥, 0, 0⟩

def St.step (B : ℕ) {n : ℕ} (s : Fin n → EReal) (lab : ℕ) (j : ℕ) (st : St) : St :=
  let mN := max st.m (Finset.univ.fold max ⊥ (tile B s j))
  ⟨mN,
   Ideal.exp (st.m - mN) * st.l + ∑ k : Fin B, Ideal.exp (tile B s j k - mN),
   st.sel + ∑ k : Fin B, (if j * B + k.val = lab then tile B s j k else 0)⟩

def St.run (B : ℕ) {n : ℕ} (s : Fin n → EReal) (lab : ℕ) : ℕ → St
  | 0 => St.init
  | T + 1 => St.step B s lab T (St.run B s lab T)

def ceKer (B T : ℕ) {n : ℕ} (s : Fin n → EReal) (lab : ℕ) : EReal :=
  ((St.run B s lab T).m + Ideal.log (St.run B s lab T).l) - (St.run B s lab T).sel

structure Params where
  lg0 : Fin 4096 → Fin 20000 → EReal
  lg1 : Fin 4096 → Fin 20000 → EReal
  lgH : Fin 4096 → Fin 20002 → EReal
  t0 : Fin 4096 → ℕ
  t1 : Fin 4096 → ℕ
  hl : Fin 4096 → ℕ
  k0 : Fin 4096 → Bool
  k1 : Fin 4096 → Bool

def stack (ce : {n : ℕ} → (Fin n → EReal) → ℕ → EReal) (P : Params) (i : Fin 12288) : EReal :=
  if h : i.val < 4096 then
    (if P.k0 ⟨i.val, h⟩ then ce (P.lg0 ⟨i.val, h⟩) (P.t0 ⟨i.val, h⟩) else 0)
  else if h2 : i.val < 8192 then
    (if P.k1 ⟨i.val - 4096, by omega⟩ then ce (P.lg1 ⟨i.val - 4096, by omega⟩) (P.t1 ⟨i.val - 4096, by omega⟩) else 0)
  else
    ce (P.lgH ⟨i.val - 8192, by have := i.isLt; omega⟩) (P.hl ⟨i.val - 8192, by have := i.isLt; omega⟩)

def outRef (P : Params) : Fin 12288 → EReal := stack (fun s lab => ceRefN s lab) P

def outKer (P : Params) : Fin 12288 → EReal := stack (fun s lab => ceKer 512 40 s lab) P

abbrev SInp : Shape := ⟨3, ![8, 512, 1024]⟩
abbrev SLab : Shape := ⟨2, ![8, 512]⟩
abbrev SHw : Shape := ⟨2, ![1024, 20002]⟩
abbrev SP0 : Shape := ⟨2, ![1024, 256]⟩
abbrev SW0 : Shape := ⟨2, ![256, 20000]⟩
abbrev SP1 : Shape := ⟨2, ![1024, 64]⟩
abbrev SW1 : Shape := ⟨2, ![64, 20000]⟩

def xrow (inp : SInp.Idx → EReal) (r : Fin 4096) (h : Fin 1024) : EReal :=
  inp (ix3 (⟨r.val / 512, by have := r.isLt; omega⟩ : Fin 8) (⟨r.val % 512, Nat.mod_lt _ (by decide)⟩ : Fin 512) h)

def labAt (lab : SLab.Idx → BitVec 32) (r : Fin 4096) : ℤ :=
  (lab (ix2 (⟨r.val / 512, by have := r.isLt; omega⟩ : Fin 8) (⟨r.val % 512, Nat.mod_lt _ (by decide)⟩ : Fin 512))).toInt

def projRow {p : ℕ} (x : Fin 1024 → EReal) (P : (⟨2, ![1024, p]⟩ : Shape).Idx → EReal) (q : Fin p) : EReal :=
  ∑ h : Fin 1024, x h * P (ix2 h q)

def logitRow {p n : ℕ} (y : Fin p → EReal) (W : (⟨2, ![p, n]⟩ : Shape).Idx → EReal) (c : Fin n) : EReal :=
  ∑ q : Fin p, y q * W (ix2 q c)

def inTail (k : ℕ) (L : ℤ) : Bool := decide (20000 * ((k : ℤ) + 1) ≤ L ∧ L < 20000 * ((k : ℤ) + 2))

def tailClass (k : ℕ) (L : ℤ) : ℕ := (max 0 (min 19999 (L - 20000 * ((k : ℤ) + 1)))).toNat

def headClass (L : ℤ) : ℕ := if inTail 1 L then 20001 else if inTail 0 L then 20000 else L.toNat

def paramsOf (inp : SInp.Idx → EReal) (lab : SLab.Idx → BitVec 32) (hw : SHw.Idx → EReal)
    (p0 : SP0.Idx → EReal) (w0 : SW0.Idx → EReal) (p1 : SP1.Idx → EReal) (w1 : SW1.Idx → EReal) : Params where
  lg0 r := logitRow (projRow (xrow inp r) p0) w0
  lg1 r := logitRow (projRow (xrow inp r) p1) w1
  lgH r := logitRow (xrow inp r) hw
  t0 r := tailClass 0 (labAt lab r)
  t1 r := tailClass 1 (labAt lab r)
  hl r := headClass (labAt lab r)
  k0 r := inTail 0 (labAt lab r)
  k1 r := inTail 1 (labAt lab r)

end Cert.Spec

end
-- ==== Proof.Ideal.Tile4.lean ====
import proofs.«427659_j7121055776931_3_alg».proof.Proof.Gen.KernelIdeal.Launch
import proofs.«427659_j7121055776931_3_alg».proof.Proof.Ideal.State
import proofs.«427659_j7121055776931_3_alg».proof.Proof.Spec
import Idealize.ShloMosaic.Lib.ValueIdx
import Idealize.ShloMosaic.Lib.Pipeline.Value
import Idealize.ShloMosaic.Lib.StableHlo.Predicate
import Idealize.ShloMosaic.PureOps.Ideal.Laws

noncomputable section

namespace Cert.KernelIdeal.Hand

open Cert.KernelIdeal Cert.KernelIdeal.Gen Idealize.ShloMosaic Idealize.ShloMosaic.ValueIdx

theorem neg_big_eq : Named.named (F := Ideal) κ "neg_big" (φ := .f32) 0xF149F2CA#32 = ⊥ :=
  IdealRules.named_const.ideal_named_scalar _ _ _ _ rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lane_lift (r : Fin 2048) (k : Fin 512) : reduces_S2048x512_S2048.lift (ix1 r) k = ix2 r k :=
  funext fun a => Fin.ext (by
    match a with
    | ⟨0, _⟩ => rfl
    | ⟨1, _⟩ => rfl)

theorem pay7_4_apply (i : grid4.Coords) (r : Fin 2048) (k : Fin 512) :
    k4_pay7 i (ix2 r k) = BitVec.ofNat 32 ((i 1).val * 512 + k.val) := by
  unfold k4_pay7
  show IntOp.addi (iota .tc S2048x512 32 [1] iota_S2048x512_d1_w32 (ix2 r k))
      (IntOp.muli (BitVec.ofNat 32 (i 1).val) 512#32) = _
  rw [iota_single_apply]
  show BitVec.ofNat 32 k.val + BitVec.ofNat 32 (i 1).val * BitVec.ofNat 32 512 = _
  rw [← BitVec.ofNat_mul, ← BitVec.ofNat_add, Nat.add_comm]

theorem col4_lt (i : grid4.Coords) (k : Fin 512) : (i 1).val * 512 + k.val < 2 ^ 31 := by
  have h1 : (i 1).val < 40 := (i 1).isLt
  have h2 := k.isLt
  omega

theorem pay7_4_toNat (i : grid4.Coords) (r : Fin 2048) (k : Fin 512) :
    (k4_pay7 i (ix2 r k)).toNat = (i 1).val * 512 + k.val := by
  rw [pay7_4_apply, BitVec.toNat_ofNat]
  have := col4_lt i k
  omega

/-- Entry `(r, k)` of a plain rank-2 product into a zero accumulator: row `r` against column `k`. -/
theorem prod_apply {a n b : ℕ} (x : FVec Ideal ⟨2, ![a, n]⟩ .bf16) (w : FVec Ideal ⟨2, ![n, b]⟩ .bf16) (r : Fin a) (k : Fin b) :
    matmul (F := Ideal) (DotDims.plain a n b) none x w (constant (F := Ideal) ⟨2, ![a, b]⟩ .f32 0x00000000#32) (ix2 r k)
      = ∑ h : Fin n, x (ix2 r h) * w (ix2 h k) := by
  simp only [matmul]
  rw [Ideal.matmul_constant_zero_apply, ← Equiv.sum_comp (contrEquiv1 (DotDims.plain a n b) n rfl rfl).symm]
  refine Finset.sum_congr rfl fun h _ => ?_
  have hk := contrEquiv1_symm_val (DotDims.plain a n b) n rfl rfl h
  have el : (DotDims.plain a n b).lhsIdx (ix2 r k) ((contrEquiv1 (DotDims.plain a n b) n rfl rfl).symm h) = ix2 r h :=
    funext fun c => Fin.ext (by
      match c with
      | ⟨0, _⟩ => rfl
      | ⟨1, _⟩ => exact ((DotDims.plain a n b).lhsIdx_val_of_single rfl _ _).trans hk)
  have er : (DotDims.plain a n b).rhsIdx (ix2 r k) ((contrEquiv1 (DotDims.plain a n b) n rfl rfl).symm h) = ix2 h k :=
    funext fun c => Fin.ext (by
      match c with
      | ⟨0, _⟩ => exact ((DotDims.plain a n b).rhsIdx_val_of_single rfl _ _).trans hk
      | ⟨1, _⟩ => rfl)
  rw [el, er]

theorem laneMax_row (v : FVec Ideal S2048x512 .f32) (hφ : FKind.Formats .f32)
    (hacc : (0xFF800000#32 : BitVec 32) = FKind.maximumf.neutral .f32 hφ) (r : Fin 2048) :
    shapeCast S2048x1 (multiReduction (F := Ideal) .maximumf [1] S2048 v 0xFF800000#32 reduces_S2048x512_S2048 hφ hacc)
        shapeCasts_S2048_S2048x1 (ix2 r (0 : Fin 1))
      = Finset.univ.fold max ⊥ (fun k : Fin 512 => v (ix2 r k)) := by
  refine (shapeCast_a_a1_apply _ _ r 0).trans ?_
  refine (Ideal.multiReduction_maximumf_single v _ reduces_S2048x512_S2048 hφ hacc (ix1 r)).trans ?_
  have hb : FloatOps.ofBits (F := Ideal) .f32 0xFF800000#32 = ⊥ := by
    show Ideal.ofBits .f32 0xFF800000#32 = ⊥
    simp [Ideal.ofBits, Ideal.ieee]
  rw [hb]
  show Finset.univ.fold max ⊥ (fun k : Fin 512 => v (reduces_S2048x512_S2048.lift (ix1 r) k)) = _
  simp only [lane_lift]

theorem laneSum_row (v : FVec Ideal S2048x512 .f32) (hφ : FKind.Formats .f32)
    (hacc : (0x00000000#32 : BitVec 32) = FKind.add.neutral .f32 hφ) (r : Fin 2048) :
    shapeCast S2048x1 (multiReduction (F := Ideal) .add [1] S2048 v 0x00000000#32 reduces_S2048x512_S2048 hφ hacc)
        shapeCasts_S2048_S2048x1 (ix2 r (0 : Fin 1))
      = ∑ k : Fin 512, v (ix2 r k) := by
  refine (shapeCast_a_a1_apply _ _ r 0).trans ?_
  refine (Ideal.multiReduction_add_single v _ reduces_S2048x512_S2048 hφ hacc (ix1 r)).trans ?_
  show ∑ k : Fin 512, v (reduces_S2048x512_S2048.lift (ix1 r) k) = _
  simp only [lane_lift]

section Tile

variable {V : ℕ} (b : BitVec 32) (hbV : b.toNat = V) (hV : V < 2 ^ 31) (i : grid4.Coords)

/-- A block of products masked past the vocabulary's end: kept on class numbers below `b`, −∞ elsewhere. -/
def masked (P : FVec Ideal S2048x512 .f32) : FVec Ideal S2048x512 .f32 :=
  select (cmpi .slt (k4_pay7 i) (broadcast S2048x512 b)) P
    (broadcast S2048x512 (Named.named (F := Ideal) κ "neg_big" (φ := .f32) 0xF149F2CA#32))

include hbV hV in
theorem masked_apply (P : FVec Ideal S2048x512 .f32) (r : Fin 2048) (k : Fin 512) :
    masked b i P (ix2 r k) = if (i 1).val * 512 + k.val < V then P (ix2 r k) else ⊥ := by
  subst hbV
  show Scalar.select (IntOp.cmpi .slt (k4_pay7 i (ix2 r k)) b) (P (ix2 r k))
      (Named.named (F := Ideal) κ "neg_big" (φ := .f32) 0xF149F2CA#32) = _
  rw [neg_big_eq]
  unfold Scalar.select
  refine if_congr ((StableHlo.Predicate.slt_iff_toNat (by rw [pay7_4_toNat]; exact col4_lt i k) hV).trans ?_) rfl rfl
  rw [pay7_4_toNat]

include hbV hV in
/-- Masked blocks agree as soon as the products agree inside the vocabulary. -/
theorem masked_congr (P P' : FVec Ideal S2048x512 .f32)
    (h : ∀ (r : Fin 2048) (k : Fin 512), (i 1).val * 512 + k.val < V → P (ix2 r k) = P' (ix2 r k)) :
    masked b i P = masked b i P' := by
  funext idx
  obtain ⟨r, k, rfl⟩ : ∃ (r : Fin 2048) (k : Fin 512), idx = ix2 r k := ⟨idx 0, idx 1, eq_ix2 idx⟩
  rw [masked_apply b hbV hV, masked_apply b hbV hV]
  exact if_ctx_congr Iff.rfl (h r k) fun _ => rfl

/-- The masked logits of a tile from the two loaded blocks, of any contraction depth `n`. -/
def logits {n : ℕ} (x : Vec Ideal ⟨2, ![2048, n]⟩ .bf16) (w : Vec Ideal ⟨2, ![n, 512]⟩ .bf16) : FVec Ideal S2048x512 .f32 :=
  have v4 : FVec Ideal ⟨2, ![2048, n]⟩ .bf16 := shapeCast _ x rfl
  have v6 : FVec Ideal ⟨2, ![n, 512]⟩ .bf16 := shapeCast _ w rfl
  masked b i (matmul (DotDims.plain 2048 n 512) none v4 v6 (constant S2048x512 .f32 0x00000000#32))

/-- The new maximum as a function of the masked logits. -/
def colMax (lg : FVec Ideal S2048x512 .f32) (m : Vec Ideal S2048x1 .f32) : FVec Ideal S2048x1 .f32 :=
  maximumf m (shapeCast S2048x1
    (multiReduction .maximumf [1] S2048 lg 0xFF800000#32 reduces_S2048x512_S2048 (.inl rfl) rfl) shapeCasts_S2048_S2048x1)

/-- The class's logit as a function of the masked logits. -/
def colSel (lg : FVec Ideal S2048x512 .f32) (lab : Vec Ideal S2048x1 .i32) (sel : Vec Ideal S2048x1 .f32) :
    FVec Ideal S2048x1 .f32 :=
  have v17 : IVec S2048x1 32 := shapeCast S2048x1 lab shapeCasts_S2048x1_S2048x1
  have v19 : IVec S2048x512 1 := cmpi .eq (k4_pay7 i) (broadcastTo S2048x512 v17 broadcasts_S2048x1_S2048x512)
  have v21 : FVec Ideal S2048x512 .f32 := select v19 lg (broadcast S2048x512 (Scalar.ofBits .f32 0x00000000#32))
  have v22 : FVec Ideal S2048 .f32 := multiReduction .add [1] S2048 v21 0x00000000#32 reduces_S2048x512_S2048 (.inl rfl) rfl
  shapeCast S2048x1 (addf sel (shapeCast S2048x1 v22 shapeCasts_S2048_S2048x1)) shapeCasts_S2048x1_S2048x1

/-- One tile's update as a function of the tile's masked logits. -/
def stepG (lg : FVec Ideal S2048x512 .f32) (lab : Vec Ideal S2048x1 .i32) (st : St4) : St4 :=
  (k4_pay2 (colMax lg st.1), k4_pay1 lg (colMax lg st.1) st.1 st.2.1, colSel i lg lab st.2.2)

theorem colMax_row (lg : FVec Ideal S2048x512 .f32) (m : Vec Ideal S2048x1 .f32) (r : Fin 2048) :
    colMax lg m (ix2 r (0 : Fin 1))
      = max (m (ix2 r (0 : Fin 1))) (Finset.univ.fold max ⊥ (fun k : Fin 512 => lg (ix2 r k))) := by
  unfold colMax
  exact congrArg (max (m (ix2 r (0 : Fin 1)))) (laneMax_row lg _ _ r)

/-- The new sum: the old one rescaled by `exp (m_old - m_new)` plus the row's `exp (logit - m_new)`. -/
theorem pay1_row (lg : FVec Ideal S2048x512 .f32) (mN : FVec Ideal S2048x1 .f32) (mO l : Vec Ideal S2048x1 .f32) (r : Fin 2048) :
    k4_pay1 (F := Ideal) lg mN mO l (ix2 r (0 : Fin 1))
      = Ideal.exp (mO (ix2 r (0 : Fin 1)) - mN (ix2 r (0 : Fin 1))) * l (ix2 r (0 : Fin 1))
        + ∑ k : Fin 512, Ideal.exp (lg (ix2 r k) - mN (ix2 r (0 : Fin 1))) := by
  unfold k4_pay1
  refine (congrFun (shapeCast_self _ _) _).trans ?_
  refine congrArg (Ideal.exp (mO (ix2 r (0 : Fin 1)) - mN (ix2 r (0 : Fin 1))) * l (ix2 r (0 : Fin 1)) + ·)
    ((laneSum_row _ _ _ r).trans ?_)
  refine Finset.sum_congr rfl fun k _ => ?_
  show Ideal.exp (lg (ix2 r k) - broadcastTo S2048x512 mN broadcasts_S2048x1_S2048x512 (ix2 r k)) = _
  rw [broadcastTo_a1_ab_apply]

theorem eq_iff (r : Fin 2048) (k : Fin 512) (c : BitVec 32) :
    IntOp.cmpi .eq (k4_pay7 i (ix2 r k)) c = 1#1 ↔ (i 1).val * 512 + k.val = c.toNat := by
  rw [StableHlo.Predicate.cmpi_eq_iff]
  constructor
  · intro h; rw [← h, pay7_4_toNat]
  · intro h
    apply BitVec.eq_of_toNat_eq
    rw [pay7_4_toNat, h]

theorem colSel_row (lg : FVec Ideal S2048x512 .f32) (lab : Vec Ideal S2048x1 .i32) (sel : Vec Ideal S2048x1 .f32) (r : Fin 2048) :
    colSel i lg lab sel (ix2 r (0 : Fin 1))
      = sel (ix2 r (0 : Fin 1))
        + ∑ k : Fin 512, (if (i 1).val * 512 + k.val = (lab (ix2 r (0 : Fin 1))).toNat then lg (ix2 r k) else 0) := by
  unfold colSel
  refine (congrFun (shapeCast_self _ _) _).trans ?_
  refine congrArg (sel (ix2 r (0 : Fin 1)) + ·) ((laneSum_row _ _ _ r).trans ?_)
  refine Finset.sum_congr rfl fun k _ => ?_
  show Scalar.select (IntOp.cmpi .eq (k4_pay7 i (ix2 r k))
        (broadcastTo S2048x512 (shapeCast S2048x1 lab shapeCasts_S2048x1_S2048x1) broadcasts_S2048x1_S2048x512 (ix2 r k)))
      (lg (ix2 r k)) (Ideal.ofBits .f32 0x00000000#32) = _
  rw [broadcastTo_a1_ab_apply, shapeCast_self, Ideal.ofBits_zero_f32]
  unfold Scalar.select
  exact if_congr (eq_iff i r k _) rfl rfl

/-- On a row whose masked logits are tile `j` of a row of logits `s`, the update is the specification's step. -/
theorem stepG_row (lg : FVec Ideal S2048x512 .f32) (lab : Vec Ideal S2048x1 .i32) (st : St4) (r : Fin 2048) (s : Fin V → EReal)
    (hlg : ∀ k : Fin 512, lg (ix2 r k) = Cert.Spec.tile 512 s (i 1).val k) :
    Cert.Spec.St.mk ((stepG i lg lab st).1 (ix2 r (0 : Fin 1))) ((stepG i lg lab st).2.1 (ix2 r (0 : Fin 1)))
        ((stepG i lg lab st).2.2 (ix2 r (0 : Fin 1)))
      = Cert.Spec.St.step 512 s (lab (ix2 r (0 : Fin 1))).toNat (i 1).val
          (Cert.Spec.St.mk (st.1 (ix2 r (0 : Fin 1))) (st.2.1 (ix2 r (0 : Fin 1))) (st.2.2 (ix2 r (0 : Fin 1)))) := by
  have e : (fun k : Fin 512 => lg (ix2 r k)) = Cert.Spec.tile 512 s (i 1).val := funext hlg
  show Cert.Spec.St.mk (k4_pay2 (F := Ideal) (colMax lg st.1) (ix2 r (0 : Fin 1)))
      (k4_pay1 (F := Ideal) lg (colMax lg st.1) st.1 st.2.1 (ix2 r (0 : Fin 1))) (colSel i lg lab st.2.2 (ix2 r (0 : Fin 1))) = _
  rw [show k4_pay2 (F := Ideal) (colMax lg st.1) (ix2 r (0 : Fin 1)) = colMax lg st.1 (ix2 r (0 : Fin 1)) by
      unfold k4_pay2; exact congrFun (shapeCast_self _ _) _, pay1_row, colSel_row, colMax_row, e]
  simp only [hlg]
  rfl

variable {n : ℕ} (x : Vec Ideal ⟨2, ![2048, n]⟩ .bf16) (w w' : Vec Ideal ⟨2, ![n, 512]⟩ .bf16)
  (lab : Vec Ideal S2048x1 .i32) (st : St4)

include hbV hV in
/-- A tile whose products inside the vocabulary are the entries of a row of logits `s` steps as the specification does. -/
theorem logits_row (r : Fin 2048) (s : Fin V → EReal)
    (hs : ∀ (k : Fin 512) (hk : (i 1).val * 512 + k.val < V),
      ∑ h : Fin n, x (ix2 r h) * w (ix2 h k) = s ⟨(i 1).val * 512 + k.val, hk⟩) :
    Cert.Spec.St.mk ((stepG i (logits b i x w) lab st).1 (ix2 r (0 : Fin 1)))
        ((stepG i (logits b i x w) lab st).2.1 (ix2 r (0 : Fin 1)))
        ((stepG i (logits b i x w) lab st).2.2 (ix2 r (0 : Fin 1)))
      = Cert.Spec.St.step 512 s (lab (ix2 r (0 : Fin 1))).toNat (i 1).val
          (Cert.Spec.St.mk (st.1 (ix2 r (0 : Fin 1))) (st.2.1 (ix2 r (0 : Fin 1))) (st.2.2 (ix2 r (0 : Fin 1)))) := by
  refine stepG_row i _ lab st r s fun k => ?_
  unfold logits Cert.Spec.tile
  rw [masked_apply b hbV hV, prod_apply, shapeCast_self, shapeCast_self]
  by_cases hk : (i 1).val * 512 + k.val < V
  · rw [if_pos hk, dif_pos hk]; exact hs k hk
  · rw [if_neg hk, dif_neg hk]

include hbV hV in
/-- The update does not see the weights' block on columns past the vocabulary's end. -/
theorem logits_congr (h : ∀ (h : Fin n) (k : Fin 512), (i 1).val * 512 + k.val < V → w (ix2 h k) = w' (ix2 h k)) :
    stepG i (logits b i x w) lab st = stepG i (logits b i x w') lab st := by
  unfold logits
  refine congrArg (stepG i · lab st) (masked_congr b hbV hV i _ _ fun r k hk => ?_)
  rw [prod_apply, prod_apply, shapeCast_self, shapeCast_self, shapeCast_self]
  exact Finset.sum_congr rfl fun h' _ => congrArg (x (ix2 r h') * ·) (h h' k hk)

end Tile

/-- Values that start from the seeds at every first tile and step from the point before elsewhere are the specification's run. -/
theorem run_of_steps {V N : ℕ} (s : Fin V → EReal) (lab : ℕ) (B : ℕ → Prop) (S : ∀ n, n < N → Cert.Spec.St)
    (hB : ∀ n, B (n + 1) → (n + 1) % 40 ≠ 0 → B n)
    (h0 : ∀ n hn, B n → n % 40 = 0 → S n hn = Cert.Spec.St.step 512 s lab (n % 40) Cert.Spec.St.init)
    (h1 : ∀ n hn, B (n + 1) → (n + 1) % 40 ≠ 0 →
      S (n + 1) hn = Cert.Spec.St.step 512 s lab ((n + 1) % 40) (S n (Nat.lt_of_succ_lt hn))) :
    ∀ n hn, B n → S n hn = Cert.Spec.St.run 512 s lab (n % 40 + 1) := by
  intro n
  induction n with
  | zero => intro hn hb; rw [h0 0 hn hb rfl]; rfl
  | succ n ih =>
    intro hn hb
    by_cases hz : (n + 1) % 40 = 0
    · rw [h0 (n + 1) hn hb hz, hz]; rfl
    · rw [h1 n hn hb hz, ih (Nat.lt_of_succ_lt hn) (hB n hb hz), show (n + 1) % 40 = n % 40 + 1 by omega]; rfl

theorem lt_extent_of_ok {ix k d j : ℕ} {c : Pipeline.Clip} (h : Pipeline.Clip.Ok ix k d c) (hj : j < k) (hd : ix * k + j < d) :
    j < c.extent k := by
  cases c with
  | none => exact hj
  | some n =>
    obtain ⟨_, _, e⟩ := h
    show j < n
    omega

/-- Inside the cut extent the filled-out block does not depend on the filler. -/
theorem fill_indep_at {G : Pipeline.Grid} (win : Pipeline.Window sig G) {α : Type} (i : G.Coords) (d d' : win.block.Idx → α)
    (blk : (win.xblock i).Idx → α) (j : win.block.Idx) (h : ∀ a, (j a).val < win.xsize i a) :
    win.fill i d blk j = win.fill i d' blk j := by
  unfold Pipeline.Window.fill
  rw [dif_pos ((win.moved_iff i j).mpr h), dif_pos ((win.moved_iff i j).mpr h)]

theorem moved4 (i : grid4.Coords) (h : Fin 1024) (k : Fin 512) (hk : (i 1).val * 512 + k.val < 20002) :
    ∀ a, ((ix2 h k : win4_1.block.Idx) a).val < win4_1.xsize i a := fun a =>
  match a with
  | ⟨0, _⟩ => lt_extent_of_ok (ix := 0) (k := 1024) (d := 1024) (win4_1.hclip i 0) h.isLt (by
      rw [Nat.zero_mul, Nat.zero_add]; exact h.isLt)
  | ⟨1, _⟩ => lt_extent_of_ok (ix := (BitVec.ofNat 32 (i 1).val).toNat) (k := 512) (d := 20002) (win4_1.hclip i 1) k.isLt (by
      rw [BitVec.toNat_ofNat, Nat.mod_eq_of_lt (lt_trans (i 1).isLt (by decide))]; exact hk)

theorem step4_fill_indep (i : grid4.Coords) (x : Vec Ideal S2048x1024 .bf16) (d d' : win4_1.block.Idx → Elt Ideal .bf16)
    (blk : (win4_1.xblock i).Idx → Elt Ideal .bf16) (lab : Vec Ideal S2048x1 .i32) (st : St4) :
    step4 i x (win4_1.fill i d blk) lab st = step4 i x (win4_1.fill i d' blk) lab st :=
  logits_congr (V := 20002) 20002#32 rfl (by decide) i x (win4_1.fill i d blk) (win4_1.fill i d' blk) lab st
    fun h k hk => fill_indep_at win4_1 i d d' blk (ix2 h k) (moved4 i h k hk)

theorem init4_row (r : Fin 2048) :
    Cert.Spec.St.mk (init4.1 (ix2 r (0 : Fin 1))) (init4.2.1 (ix2 r (0 : Fin 1))) (init4.2.2 (ix2 r (0 : Fin 1))) = Cert.Spec.St.init := by
  show Cert.Spec.St.mk (k4_pay4 (F := Ideal) (ix2 r (0 : Fin 1))) (k4_pay5 (F := Ideal) (ix2 r (0 : Fin 1)))
    (k4_pay6 (F := Ideal) (ix2 r (0 : Fin 1))) = _
  unfold k4_pay4 k4_pay5 k4_pay6
  simp only [shapeCast_self]
  show Cert.Spec.St.mk (Named.named (F := Ideal) κ "neg_big" (φ := .f32) 0xF149F2CA#32) (Ideal.ofBits .f32 0x00000000#32)
    (Ideal.ofBits .f32 0x00000000#32) = _
  rw [neg_big_eq, Ideal.ofBits_zero_f32]
  rfl

theorem step4_row (i : grid4.Coords) (x : Vec Ideal S2048x1024 .bf16) (w : Vec Ideal S1024x512 .bf16) (lab : Vec Ideal S2048x1 .i32)
    (st : St4) (r : Fin 2048) (s : Fin 20002 → EReal)
    (hs : ∀ (k : Fin 512) (hk : (i 1).val * 512 + k.val < 20002),
      ∑ h : Fin 1024, x (ix2 r h) * w (ix2 h k) = s ⟨(i 1).val * 512 + k.val, hk⟩) :
    Cert.Spec.St.mk ((step4 i x w lab st).1 (ix2 r (0 : Fin 1))) ((step4 i x w lab st).2.1 (ix2 r (0 : Fin 1)))
        ((step4 i x w lab st).2.2 (ix2 r (0 : Fin 1)))
      = Cert.Spec.St.step 512 s (lab (ix2 r (0 : Fin 1))).toNat (i 1).val
          (Cert.Spec.St.mk (st.1 (ix2 r (0 : Fin 1))) (st.2.1 (ix2 r (0 : Fin 1))) (st.2.2 (ix2 r (0 : Fin 1)))) :=
  logits_row (V := 20002) 20002#32 rfl (by decide) i x w lab st r s hs

theorem out4_row (st : St4) (r : Fin 2048) :
    out4 st (ix2 r (0 : Fin 1))
      = (st.1 (ix2 r (0 : Fin 1)) + Ideal.log (st.2.1 (ix2 r (0 : Fin 1)))) - st.2.2 (ix2 r (0 : Fin 1)) := by
  unfold out4 k4_pay3
  rfl

/-- What the last tile of a masked region writes on a row: `(m + log l) - sel` where the mask is positive, else 0. -/
theorem outMask_row (m l sel mask : Vec Ideal S2048x1 .f32) (r : Fin 2048) :
    k2_pay3 (F := Ideal) m l sel mask (ix2 r (0 : Fin 1))
      = if (0 : EReal) < mask (ix2 r (0 : Fin 1)) then (m (ix2 r (0 : Fin 1)) + Ideal.log (l (ix2 r (0 : Fin 1)))) - sel (ix2 r (0 : Fin 1)) else 0 := by
  unfold k2_pay3
  show Scalar.select (Ideal.cmp .ogt (shapeCast S2048x1 mask shapeCasts_S2048x1_S2048x1 (ix2 r (0 : Fin 1))) (Ideal.ofBits .f32 0x00000000#32))
      ((m (ix2 r (0 : Fin 1)) + Ideal.log (l (ix2 r (0 : Fin 1)))) - sel (ix2 r (0 : Fin 1)))
      (Ideal.ofBits .f32 0x00000000#32) = _
  rw [shapeCast_self, Ideal.ofBits_zero_f32]
  unfold Scalar.select Ideal.cmp
  exact if_congr ((StableHlo.Predicate.ofBool_eq_one_iff _).trans decide_eq_true_iff) rfl rfl

end Cert.KernelIdeal.Hand

end
-- ==== Proof.Ideal.Tile2.lean ====
import proofs.«427659_j7121055776931_3_alg».proof.Proof.Ideal.Tile4

noncomputable section

namespace Cert.KernelIdeal.Hand

open Cert.KernelIdeal Cert.KernelIdeal.Gen Idealize.ShloMosaic Idealize.ShloMosaic.ValueIdx

theorem moved2 (i : grid2.Coords) (h : Fin 256) (k : Fin 512) (hk : (i 1).val * 512 + k.val < 20000) :
    ∀ a, ((ix2 h k : win2_1.block.Idx) a).val < win2_1.xsize i a := fun a =>
  match a with
  | ⟨0, _⟩ => lt_extent_of_ok (ix := 0) (k := 256) (d := 256) (win2_1.hclip i 0) h.isLt (by
      rw [Nat.zero_mul, Nat.zero_add]; exact h.isLt)
  | ⟨1, _⟩ => lt_extent_of_ok (ix := (BitVec.ofNat 32 (i 1).val).toNat) (k := 512) (d := 20000) (win2_1.hclip i 1) k.isLt (by
      rw [BitVec.toNat_ofNat, Nat.mod_eq_of_lt (lt_trans (i 1).isLt (by decide))]; exact hk)

theorem step2_fill_indep (i : grid2.Coords) (x : Vec Ideal S2048x256 .bf16) (d d' : win2_1.block.Idx → Elt Ideal .bf16)
    (blk : (win2_1.xblock i).Idx → Elt Ideal .bf16) (lab : Vec Ideal S2048x1 .i32) (st : St2) :
    step2 i x (win2_1.fill i d blk) lab st = step2 i x (win2_1.fill i d' blk) lab st :=
  logits_congr (V := 20000) 20000#32 rfl (by decide) i x (win2_1.fill i d blk) (win2_1.fill i d' blk) lab st
    fun h k hk => fill_indep_at win2_1 i d d' blk (ix2 h k) (moved2 i h k hk)

theorem init2_row (r : Fin 2048) :
    Cert.Spec.St.mk (init2.1 (ix2 r (0 : Fin 1))) (init2.2.1 (ix2 r (0 : Fin 1))) (init2.2.2 (ix2 r (0 : Fin 1))) = Cert.Spec.St.init :=
  init4_row r

theorem step2_row (i : grid2.Coords) (x : Vec Ideal S2048x256 .bf16) (w : Vec Ideal S256x512 .bf16) (lab : Vec Ideal S2048x1 .i32)
    (st : St2) (r : Fin 2048) (s : Fin 20000 → EReal)
    (hs : ∀ (k : Fin 512) (hk : (i 1).val * 512 + k.val < 20000),
      ∑ h : Fin 256, x (ix2 r h) * w (ix2 h k) = s ⟨(i 1).val * 512 + k.val, hk⟩) :
    Cert.Spec.St.mk ((step2 i x w lab st).1 (ix2 r (0 : Fin 1))) ((step2 i x w lab st).2.1 (ix2 r (0 : Fin 1)))
        ((step2 i x w lab st).2.2 (ix2 r (0 : Fin 1)))
      = Cert.Spec.St.step 512 s (lab (ix2 r (0 : Fin 1))).toNat (i 1).val
          (Cert.Spec.St.mk (st.1 (ix2 r (0 : Fin 1))) (st.2.1 (ix2 r (0 : Fin 1))) (st.2.2 (ix2 r (0 : Fin 1)))) :=
  logits_row (V := 20000) 20000#32 rfl (by decide) i x w lab st r s hs

theorem out2_row (st : St2) (mask : Vec Ideal S2048x1 .f32) (r : Fin 2048) :
    out2 st mask (ix2 r (0 : Fin 1))
      = if (0 : EReal) < mask (ix2 r (0 : Fin 1)) then (st.1 (ix2 r (0 : Fin 1)) + Ideal.log (st.2.1 (ix2 r (0 : Fin 1)))) - st.2.2 (ix2 r (0 : Fin 1)) else 0 :=
  outMask_row st.1 st.2.1 st.2.2 mask r

end Cert.KernelIdeal.Hand

end
-- ==== Proof.Ideal.Dat2.lean ====
import proofs.«427659_j7121055776931_3_alg».proof.Proof.Ideal.Data2
import proofs.«427659_j7121055776931_3_alg».proof.Proof.Ideal.Body2
import proofs.«427659_j7121055776931_3_alg».proof.Proof.Ideal.Tile2
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b)) (c : Dev nD) (t : Fin cfg2.N)

theorem A_eq2 (w : Fin cfg2.W) : (dat2 V c).A w = V c (Pipeline.arrRef spec2 w) := by
  dsimp only [dat2]
theorem q_eq2 (w : Fin cfg2.W) : (dat2 V c).q w = fullShare := rfl
theorem owed_eq2 (t : Fin (cfg2.N + 1)) : (dat2 V c).owed t = 0 := rfl

theorem coords2_tile : ∀ t : Fin cfg2.N, (grid2.coords t 1).val = t.val % 40 :=
  (by decide +kernel : ∀ t : Fin grid2.N, (grid2.coords t 1).val = t.val % 40)

theorem idleAt2_4 : ∀ t : Fin cfg2.N, t.val % 40 ≠ 39 → cfg2.idle 4 (grid2.coords t) = true :=
  (by decide +kernel : ∀ t : Fin grid2.N, t.val % 40 ≠ 39 → idle2 4 (grid2.coords t) = true)
theorem liveAt2_4 : ∀ t : Fin cfg2.N, t.val % 40 = 39 → cfg2.idle 4 (grid2.coords t) = false :=
  (by decide +kernel : ∀ t : Fin grid2.N, t.val % 40 = 39 → idle2 4 (grid2.coords t) = false)
theorem noFlush2_4 (t : Fin cfg2.N) (h : t.val % 40 ≠ 39) : (cfg2.win 4).flush t = false :=
  Bool.eq_false_iff.mpr fun hf => h ((flush2_4 t).mp hf)

theorem stAt2_first (h : t.val % 40 = 0) :
    stAt2 V c t.val t.isLt
      = step2 (grid2.coords t) (iblk2 V c 0 t) (wbuf2 V c t) (iblk2 V c 2 t) init2 := by
  obtain ⟨n, hn⟩ := t
  cases n with
  | zero => rfl
  | succ n => exact (congrArg (step2 _ _ _ _) (if_pos h))

theorem stAt2_next (h : t.val % 40 ≠ 0) :
    stAt2 V c t.val t.isLt
      = step2 (grid2.coords t) (iblk2 V c 0 t) (wbuf2 V c t) (iblk2 V c 2 t)
          (stAt2 V c (t.val - 1) (Nat.lt_of_le_of_lt (Nat.sub_le _ _) t.isLt)) := by
  obtain ⟨n, hn⟩ := t
  cases n with
  | zero => exact absurd (Nat.zero_mod _) h
  | succ n => exact (congrArg (step2 _ _ _ _) (if_neg h))

theorem PhiS2_zero (n : ℕ) (h : n ≤ cfg2.N) (hz : n = 0) : PhiS2 V c n h = Pipeline.ΦA spec2 c := by
  subst hz; rfl

theorem PhiS2_succ (n : ℕ) (hn : n < cfg2.N) :
    PhiS2 V c (n + 1) hn = iprop(iprop(owns (c : Thread nD τ) scM2_0 fullShare (stAt2 V c n hn).1
        ∗ owns (c : Thread nD τ) scM2_1 fullShare (stAt2 V c n hn).2.1
        ∗ owns (c : Thread nD τ) scM2_2 fullShare (stAt2 V c n hn).2.2)
      ∗ Pipeline.scopedRestBut (Ix := Unit) (Name := ℕ) (U := UR sig nD τ) (Lvl := ℕ) (Val := Elt Ideal) spec2 c [cc2_scratch0, cc2_scratch1, cc2_scratch2]
      ∗ (∃ r, prngReg c r)) := rfl

theorem PhiS2_pos (n : ℕ) (h : n ≤ cfg2.N) (hz : n ≠ 0) : PhiS2 V c n h = PhiS2 V c (n - 1 + 1) (show n - 1 < cfg2.N by omega) := by
  cases n with
  | zero => exact absurd rfl hz
  | succ n => rfl

theorem PhiS2_castSucc :
    (dat2 V c).Φ t.castSucc = PhiS2 V c t.val (Nat.le_of_lt t.isLt) := by
  dsimp only [dat2]; simp only [Fin.coe_castSucc]

theorem PhiA2_eq :
    (Pipeline.ΦA spec2 c : sProp 𝕄)
      = iprop(iprop(iprop((∃ d, owns (c : Thread nD τ) scM2_0 fullShare d) ∗ (∃ d, owns (c : Thread nD τ) scM2_1 fullShare d)
            ∗ (∃ d, owns (c : Thread nD τ) scM2_2 fullShare d))
          ∗ Pipeline.scopedRestBut (Ix := Unit) (Name := ℕ) (U := UR sig nD τ) (Lvl := ℕ) (Val := Elt Ideal) spec2 c [cc2_scratch0, cc2_scratch1, cc2_scratch2])
        ∗ (∃ r, prngReg c r)) := by
  unfold Pipeline.ΦA; rw [scopedRest2_split]; simp only [scM2_0, scM2_1, scM2_2, owns_whole]; try rfl

theorem after2_0 : (dat2 V c).after 0 t = iblk2 V c 0 t := by dsimp only [dat2]
theorem after2_1 : (dat2 V c).after 1 t = wbuf2 V c t := by dsimp only [dat2]
theorem after2_2 : (dat2 V c).after 2 t = iblk2 V c 2 t := by dsimp only [dat2]
theorem after2_3 : (dat2 V c).after 3 t = iblk2 V c 3 t := by dsimp only [dat2]
theorem after2_4 :
    (dat2 V c).after 4 t = out2 (stAt2 V c t.val t.isLt) (iblk2 V c 3 t) := by dsimp only [dat2]

theorem before2_0 (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_2 (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem before2_1 (d) :
    (dat2 V c).before 1 t d = win2_1.fill (grid2.coords t) d (iblk2 V c 1 t) := by
  unfold Dat.before; rw [if_pos (fetch2_1 t)]
  unfold Dat.fetched Dat.blockOf iblk2; rw [A_eq2]; try rfl

theorem leaves2_1 :
    (dat2 V c).leaves 1 t
      = iprop(∃ d, owns (c : Thread nD τ) (st2_1 t) fullShare (win2_1.fill (grid2.coords t) d (iblk2 V c 1 t))) := by
  unfold Dat.leaves; simp only []
  rw [after2_1]; unfold wbuf2; rw [Window.cut_fill]

theorem leaves2_0 :
    (dat2 V c).leaves 0 t = owns (c : Thread nD τ) (st2_0 t) fullShare (iblk2 V c 0 t) := by
  unfold Dat.leaves; simp only []
  rw [after2_0]

theorem leaves2_2 :
    (dat2 V c).leaves 2 t = owns (c : Thread nD τ) (st2_2 t) fullShare (iblk2 V c 2 t) := by
  unfold Dat.leaves; simp only []
  rw [after2_2]

theorem leaves2_3 :
    (dat2 V c).leaves 3 t = owns (c : Thread nD τ) (st2_3 t) fullShare (iblk2 V c 3 t) := by
  unfold Dat.leaves; simp only []
  rw [after2_3]

theorem leaves2_4_last (h : t.val % 40 = 39) :
    (dat2 V c).leaves 4 t
      = owns (c : Thread nD τ) (st2_4 t) fullShare (out2 (stAt2 V c t.val t.isLt) (iblk2 V c 3 t)) := by
  unfold Dat.leaves; rw [liveAt2_4 t h]; simp only []
  rw [after2_4]

theorem stAt2_first_fill (h : t.val % 40 = 0) (d) :
    stAt2 V c t.val t.isLt
      = step2 (grid2.coords t) (iblk2 V c 0 t) (win2_1.fill (grid2.coords t) d (iblk2 V c 1 t)) (iblk2 V c 2 t) init2 := by
  rw [stAt2_first V c t h]; unfold wbuf2; exact step2_fill_indep _ _ _ _ _ _ _

theorem stAt2_next_fill (h : t.val % 40 ≠ 0) (d) :
    stAt2 V c t.val t.isLt
      = step2 (grid2.coords t) (iblk2 V c 0 t) (win2_1.fill (grid2.coords t) d (iblk2 V c 1 t)) (iblk2 V c 2 t)
          (stAt2 V c (t.val - 1) (Nat.lt_of_le_of_lt (Nat.sub_le _ _) t.isLt)) := by
  rw [stAt2_next V c t h]; unfold wbuf2; exact step2_fill_indep _ _ _ _ _ _ _

def bodyPre2 : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 : sProp 𝕄 :=
  iprop((dat2 V c).Φ t.succ ∗ (dat2 V c).owesAt () t.succ
    ∗ (dat2 V c).leaves 0 t
    ∗ (dat2 V c).leaves 1 t
    ∗ (dat2 V c).leaves 2 t
    ∗ (dat2 V c).leaves 3 t
    ∗ (dat2 V c).leaves 4 t)

set_option maxHeartbeats 4800000 in
-- The tile's place in its run of 40 says which run of the body applies; the runs differ in what the running columns start from and in the output.
theorem sound_body2 :
    bodyPre2 V c t ⊢ wp frame (wpE (defs₀ (F := Ideal)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, PhiS2_castSucc V c t]
  have hN : t.val < 80 := lt_of_lt_of_eq t.isLt (show cfg2.N = 80 from N_2)
  have hj : (grid2.coords t 1).val = t.val % 40 := coords2_tile t
  by_cases h0 : t.val % 40 = 0
  on_goal 2 => have hz : t.val ≠ 0 := fun e => h0 (by rw [e])
  on_goal 1 => by_cases hz : t.val = 0
  on_goal 3 => by_cases h39 : t.val % 40 = 39
  on_goal 1 => rw [PhiS2_zero V c _ _ hz, PhiA2_eq]
  on_goal 3 => rw [leaves2_4_last V c t h39]
  all_goals try rw [PhiS2_pos V c _ _ hz, PhiS2_succ]
  all_goals try rw [Dat.leaves_idle (dat2 V c) 4 t (idleAt2_4 t (by omega)) (noFlush2_4 t (by omega))]
  all_goals iintro ⟨HP, Ho, ⟨%d0, H0⟩, ⟨%d1, H1⟩, ⟨%d2, H2⟩, ⟨%d3, H3⟩, ⟨%d4, H4⟩⟩
  on_goal 1 => icases HP with ⟨⟨⟨HS0, HS1, HS2⟩, HR⟩, Hg⟩
  all_goals try icases HP with ⟨⟨HS0, HS1, HS2⟩, HR, Hg⟩
  iterate 2
    on_goal 1 =>
      rw [stAt2_first_fill V c t h0 d1]
      iapply (sound_kernel2_first c Set.univ (grid2.coords t) _ _ _ _ _ _ _ _ _ _ _ _ _ _ _ _
        (iblk2 V c 0 t) (win2_1.fill (grid2.coords t) d1 (iblk2 V c 1 t)) (iblk2 V c 2 t) (iblk2 V c 3 t)
      ((dat2 V c).before 4 t d4) _ (hj.trans h0))
    rotate_left
  all_goals try rw [stAt2_next_fill V c t h0 d1]
  on_goal 1 =>
    iapply (sound_kernel2_last c Set.univ (grid2.coords t) _ _ _ _ _ _ _ _ _ _ _ _ _ _ _ _
      (iblk2 V c 0 t) (win2_1.fill (grid2.coords t) d1 (iblk2 V c 1 t)) (iblk2 V c 2 t) (iblk2 V c 3 t)
      ((dat2 V c).before 4 t d4) _ (hj.trans h39) (stAt2 V c (t.val - 1) (Nat.lt_of_le_of_lt (Nat.sub_le _ _) t.isLt)))
  on_goal 2 =>
    iapply (sound_kernel2_mid c Set.univ (grid2.coords t) _ _ _ _ _ _ _ _ _ _ _ _ _ _ _ _
      (iblk2 V c 0 t) (win2_1.fill (grid2.coords t) d1 (iblk2 V c 1 t)) (iblk2 V c 2 t) (iblk2 V c 3 t)
      ((dat2 V c).before 4 t d4) _ (fun e => h0 (hj.symm.trans e)) (fun e => h39 (hj.symm.trans e)) (stAt2 V c (t.val - 1) (Nat.lt_of_le_of_lt (Nat.sub_le _ _) t.isLt)))
  all_goals
    isplitl [H0]; · iexact H0
    isplitl [H1]; · iexact H1
    isplitl [H2]; · iexact H2
    isplitl [H3]; · iexact H3
    isplitl [H4]; · iexact H4
    isplitl [HS0]; · first | iexact HS0 | (iexists _; iexact HS0)
    isplitl [HS1]; · first | iexact HS1 | (iexists _; iexact HS1)
    isplitl [HS2]; · first | iexact HS2 | (iexists _; iexact HS2)
    iintro ⟨H0, H1, H2, H3, H4, HS0, HS1, HS2⟩
    isplitl [HS0 HS1 HS2 HR Hg]
    · isplitl [HS0 HS1 HS2]
      · isplitl [HS0]; · iexact HS0
        isplitl [HS1]; · iexact HS1
        iexact HS2
      isplitl [HR]; · iexact HR
      iexact Hg
    isplitl [Ho]; · iexact Ho
    isplitl [H0]; · iexact H0
    isplitl [H1]; · iexists d1; iexact H1
    isplitl [H2]; · iexact H2
    isplitl [H3]; · iexact H3
    first | iexact H4 | (iexists d4; iexact H4)

theorem body_obligation2 : BodyObligationLoose (dat2 V c) (defs₀ (F := Ideal)) Variants.none () Set.univ := fun t => by
  rw [bigSep_W2, bigSep_W2]
  exact sound_body2 V c t

theorem hin2 : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 80 := N_2; omega), PhiS2_succ, PhiA2_eq]
  iintro ⟨⟨H0, H1, H2⟩, HR, Hg⟩
  isplitl [H0 H1 H2 HR]
  · isplitl [H0 H1 H2]
    · isplitl [H0]; · iexists _; iexact H0
      isplitl [H1]; · iexists _; iexact H1
      iexists _; iexact H2
    iexact HR
  iexact Hg

end Cert.KernelIdeal.Hand

end
-- ==== Proof.Ideal.Body3.lean ====
import proofs.«427659_j7121055776931_3_alg».proof.Proof.Gen.KernelIdeal.Launch
import proofs.«427659_j7121055776931_3_alg».proof.Proof.Ideal.State
import proofs.«427659_j7121055776931_3_alg».proof.Proof.Ideal.Whole
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (E : Set ℕ) (i : grid3.Coords)
  (arg2 : Memref sig .tc .vmem S2048x64 .bf16) (harg2 : arg2.IsWhole)
  (arg3 : Memref sig .tc .vmem S64x512 .bf16) (harg3 : arg3.IsWhole)
  (arg4 : Memref sig .tc .vmem S2048x1 .i32) (harg4 : arg4.IsWhole)
  (arg5 : Memref sig .tc .vmem S2048x1 .f32) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x1 .f32) (harg8 : arg8.IsWhole)
  (arg9 : Memref sig .tc .vmem S2048x1 .f32) (harg9 : arg9.IsWhole)
  (x : Vec Ideal S2048x64 .bf16) (w : Vec Ideal S64x512 .bf16) (lab : Vec Ideal S2048x1 .i32) (mask : Vec Ideal S2048x1 .f32)
  (o : Vec Ideal S2048x1 .f32) (K : PUnit → sProp 𝕄)

-- At a row block's first tile the running columns start from their seeds, whatever they held.
theorem sound_kernel3_first (hj : (i 1).val = 0) :
    iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o
            ∗ owns (c : Thread nD τ) arg7 fullShare (step3 i x w lab init3).1 ∗ owns (c : Thread nD τ) arg8 fullShare (step3 i x w lab init3).2.1 ∗ owns (c : Thread nD τ) arg9 fullShare (step3 i x w lab init3).2.2) -∗ K ⟨⟩))
      ⊢ wp frame (wpE (defs₀ (F := Ideal)) Variants.none c none) E (cc3__tail_ce_kernel i arg2 harg2 arg3 harg3 arg4 harg4 arg5 harg5 arg6 harg6 arg7 harg7 arg8 harg8 arg9 harg9) K := by
  have hlt : (i 1).val < 40 := (i 1).isLt
  have h1 := (cond1_iff _ hlt).2 hj
  have h2 : ¬ k3_cond2 i = 1#1 := mt (cond2_iff _ hlt).1 (by omega)
  simp only [cc3__tail_ce_kernel_eq_skeleton]; unfold cc3__tail_ce_kernel_skel owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2 hf3 hf4 hf5 hf6
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; delta sound_kernel3_first.sl.r_1 sound_kernel3_first.sl.v31 sound_kernel3_first.sl.H7_1; rw [read_writes_whole2]
    simp only [readAt_whole2, readCov_whole2]; rfl
  isplitl [H8]
  · iexists _; isplitr; swap; · iexact H8
    ipureintro; delta sound_kernel3_first.sl.r sound_kernel3_first.sl.r_1 sound_kernel3_first.sl.v31 sound_kernel3_first.sl.v39 sound_kernel3_first.sl.H7_1 sound_kernel3_first.sl.H8_1; rw [read_writes_whole2]
    simp only [readAt_whole2, readCov_whole2]; rfl
  iexists _; isplitr; swap; · iexact H9
  ipureintro; delta sound_kernel3_first.sl.v24 sound_kernel3_first.sl.H9_1; rw [read_writes_whole2]
  simp only [readAt_whole2, readCov_whole2]; rfl

-- At a tile in the middle the running columns take one step.
theorem sound_kernel3_mid (hj0 : (i 1).val ≠ 0) (hj39 : (i 1).val ≠ 39) (st : St3) :
    iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o ∗ owns (c : Thread nD τ) arg7 fullShare st.1 ∗ owns (c : Thread nD τ) arg8 fullShare st.2.1 ∗ owns (c : Thread nD τ) arg9 fullShare st.2.2
        ∗ (iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o
            ∗ owns (c : Thread nD τ) arg7 fullShare (step3 i x w lab st).1 ∗ owns (c : Thread nD τ) arg8 fullShare (step3 i x w lab st).2.1 ∗ owns (c : Thread nD τ) arg9 fullShare (step3 i x w lab st).2.2) -∗ K ⟨⟩))
      ⊢ wp frame (wpE (defs₀ (F := Ideal)) Variants.none c none) E (cc3__tail_ce_kernel i arg2 harg2 arg3 harg3 arg4 harg4 arg5 harg5 arg6 harg6 arg7 harg7 arg8 harg8 arg9 harg9) K := by
  obtain ⟨m, l, s⟩ := st
  have hlt : (i 1).val < 40 := (i 1).isLt
  have h1 := mt (cond1_iff _ hlt).1 hj0
  have h2 : ¬ k3_cond2 i = 1#1 := mt (cond2_iff _ hlt).1 hj39
  simp only [cc3__tail_ce_kernel_eq_skeleton]; unfold cc3__tail_ce_kernel_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; delta sound_kernel3_mid.sl.r_1; rw [read_writes_whole2]
    simp only [readAt_whole2, readCov_whole2]; rfl
  isplitl [H8]
  · iexists _; isplitr; swap; · iexact H8
    ipureintro; delta sound_kernel3_mid.sl.r sound_kernel3_mid.sl.r_1; rw [read_writes_whole2]
    simp only [readAt_whole2, readCov_whole2]; rfl
  iexists _; isplitr; swap; · iexact H9
  ipureintro; rw [read_writes_whole2]
  simp only [readAt_whole2, readCov_whole2]; rfl

-- At the last tile they take one step and the row block's losses are written out.
theorem sound_kernel3_last (hj : (i 1).val = 39) (st : St3) :
    iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare o ∗ owns (c : Thread nD τ) arg7 fullShare st.1 ∗ owns (c : Thread nD τ) arg8 fullShare st.2.1 ∗ owns (c : Thread nD τ) arg9 fullShare st.2.2
        ∗ (iprop(owns (c : Thread nD τ) arg2 fullShare x ∗ owns (c : Thread nD τ) arg3 fullShare w ∗ owns (c : Thread nD τ) arg4 fullShare lab ∗ owns (c : Thread nD τ) arg5 fullShare mask ∗ owns (c : Thread nD τ) arg6 fullShare (out3 (step3 i x w lab st) mask)
            ∗ owns (c : Thread nD τ) arg7 fullShare (step3 i x w lab st).1 ∗ owns (c : Thread nD τ) arg8 fullShare (step3 i x w lab st).2.1 ∗ owns (c : Thread nD τ) arg9 fullShare (step3 i x w lab st).2.2) -∗ K ⟨⟩))
      ⊢ wp frame (wpE (defs₀ (F := Ideal)) Variants.none c none) E (cc3__tail_ce_kernel i arg2 harg2 arg3 harg3 arg4 harg4 arg5 harg5 arg6 harg6 arg7 harg7 arg8 harg8 arg9 harg9) K := by
  obtain ⟨m, l, s⟩ := st
  have hlt : (i 1).val < 40 := (i 1).isLt
  have h1 := mt (cond1_iff _ hlt).1 (by omega)
  have h2 : k3_cond2 i = 1#1 := (cond2_iff _ hlt).2 hj
  simp only [cc3__tail_ce_kernel_eq_skeleton]; unfold cc3__tail_ce_kernel_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2 hf3 hf4 hf5 hf6 hf7 hf8 hf9
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; rw [read_writes_whole2]; delta sound_kernel3_last.sl.v53 sound_kernel3_last.sl.v54 sound_kernel3_last.sl.v57 sound_kernel3_last.sl.H7_1 sound_kernel3_last.sl.H8_1 sound_kernel3_last.sl.H9_1 sound_kernel3_last.sl.r sound_kernel3_last.sl.r_1
    simp only [readAt_whole2, readCov_whole2]; rfl
  isplitl [H7]
  · iexists _; isplitr; swap; · iexact H7
    ipureintro; delta sound_kernel3_last.sl.H7_1 sound_kernel3_last.sl.r_1; rw [read_writes_whole2]
    simp only [readAt_whole2, readCov_whole2]; rfl
  isplitl [H8]
  · iexists _; isplitr; swap; · iexact H8
    ipureintro; delta sound_kernel3_last.sl.H8_1 sound_kernel3_last.sl.r sound_kernel3_last.sl.r_1; rw [read_writes_whole2]
    simp only [readAt_whole2, readCov_whole2]; rfl
  iexists _; isplitr; swap; · iexact H9
  ipureintro; delta sound_kernel3_last.sl.H9_1; rw [read_writes_whole2]
  simp only [readAt_whole2, readCov_whole2]; rfl

end Cert.KernelIdeal.Hand

end
-- ==== Proof.Ideal.Tile3.lean ====
import proofs.«427659_j7121055776931_3_alg».proof.Proof.Ideal.Tile4

noncomputable section

namespace Cert.KernelIdeal.Hand

open Cert.KernelIdeal Cert.KernelIdeal.Gen Idealize.ShloMosaic Idealize.ShloMosaic.ValueIdx

theorem moved3 (i : grid3.Coords) (h : Fin 64) (k : Fin 512) (hk : (i 1).val * 512 + k.val < 20000) :
    ∀ a, ((ix2 h k : win3_1.block.Idx) a).val < win3_1.xsize i a := fun a =>
  match a with
  | ⟨0, _⟩ => lt_extent_of_ok (ix := 0) (k := 64) (d := 64) (win3_1.hclip i 0) h.isLt (by
      rw [Nat.zero_mul, Nat.zero_add]; exact h.isLt)
  | ⟨1, _⟩ => lt_extent_of_ok (ix := (BitVec.ofNat 32 (i 1).val).toNat) (k := 512) (d := 20000) (win3_1.hclip i 1) k.isLt (by
      rw [BitVec.toNat_ofNat, Nat.mod_eq_of_lt (lt_trans (i 1).isLt (by decide))]; exact hk)

theorem step3_fill_indep (i : grid3.Coords) (x : Vec Ideal S2048x64 .bf16) (d d' : win3_1.block.Idx → Elt Ideal .bf16)
    (blk : (win3_1.xblock i).Idx → Elt Ideal .bf16) (lab : Vec Ideal S2048x1 .i32) (st : St3) :
    step3 i x (win3_1.fill i d blk) lab st = step3 i x (win3_1.fill i d' blk) lab st :=
  logits_congr (V := 20000) 20000#32 rfl (by decide) i x (win3_1.fill i d blk) (win3_1.fill i d' blk) lab st
    fun h k hk => fill_indep_at win3_1 i d d' blk (ix2 h k) (moved3 i h k hk)

theorem init3_row (r : Fin 2048) :
    Cert.Spec.St.mk (init3.1 (ix2 r (0 : Fin 1))) (init3.2.1 (ix2 r (0 : Fin 1))) (init3.2.2 (ix2 r (0 : Fin 1))) = Cert.Spec.St.init :=
  init4_row r

theorem step3_row (i : grid3.Coords) (x : Vec Ideal S2048x64 .bf16) (w : Vec Ideal S64x512 .bf16) (lab : Vec Ideal S2048x1 .i32)
    (st : St3) (r : Fin 2048) (s : Fin 20000 → EReal)
    (hs : ∀ (k : Fin 512) (hk : (i 1).val * 512 + k.val < 20000),
      ∑ h : Fin 64, x (ix2 r h) * w (ix2 h k) = s ⟨(i 1).val * 512 + k.val, hk⟩) :
    Cert.Spec.St.mk ((step3 i x w lab st).1 (ix2 r (0 : Fin 1))) ((step3 i x w lab st).2.1 (ix2 r (0 : Fin 1)))
        ((step3 i x w lab st).2.2 (ix2 r (0 : Fin 1)))
      = Cert.Spec.St.step 512 s (lab (ix2 r (0 : Fin 1))).toNat (i 1).val
          (Cert.Spec.St.mk (st.1 (ix2 r (0 : Fin 1))) (st.2.1 (ix2 r (0 : Fin 1))) (st.2.2 (ix2 r (0 : Fin 1)))) :=
  logits_row (V := 20000) 20000#32 rfl (by decide) i x w lab st r s hs

theorem out3_row (st : St3) (mask : Vec Ideal S2048x1 .f32) (r : Fin 2048) :
    out3 st mask (ix2 r (0 : Fin 1))
      = if (0 : EReal) < mask (ix2 r (0 : Fin 1)) then (st.1 (ix2 r (0 : Fin 1)) + Ideal.log (st.2.1 (ix2 r (0 : Fin 1)))) - st.2.2 (ix2 r (0 : Fin 1)) else 0 :=
  outMask_row st.1 st.2.1 st.2.2 mask r

end Cert.KernelIdeal.Hand

end
-- ==== Proof.Ideal.Dat3.lean ====
import proofs.«427659_j7121055776931_3_alg».proof.Proof.Ideal.Data3
import proofs.«427659_j7121055776931_3_alg».proof.Proof.Ideal.Body3
import proofs.«427659_j7121055776931_3_alg».proof.Proof.Ideal.Tile3
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b)) (c : Dev nD) (t : Fin cfg3.N)

theorem A_eq3 (w : Fin cfg3.W) : (dat3 V c).A w = V c (Pipeline.arrRef spec3 w) := by
  dsimp only [dat3]
theorem q_eq3 (w : Fin cfg3.W) : (dat3 V c).q w = fullShare := rfl
theorem owed_eq3 (t : Fin (cfg3.N + 1)) : (dat3 V c).owed t = 0 := rfl

theorem coords3_tile : ∀ t : Fin cfg3.N, (grid3.coords t 1).val = t.val % 40 :=
  (by decide +kernel : ∀ t : Fin grid3.N, (grid3.coords t 1).val = t.val % 40)

theorem idleAt3_4 : ∀ t : Fin cfg3.N, t.val % 40 ≠ 39 → cfg3.idle 4 (grid3.coords t) = true :=
  (by decide +kernel : ∀ t : Fin grid3.N, t.val % 40 ≠ 39 → idle3 4 (grid3.coords t) = true)
theorem liveAt3_4 : ∀ t : Fin cfg3.N, t.val % 40 = 39 → cfg3.idle 4 (grid3.coords t) = false :=
  (by decide +kernel : ∀ t : Fin grid3.N, t.val % 40 = 39 → idle3 4 (grid3.coords t) = false)
theorem noFlush3_4 (t : Fin cfg3.N) (h : t.val % 40 ≠ 39) : (cfg3.win 4).flush t = false :=
  Bool.eq_false_iff.mpr fun hf => h ((flush3_4 t).mp hf)

theorem stAt3_first (h : t.val % 40 = 0) :
    stAt3 V c t.val t.isLt
      = step3 (grid3.coords t) (iblk3 V c 0 t) (wbuf3 V c t) (iblk3 V c 2 t) init3 := by
  obtain ⟨n, hn⟩ := t
  cases n with
  | zero => rfl
  | succ n => exact (congrArg (step3 _ _ _ _) (if_pos h))

theorem stAt3_next (h : t.val % 40 ≠ 0) :
    stAt3 V c t.val t.isLt
      = step3 (grid3.coords t) (iblk3 V c 0 t) (wbuf3 V c t) (iblk3 V c 2 t)
          (stAt3 V c (t.val - 1) (Nat.lt_of_le_of_lt (Nat.sub_le _ _) t.isLt)) := by
  obtain ⟨n, hn⟩ := t
  cases n with
  | zero => exact absurd (Nat.zero_mod _) h
  | succ n => exact (congrArg (step3 _ _ _ _) (if_neg h))

theorem PhiS3_zero (n : ℕ) (h : n ≤ cfg3.N) (hz : n = 0) : PhiS3 V c n h = Pipeline.ΦA spec3 c := by
  subst hz; rfl

theorem PhiS3_succ (n : ℕ) (hn : n < cfg3.N) :
    PhiS3 V c (n + 1) hn = iprop(iprop(owns (c : Thread nD τ) scM3_0 fullShare (stAt3 V c n hn).1
        ∗ owns (c : Thread nD τ) scM3_1 fullShare (stAt3 V c n hn).2.1
        ∗ owns (c : Thread nD τ) scM3_2 fullShare (stAt3 V c n hn).2.2)
      ∗ Pipeline.scopedRestBut (Ix := Unit) (Name := ℕ) (U := UR sig nD τ) (Lvl := ℕ) (Val := Elt Ideal) spec3 c [cc3_scratch0, cc3_scratch1, cc3_scratch2]
      ∗ (∃ r, prngReg c r)) := rfl

theorem PhiS3_pos (n : ℕ) (h : n ≤ cfg3.N) (hz : n ≠ 0) : PhiS3 V c n h = PhiS3 V c (n - 1 + 1) (show n - 1 < cfg3.N by omega) := by
  cases n with
  | zero => exact absurd rfl hz
  | succ n => rfl

theorem PhiS3_castSucc :
    (dat3 V c).Φ t.castSucc = PhiS3 V c t.val (Nat.le_of_lt t.isLt) := by
  dsimp only [dat3]; simp only [Fin.coe_castSucc]

theorem PhiA3_eq :
    (Pipeline.ΦA spec3 c : sProp 𝕄)
      = iprop(iprop(iprop((∃ d, owns (c : Thread nD τ) scM3_0 fullShare d) ∗ (∃ d, owns (c : Thread nD τ) scM3_1 fullShare d)
            ∗ (∃ d, owns (c : Thread nD τ) scM3_2 fullShare d))
          ∗ Pipeline.scopedRestBut (Ix := Unit) (Name := ℕ) (U := UR sig nD τ) (Lvl := ℕ) (Val := Elt Ideal) spec3 c [cc3_scratch0, cc3_scratch1, cc3_scratch2])
        ∗ (∃ r, prngReg c r)) := by
  unfold Pipeline.ΦA; rw [scopedRest3_split]; simp only [scM3_0, scM3_1, scM3_2, owns_whole]; try rfl

theorem after3_0 : (dat3 V c).after 0 t = iblk3 V c 0 t := by dsimp only [dat3]
theorem after3_1 : (dat3 V c).after 1 t = wbuf3 V c t := by dsimp only [dat3]
theorem after3_2 : (dat3 V c).after 2 t = iblk3 V c 2 t := by dsimp only [dat3]
theorem after3_3 : (dat3 V c).after 3 t = iblk3 V c 3 t := by dsimp only [dat3]
theorem after3_4 :
    (dat3 V c).after 4 t = out3 (stAt3 V c t.val t.isLt) (iblk3 V c 3 t) := by dsimp only [dat3]

theorem before3_0 (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_2 (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

theorem before3_1 (d) :
    (dat3 V c).before 1 t d = win3_1.fill (grid3.coords t) d (iblk3 V c 1 t) := by
  unfold Dat.before; rw [if_pos (fetch3_1 t)]
  unfold Dat.fetched Dat.blockOf iblk3; rw [A_eq3]; try rfl

theorem leaves3_1 :
    (dat3 V c).leaves 1 t
      = iprop(∃ d, owns (c : Thread nD τ) (st3_1 t) fullShare (win3_1.fill (grid3.coords t) d (iblk3 V c 1 t))) := by
  unfold Dat.leaves; simp only []
  rw [after3_1]; unfold wbuf3; rw [Window.cut_fill]

theorem leaves3_0 :
    (dat3 V c).leaves 0 t = owns (c : Thread nD τ) (st3_0 t) fullShare (iblk3 V c 0 t) := by
  unfold Dat.leaves; simp only []
  rw [after3_0]

theorem leaves3_2 :
    (dat3 V c).leaves 2 t = owns (c : Thread nD τ) (st3_2 t) fullShare (iblk3 V c 2 t) := by
  unfold Dat.leaves; simp only []
  rw [after3_2]

theorem leaves3_3 :
    (dat3 V c).leaves 3 t = owns (c : Thread nD τ) (st3_3 t) fullShare (iblk3 V c 3 t) := by
  unfold Dat.leaves; simp only []
  rw [after3_3]

theorem leaves3_4_last (h : t.val % 40 = 39) :
    (dat3 V c).leaves 4 t
      = owns (c : Thread nD τ) (st3_4 t) fullShare (out3 (stAt3 V c t.val t.isLt) (iblk3 V c 3 t)) := by
  unfold Dat.leaves; rw [liveAt3_4 t h]; simp only []
  rw [after3_4]

theorem stAt3_first_fill (h : t.val % 40 = 0) (d) :
    stAt3 V c t.val t.isLt
      = step3 (grid3.coords t) (iblk3 V c 0 t) (win3_1.fill (grid3.coords t) d (iblk3 V c 1 t)) (iblk3 V c 2 t) init3 := by
  rw [stAt3_first V c t h]; unfold wbuf3; exact step3_fill_indep _ _ _ _ _ _ _

theorem stAt3_next_fill (h : t.val % 40 ≠ 0) (d) :
    stAt3 V c t.val t.isLt
      = step3 (grid3.coords t) (iblk3 V c 0 t) (win3_1.fill (grid3.coords t) d (iblk3 V c 1 t)) (iblk3 V c 2 t)
          (stAt3 V c (t.val - 1) (Nat.lt_of_le_of_lt (Nat.sub_le _ _) t.isLt)) := by
  rw [stAt3_next V c t h]; unfold wbuf3; exact step3_fill_indep _ _ _ _ _ _ _

def bodyPre3 : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 : sProp 𝕄 :=
  iprop((dat3 V c).Φ t.succ ∗ (dat3 V c).owesAt () t.succ
    ∗ (dat3 V c).leaves 0 t
    ∗ (dat3 V c).leaves 1 t
    ∗ (dat3 V c).leaves 2 t
    ∗ (dat3 V c).leaves 3 t
    ∗ (dat3 V c).leaves 4 t)

set_option maxHeartbeats 4800000 in
-- The tile's place in its run of 40 says which run of the body applies; the runs differ in what the running columns start from and in the output.
theorem sound_body3 :
    bodyPre3 V c t ⊢ wp frame (wpE (defs₀ (F := Ideal)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, PhiS3_castSucc V c t]
  have hN : t.val < 80 := lt_of_lt_of_eq t.isLt (show cfg3.N = 80 from N_3)
  have hj : (grid3.coords t 1).val = t.val % 40 := coords3_tile t
  by_cases h0 : t.val % 40 = 0
  on_goal 2 => have hz : t.val ≠ 0 := fun e => h0 (by rw [e])
  on_goal 1 => by_cases hz : t.val = 0
  on_goal 3 => by_cases h39 : t.val % 40 = 39
  on_goal 1 => rw [PhiS3_zero V c _ _ hz, PhiA3_eq]
  on_goal 3 => rw [leaves3_4_last V c t h39]
  all_goals try rw [PhiS3_pos V c _ _ hz, PhiS3_succ]
  all_goals try rw [Dat.leaves_idle (dat3 V c) 4 t (idleAt3_4 t (by omega)) (noFlush3_4 t (by omega))]
  all_goals iintro ⟨HP, Ho, ⟨%d0, H0⟩, ⟨%d1, H1⟩, ⟨%d2, H2⟩, ⟨%d3, H3⟩, ⟨%d4, H4⟩⟩
  on_goal 1 => icases HP with ⟨⟨⟨HS0, HS1, HS2⟩, HR⟩, Hg⟩
  all_goals try icases HP with ⟨⟨HS0, HS1, HS2⟩, HR, Hg⟩
  iterate 2
    on_goal 1 =>
      rw [stAt3_first_fill V c t h0 d1]
      iapply (sound_kernel3_first c Set.univ (grid3.coords t) _ _ _ _ _ _ _ _ _ _ _ _ _ _ _ _
        (iblk3 V c 0 t) (win3_1.fill (grid3.coords t) d1 (iblk3 V c 1 t)) (iblk3 V c 2 t) (iblk3 V c 3 t)
      ((dat3 V c).before 4 t d4) _ (hj.trans h0))
    rotate_left
  all_goals try rw [stAt3_next_fill V c t h0 d1]
  on_goal 1 =>
    iapply (sound_kernel3_last c Set.univ (grid3.coords t) _ _ _ _ _ _ _ _ _ _ _ _ _ _ _ _
      (iblk3 V c 0 t) (win3_1.fill (grid3.coords t) d1 (iblk3 V c 1 t)) (iblk3 V c 2 t) (iblk3 V c 3 t)
      ((dat3 V c).before 4 t d4) _ (hj.trans h39) (stAt3 V c (t.val - 1) (Nat.lt_of_le_of_lt (Nat.sub_le _ _) t.isLt)))
  on_goal 2 =>
    iapply (sound_kernel3_mid c Set.univ (grid3.coords t) _ _ _ _ _ _ _ _ _ _ _ _ _ _ _ _
      (iblk3 V c 0 t) (win3_1.fill (grid3.coords t) d1 (iblk3 V c 1 t)) (iblk3 V c 2 t) (iblk3 V c 3 t)
      ((dat3 V c).before 4 t d4) _ (fun e => h0 (hj.symm.trans e)) (fun e => h39 (hj.symm.trans e)) (stAt3 V c (t.val - 1) (Nat.lt_of_le_of_lt (Nat.sub_le _ _) t.isLt)))
  all_goals
    isplitl [H0]; · iexact H0
    isplitl [H1]; · iexact H1
    isplitl [H2]; · iexact H2
    isplitl [H3]; · iexact H3
    isplitl [H4]; · iexact H4
    isplitl [HS0]; · first | iexact HS0 | (iexists _; iexact HS0)
    isplitl [HS1]; · first | iexact HS1 | (iexists _; iexact HS1)
    isplitl [HS2]; · first | iexact HS2 | (iexists _; iexact HS2)
    iintro ⟨H0, H1, H2, H3, H4, HS0, HS1, HS2⟩
    isplitl [HS0 HS1 HS2 HR Hg]
    · isplitl [HS0 HS1 HS2]
      · isplitl [HS0]; · iexact HS0
        isplitl [HS1]; · iexact HS1
        iexact HS2
      isplitl [HR]; · iexact HR
      iexact Hg
    isplitl [Ho]; · iexact Ho
    isplitl [H0]; · iexact H0
    isplitl [H1]; · iexists d1; iexact H1
    isplitl [H2]; · iexact H2
    isplitl [H3]; · iexact H3
    first | iexact H4 | (iexists d4; iexact H4)

theorem body_obligation3 : BodyObligationLoose (dat3 V c) (defs₀ (F := Ideal)) Variants.none () Set.univ := fun t => by
  rw [bigSep_W3, bigSep_W3]
  exact sound_body3 V c t

theorem hin3 : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 80 := N_3; omega), PhiS3_succ, PhiA3_eq]
  iintro ⟨⟨H0, H1, H2⟩, HR, Hg⟩
  isplitl [H0 H1 H2 HR]
  · isplitl [H0 H1 H2]
    · isplitl [H0]; · iexists _; iexact H0
      isplitl [H1]; · iexists _; iexact H1
      iexists _; iexact H2
    iexact HR
  iexact Hg

end Cert.KernelIdeal.Hand

end
-- ==== Proof.Ideal.Body4.lean ====
import proofs.«427659_j7121055776931_3_alg».proof.Proof.Gen.KernelIdeal.Launch
import proofs.«427659_j7121055776931_3_alg».proof.Proof.Ideal.State
import proofs.«427659_j7121055776931_3_alg».proof.Proof.Ideal.Whole
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (E : Set ℕ) (i : grid4.Coords)
  (arg2 : Memref sig .tc .vmem S2048x1024 .bf16) (harg2 : arg2.IsWhole)
  (arg3 : Memref sig .tc .vmem S1024x512 .bf16) (harg3 : arg3.IsWhole)
  (arg4 : Memref sig .tc .vmem S2048x1 .i32) (harg4 : arg4.IsWhole)
  (arg5 : Memref sig .tc .vmem S2048x1 .f32) (harg5 : arg5.IsWhole)
  (arg6 : Memref sig .tc .vmem S2048x1 .f32) (harg6 : arg6.IsWhole)
  (arg7 : Memref sig .tc .vmem S2048x1 .f32) (harg7 : arg7.IsWhole)
  (arg8 : Memref sig .tc .vmem S2048x1 .f32) (harg8 : arg8.IsWhole)
  (x : Vec Ideal S2048x1024 .bf16) (w : Vec Ideal S1024x512 .bf16) (lab : Vec Ideal S2048x1 .i32)
  (o : Vec Ideal S2048x1 .f32) (K : PUnit → sProp 𝕄)

-- At a row block's first tile the running columns start from their seeds, whatever they held.
theorem sound_kernel4_first (hj : (i 1).val = 0) :
    iprop(owns (c : Thread nD τ) arg2 fullShare x ∗ owns (c : Thread nD τ) arg3 fullShare w ∗ owns (c : Thread nD τ) arg4 fullShare lab ∗ owns (c : Thread nD τ) arg5 fullShare o ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare w ∗ owns (c : Thread nD τ) arg4 fullShare lab ∗ owns (c : Thread nD τ) arg5 fullShare o
            ∗ owns (c : Thread nD τ) arg6 fullShare (step4 i x w lab init4).1 ∗ owns (c : Thread nD τ) arg7 fullShare (step4 i x w lab init4).2.1 ∗ owns (c : Thread nD τ) arg8 fullShare (step4 i x w lab init4).2.2) -∗ K ⟨⟩))
      ⊢ wp frame (wpE (defs₀ (F := Ideal)) Variants.none c none) E (cc4__head_ce_kernel i arg2 harg2 arg3 harg3 arg4 harg4 arg5 harg5 arg6 harg6 arg7 harg7 arg8 harg8) K := by
  have hlt : (i 1).val < 40 := (i 1).isLt
  have h1 := (cond1_iff _ hlt).2 hj
  have h2 : ¬ k4_cond2 i = 1#1 := mt (cond2_iff _ hlt).1 (by omega)
  simp only [cc4__head_ce_kernel_eq_skeleton]; unfold cc4__head_ce_kernel_skel owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; delta sound_kernel4_first.sl.r_1 sound_kernel4_first.sl.v31 sound_kernel4_first.sl.H6_1; rw [read_writes_whole2]
    simp only [readAt_whole2, readCov_whole2]; rfl
  isplitl [H7]
  · iexists _; isplitr; swap; · iexact H7
    ipureintro; delta sound_kernel4_first.sl.r sound_kernel4_first.sl.r_1 sound_kernel4_first.sl.v31 sound_kernel4_first.sl.v39 sound_kernel4_first.sl.H6_1 sound_kernel4_first.sl.H7_1; rw [read_writes_whole2]
    simp only [readAt_whole2, readCov_whole2]; rfl
  iexists _; isplitr; swap; · iexact H8
  ipureintro; delta sound_kernel4_first.sl.v24 sound_kernel4_first.sl.H8_1; rw [read_writes_whole2]
  simp only [readAt_whole2, readCov_whole2]; rfl

-- At a tile in the middle the running columns take one step.
theorem sound_kernel4_mid (hj0 : (i 1).val ≠ 0) (hj39 : (i 1).val ≠ 39) (st : St4) :
    iprop(owns (c : Thread nD τ) arg2 fullShare x ∗ owns (c : Thread nD τ) arg3 fullShare w ∗ owns (c : Thread nD τ) arg4 fullShare lab ∗ owns (c : Thread nD τ) arg5 fullShare o ∗ owns (c : Thread nD τ) arg6 fullShare st.1 ∗ owns (c : Thread nD τ) arg7 fullShare st.2.1 ∗ owns (c : Thread nD τ) arg8 fullShare st.2.2
        ∗ (iprop(owns (c : Thread nD τ) arg2 fullShare x ∗ owns (c : Thread nD τ) arg3 fullShare w ∗ owns (c : Thread nD τ) arg4 fullShare lab ∗ owns (c : Thread nD τ) arg5 fullShare o
            ∗ owns (c : Thread nD τ) arg6 fullShare (step4 i x w lab st).1 ∗ owns (c : Thread nD τ) arg7 fullShare (step4 i x w lab st).2.1 ∗ owns (c : Thread nD τ) arg8 fullShare (step4 i x w lab st).2.2) -∗ K ⟨⟩))
      ⊢ wp frame (wpE (defs₀ (F := Ideal)) Variants.none c none) E (cc4__head_ce_kernel i arg2 harg2 arg3 harg3 arg4 harg4 arg5 harg5 arg6 harg6 arg7 harg7 arg8 harg8) K := by
  obtain ⟨m, l, s⟩ := st
  have hlt : (i 1).val < 40 := (i 1).isLt
  have h1 := mt (cond1_iff _ hlt).1 hj0
  have h2 : ¬ k4_cond2 i = 1#1 := mt (cond2_iff _ hlt).1 hj39
  simp only [cc4__head_ce_kernel_eq_skeleton]; unfold cc4__head_ce_kernel_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro; delta sound_kernel4_mid.sl.r_1; rw [read_writes_whole2]
    simp only [readAt_whole2, readCov_whole2]; rfl
  isplitl [H7]
  · iexists _; isplitr; swap; · iexact H7
    ipureintro; delta sound_kernel4_mid.sl.r sound_kernel4_mid.sl.r_1; rw [read_writes_whole2]
    simp only [readAt_whole2, readCov_whole2]; rfl
  iexists _; isplitr; swap; · iexact H8
  ipureintro; rw [read_writes_whole2]
  simp only [readAt_whole2, readCov_whole2]; rfl

-- At the last tile they take one step and the row block's losses are written out.
theorem sound_kernel4_last (hj : (i 1).val = 39) (st : St4) :
    iprop(owns (c : Thread nD τ) arg2 fullShare x ∗ owns (c : Thread nD τ) arg3 fullShare w ∗ owns (c : Thread nD τ) arg4 fullShare lab ∗ owns (c : Thread nD τ) arg5 fullShare o ∗ owns (c : Thread nD τ) arg6 fullShare st.1 ∗ owns (c : Thread nD τ) arg7 fullShare st.2.1 ∗ owns (c : Thread nD τ) arg8 fullShare st.2.2
        ∗ (iprop(owns (c : Thread nD τ) arg2 fullShare x ∗ owns (c : Thread nD τ) arg3 fullShare w ∗ owns (c : Thread nD τ) arg4 fullShare lab ∗ owns (c : Thread nD τ) arg5 fullShare (out4 (step4 i x w lab st))
            ∗ owns (c : Thread nD τ) arg6 fullShare (step4 i x w lab st).1 ∗ owns (c : Thread nD τ) arg7 fullShare (step4 i x w lab st).2.1 ∗ owns (c : Thread nD τ) arg8 fullShare (step4 i x w lab st).2.2) -∗ K ⟨⟩))
      ⊢ wp frame (wpE (defs₀ (F := Ideal)) Variants.none c none) E (cc4__head_ce_kernel i arg2 harg2 arg3 harg3 arg4 harg4 arg5 harg5 arg6 harg6 arg7 harg7 arg8 harg8) K := by
  obtain ⟨m, l, s⟩ := st
  have hlt : (i 1).val < 40 := (i 1).isLt
  have h1 := mt (cond1_iff _ hlt).1 (by omega)
  have h2 : k4_cond2 i = 1#1 := (cond2_iff _ hlt).2 hj
  simp only [cc4__head_ce_kernel_eq_skeleton]; unfold cc4__head_ce_kernel_skel owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr; swap; · iexact H5
    ipureintro; rw [read_writes_whole2]; delta sound_kernel4_last.sl.v53 sound_kernel4_last.sl.v54 sound_kernel4_last.sl.v57 sound_kernel4_last.sl.H6_1 sound_kernel4_last.sl.H7_1 sound_kernel4_last.sl.H8_1 sound_kernel4_last.sl.r sound_kernel4_last.sl.r_1
    simp only [readAt_whole2, readCov_whole2]; rfl
  isplitl [H6]
  · iexists _; isplitr; swap; · iexact H6
    ipureintro; delta sound_kernel4_last.sl.H6_1 sound_kernel4_last.sl.r_1; rw [read_writes_whole2]
    simp only [readAt_whole2, readCov_whole2]; rfl
  isplitl [H7]
  · iexists _; isplitr; swap; · iexact H7
    ipureintro; delta sound_kernel4_last.sl.H7_1 sound_kernel4_last.sl.r sound_kernel4_last.sl.r_1; rw [read_writes_whole2]
    simp only [readAt_whole2, readCov_whole2]; rfl
  iexists _; isplitr; swap; · iexact H8
  ipureintro; delta sound_kernel4_last.sl.H8_1; rw [read_writes_whole2]
  simp only [readAt_whole2, readCov_whole2]; rfl

end Cert.KernelIdeal.Hand

end
-- ==== Proof.Ideal.Dat4.lean ====
import proofs.«427659_j7121055776931_3_alg».proof.Proof.Ideal.Data4
import proofs.«427659_j7121055776931_3_alg».proof.Proof.Ideal.Body4
import proofs.«427659_j7121055776931_3_alg».proof.Proof.Ideal.Tile4
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b)) (c : Dev nD) (t : Fin cfg4.N)

theorem A_eq4 (w : Fin cfg4.W) : (dat4 V c).A w = V c (Pipeline.arrRef spec4 w) := by
  dsimp only [dat4]
theorem q_eq4 (w : Fin cfg4.W) : (dat4 V c).q w = fullShare := rfl
theorem owed_eq4 (t : Fin (cfg4.N + 1)) : (dat4 V c).owed t = 0 := rfl

theorem coords4_tile : ∀ t : Fin cfg4.N, (grid4.coords t 1).val = t.val % 40 :=
  (by decide +kernel : ∀ t : Fin grid4.N, (grid4.coords t 1).val = t.val % 40)

theorem idleAt4_3 : ∀ t : Fin cfg4.N, t.val % 40 ≠ 39 → cfg4.idle 3 (grid4.coords t) = true :=
  (by decide +kernel : ∀ t : Fin grid4.N, t.val % 40 ≠ 39 → idle4 3 (grid4.coords t) = true)
theorem liveAt4_3 : ∀ t : Fin cfg4.N, t.val % 40 = 39 → cfg4.idle 3 (grid4.coords t) = false :=
  (by decide +kernel : ∀ t : Fin grid4.N, t.val % 40 = 39 → idle4 3 (grid4.coords t) = false)
theorem noFlush4_3 (t : Fin cfg4.N) (h : t.val % 40 ≠ 39) : (cfg4.win 3).flush t = false :=
  Bool.eq_false_iff.mpr fun hf => h ((flush4_3 t).mp hf)

theorem stAt4_first (h : t.val % 40 = 0) :
    stAt4 V c t.val t.isLt
      = step4 (grid4.coords t) (iblk4 V c 0 t) (wbuf4 V c t) (iblk4 V c 2 t) init4 := by
  obtain ⟨n, hn⟩ := t
  cases n with
  | zero => rfl
  | succ n => exact (congrArg (step4 _ _ _ _) (if_pos h))

theorem stAt4_next (h : t.val % 40 ≠ 0) :
    stAt4 V c t.val t.isLt
      = step4 (grid4.coords t) (iblk4 V c 0 t) (wbuf4 V c t) (iblk4 V c 2 t)
          (stAt4 V c (t.val - 1) (Nat.lt_of_le_of_lt (Nat.sub_le _ _) t.isLt)) := by
  obtain ⟨n, hn⟩ := t
  cases n with
  | zero => exact absurd (Nat.zero_mod _) h
  | succ n => exact (congrArg (step4 _ _ _ _) (if_neg h))

theorem PhiS4_zero (n : ℕ) (h : n ≤ cfg4.N) (hz : n = 0) : PhiS4 V c n h = Pipeline.ΦA spec4 c := by
  subst hz; rfl

theorem PhiS4_succ (n : ℕ) (hn : n < cfg4.N) :
    PhiS4 V c (n + 1) hn = iprop(iprop(owns (c : Thread nD τ) scM4_0 fullShare (stAt4 V c n hn).1
        ∗ owns (c : Thread nD τ) scM4_1 fullShare (stAt4 V c n hn).2.1
        ∗ owns (c : Thread nD τ) scM4_2 fullShare (stAt4 V c n hn).2.2)
      ∗ Pipeline.scopedRestBut (Ix := Unit) (Name := ℕ) (U := UR sig nD τ) (Lvl := ℕ) (Val := Elt Ideal) spec4 c [cc4_scratch0, cc4_scratch1, cc4_scratch2]
      ∗ (∃ r, prngReg c r)) := rfl

theorem PhiS4_pos (n : ℕ) (h : n ≤ cfg4.N) (hz : n ≠ 0) : PhiS4 V c n h = PhiS4 V c (n - 1 + 1) (show n - 1 < cfg4.N by omega) := by
  cases n with
  | zero => exact absurd rfl hz
  | succ n => rfl

theorem PhiS4_castSucc :
    (dat4 V c).Φ t.castSucc = PhiS4 V c t.val (Nat.le_of_lt t.isLt) := by
  dsimp only [dat4]; simp only [Fin.coe_castSucc]

theorem PhiA4_eq :
    (Pipeline.ΦA spec4 c : sProp 𝕄)
      = iprop(iprop(iprop((∃ d, owns (c : Thread nD τ) scM4_0 fullShare d) ∗ (∃ d, owns (c : Thread nD τ) scM4_1 fullShare d)
            ∗ (∃ d, owns (c : Thread nD τ) scM4_2 fullShare d))
          ∗ Pipeline.scopedRestBut (Ix := Unit) (Name := ℕ) (U := UR sig nD τ) (Lvl := ℕ) (Val := Elt Ideal) spec4 c [cc4_scratch0, cc4_scratch1, cc4_scratch2])
        ∗ (∃ r, prngReg c r)) := by
  unfold Pipeline.ΦA; rw [scopedRest4_split]; simp only [scM4_0, scM4_1, scM4_2, owns_whole]; try rfl

theorem after4_0 : (dat4 V c).after 0 t = iblk4 V c 0 t := by dsimp only [dat4]
theorem after4_1 : (dat4 V c).after 1 t = wbuf4 V c t := by dsimp only [dat4]
theorem after4_2 : (dat4 V c).after 2 t = iblk4 V c 2 t := by dsimp only [dat4]
theorem after4_3 : (dat4 V c).after 3 t = out4 (stAt4 V c t.val t.isLt) := by dsimp only [dat4]

theorem before4_0 (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

theorem before4_2 (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

theorem before4_1 (d) :
    (dat4 V c).before 1 t d = win4_1.fill (grid4.coords t) d (iblk4 V c 1 t) := by
  unfold Dat.before; rw [if_pos (fetch4_1 t)]
  unfold Dat.fetched Dat.blockOf iblk4; rw [A_eq4]; try rfl

theorem leaves4_1 :
    (dat4 V c).leaves 1 t
      = iprop(∃ d, owns (c : Thread nD τ) (st4_1 t) fullShare (win4_1.fill (grid4.coords t) d (iblk4 V c 1 t))) := by
  unfold Dat.leaves; simp only []
  rw [after4_1]; unfold wbuf4; rw [Window.cut_fill]

theorem leaves4_0 :
    (dat4 V c).leaves 0 t = owns (c : Thread nD τ) (st4_0 t) fullShare (iblk4 V c 0 t) := by
  unfold Dat.leaves; simp only []
  rw [after4_0]

theorem leaves4_2 :
    (dat4 V c).leaves 2 t = owns (c : Thread nD τ) (st4_2 t) fullShare (iblk4 V c 2 t) := by
  unfold Dat.leaves; simp only []
  rw [after4_2]

theorem leaves4_3_last (h : t.val % 40 = 39) :
    (dat4 V c).leaves 3 t = owns (c : Thread nD τ) (st4_3 t) fullShare (out4 (stAt4 V c t.val t.isLt)) := by
  unfold Dat.leaves; rw [liveAt4_3 t h]; simp only []
  rw [after4_3]

theorem stAt4_first_fill (h : t.val % 40 = 0) (d) :
    stAt4 V c t.val t.isLt
      = step4 (grid4.coords t) (iblk4 V c 0 t) (win4_1.fill (grid4.coords t) d (iblk4 V c 1 t)) (iblk4 V c 2 t) init4 := by
  rw [stAt4_first V c t h]; unfold wbuf4; exact step4_fill_indep _ _ _ _ _ _ _

theorem stAt4_next_fill (h : t.val % 40 ≠ 0) (d) :
    stAt4 V c t.val t.isLt
      = step4 (grid4.coords t) (iblk4 V c 0 t) (win4_1.fill (grid4.coords t) d (iblk4 V c 1 t)) (iblk4 V c 2 t)
          (stAt4 V c (t.val - 1) (Nat.lt_of_le_of_lt (Nat.sub_le _ _) t.isLt)) := by
  rw [stAt4_next V c t h]; unfold wbuf4; exact step4_fill_indep _ _ _ _ _ _ _

def bodyPre4 : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 : sProp 𝕄 :=
  iprop((dat4 V c).Φ t.succ ∗ (dat4 V c).owesAt () t.succ
    ∗ (dat4 V c).leaves 0 t
    ∗ (dat4 V c).leaves 1 t
    ∗ (dat4 V c).leaves 2 t
    ∗ (dat4 V c).leaves 3 t)

set_option maxHeartbeats 4800000 in
-- The tile's place in its run of 40 says which run of the body applies; the runs differ in what the running columns start from and in the output.
theorem sound_body4 :
    bodyPre4 V c t ⊢ wp frame (wpE (defs₀ (F := Ideal)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, PhiS4_castSucc V c t]
  have hN : t.val < 80 := lt_of_lt_of_eq t.isLt (show cfg4.N = 80 from N_4)
  have hj : (grid4.coords t 1).val = t.val % 40 := coords4_tile t
  by_cases h0 : t.val % 40 = 0
  on_goal 2 => have hz : t.val ≠ 0 := fun e => h0 (by rw [e])
  on_goal 1 => by_cases hz : t.val = 0
  on_goal 3 => by_cases h39 : t.val % 40 = 39
  on_goal 1 => rw [PhiS4_zero V c _ _ hz, PhiA4_eq]
  on_goal 3 => rw [leaves4_3_last V c t h39]
  all_goals try rw [PhiS4_pos V c _ _ hz, PhiS4_succ]
  all_goals try rw [Dat.leaves_idle (dat4 V c) 3 t (idleAt4_3 t (by omega)) (noFlush4_3 t (by omega))]
  all_goals iintro ⟨HP, Ho, ⟨%d0, H0⟩, ⟨%d1, H1⟩, ⟨%d2, H2⟩, ⟨%d3, H3⟩⟩
  on_goal 1 => icases HP with ⟨⟨⟨HS0, HS1, HS2⟩, HR⟩, Hg⟩
  all_goals try icases HP with ⟨⟨HS0, HS1, HS2⟩, HR, Hg⟩
  iterate 2
    on_goal 1 =>
      rw [stAt4_first_fill V c t h0 d1]
      iapply (sound_kernel4_first c Set.univ (grid4.coords t) _ _ _ _ _ _ _ _ _ _ _ _ _ _
        (iblk4 V c 0 t) (win4_1.fill (grid4.coords t) d1 (iblk4 V c 1 t)) (iblk4 V c 2 t)
      ((dat4 V c).before 3 t d3) _ (hj.trans h0))
    rotate_left
  all_goals try rw [stAt4_next_fill V c t h0 d1]
  on_goal 1 =>
    iapply (sound_kernel4_last c Set.univ (grid4.coords t) _ _ _ _ _ _ _ _ _ _ _ _ _ _
      (iblk4 V c 0 t) (win4_1.fill (grid4.coords t) d1 (iblk4 V c 1 t)) (iblk4 V c 2 t)
      ((dat4 V c).before 3 t d3) _ (hj.trans h39) (stAt4 V c (t.val - 1) (Nat.lt_of_le_of_lt (Nat.sub_le _ _) t.isLt)))
  on_goal 2 =>
    iapply (sound_kernel4_mid c Set.univ (grid4.coords t) _ _ _ _ _ _ _ _ _ _ _ _ _ _
      (iblk4 V c 0 t) (win4_1.fill (grid4.coords t) d1 (iblk4 V c 1 t)) (iblk4 V c 2 t)
      ((dat4 V c).before 3 t d3) _ (fun e => h0 (hj.symm.trans e)) (fun e => h39 (hj.symm.trans e)) (stAt4 V c (t.val - 1) (Nat.lt_of_le_of_lt (Nat.sub_le _ _) t.isLt)))
  all_goals
    isplitl [H0]; · iexact H0
    isplitl [H1]; · iexact H1
    isplitl [H2]; · iexact H2
    isplitl [H3]; · iexact H3
    isplitl [HS0]; · first | iexact HS0 | (iexists _; iexact HS0)
    isplitl [HS1]; · first | iexact HS1 | (iexists _; iexact HS1)
    isplitl [HS2]; · first | iexact HS2 | (iexists _; iexact HS2)
    iintro ⟨H0, H1, H2, H3, HS0, HS1, HS2⟩
    isplitl [HS0 HS1 HS2 HR Hg]
    · isplitl [HS0 HS1 HS2]
      · isplitl [HS0]; · iexact HS0
        isplitl [HS1]; · iexact HS1
        iexact HS2
      isplitl [HR]; · iexact HR
      iexact Hg
    isplitl [Ho]; · iexact Ho
    isplitl [H0]; · iexact H0
    isplitl [H1]; · iexists d1; iexact H1
    isplitl [H2]; · iexact H2
    first | iexact H3 | (iexists d3; iexact H3)

theorem body_obligation4 : BodyObligationLoose (dat4 V c) (defs₀ (F := Ideal)) Variants.none () Set.univ := fun t => by
  rw [bigSep_W4, bigSep_W4]
  exact sound_body4 V c t

theorem hin4 : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 80 := N_4; omega), PhiS4_succ, PhiA4_eq]
  iintro ⟨⟨H0, H1, H2⟩, HR, Hg⟩
  isplitl [H0 H1 H2 HR]
  · isplitl [H0 H1 H2]
    · isplitl [H0]; · iexists _; iexact H0
      isplitl [H1]; · iexists _; iexact H1
      iexists _; iexact H2
    iexact HR
  iexact Hg

end Cert.KernelIdeal.Hand

end
-- ==== Proof.Ideal.Run.lean ====
import proofs.«427659_j7121055776931_3_alg».proof.Proof.Gen.KernelIdeal.Regions
import proofs.«427659_j7121055776931_3_alg».proof.Proof.Ideal.Bounds
import proofs.«427659_j7121055776931_3_alg».proof.Proof.Ideal.Proj
import proofs.«427659_j7121055776931_3_alg».proof.Proof.Ideal.Dat2
import proofs.«427659_j7121055776931_3_alg».proof.Proof.Ideal.Dat3
import proofs.«427659_j7121055776931_3_alg».proof.Proof.Ideal.Dat4
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
local notation "𝕄" => MT nD τ sig Unit (Elt Ideal) ℕ (UR sig nD τ) ℕ
variable (m : (ℓ : Loc nD τ sig) → Buf (Elt Ideal) ℓ) (ρ : Dev nD → PrngReg)
abbrev adm : (p : Fin 5) → (pcfgs (F := Ideal) p).Adm := fun p => (cfgs p).toPCfg_adm
def pdats : (p : Fin 5) → (c : Dev nD) → Dat τ (Elt Ideal) Unit ℕ (UR sig nD τ) ℕ (Pipeline.pin (pcfgs (F := Ideal)) adm p) c
  | ⟨0, _⟩ => fun c => dat0 (R9 m) c
  | ⟨1, _⟩ => fun c => dat1 (R10 m) c
  | ⟨2, _⟩ => fun c => dat2 (R11 m) c
  | ⟨3, _⟩ => fun c => dat3 (R12 m) c
  | ⟨4, _⟩ => fun c => dat4 (R13 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (X15 m c) ∗ ∃ r, prngReg c r)
abbrev rd (X : Dev nD → Valuation τ sig (Elt Ideal)) : (c : Dev nD) → (b : Ref sig .tc) → Buf (Elt Ideal) ((c : Thread nD τ).loc b) := fun c b => X c b
abbrev pc (p : Fin 5) := Pipeline.pin (pcfgs (F := Ideal)) adm p
set_option backward.isDefEq.respectTransparency.types false in
def regOf (p : Fin 5) (lf : Pipeline.LaunchFacts (nD := nD) (τ := τ) cfgs p) (Xi Xo : Dev nD → Valuation τ sig (Elt Ideal))
    (hbody : ∀ c, BodyObligationLoose (pdats m p c) (defs₀ (F := Ideal)) 𝒱₀ () Set.univ)
    (howed : ∀ c t, (pdats m p c).owed t = 0) (hq : ∀ c w, (pdats m p c).q w = fullShare)
    (hrec : ∀ c, (pdats m p c).recorded 0 = Set.univ)
    (hA : ∀ c w, (pdats m p c).A w = rd Xi c (Pipeline.arrRef (pc p).spec w))
    (hΦi : ∀ c, Pipeline.ΦA (pc p).spec c ⊢ (pdats m p c).Φ 0)
    (hΦo : ∀ c, (pdats m p c).Φ (Fin.last (pc p).N) ⊢ Pipeline.ΦA (pc p).spec c)
    (hF : ∀ c w, (pdats m p c).arrAt w (pc p).N = rd Xo c (Pipeline.arrRef (pc p).spec w))
    (hrest : ∀ c b, b ∉ Finset.univ.image (Pipeline.arrRef (pc p).spec) → rd Xo c b = rd Xi c b) :
    Pipeline.RegionSeg (pcfgs (F := Ideal)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Xi c) ∗ R c)
  post c := iprop(StableHlo.held (c : Thread nD τ) (Pipeline.ucRefs τ sig) (Xo c) ∗ R c)
  X c := iprop(∃ r, prngReg c r)
  Y c := iprop(∃ r, prngReg c r)
  Z c := Pipeline.unscopedRest (Ix := Unit) (Name := ℕ) (U := UR sig nD τ) (Lvl := ℕ) (pc p).spec c (rd Xi c)
  hentry c := by
    rw [Pipeline.ownSems0_none]
    have hsplit := Pipeline.arrays_of_unscopedBufs (p := p) (pcfgs (F := Ideal)) adm (pdats m) lf.win lf.arr_whole c
      ((pdats m p c).share_full (hq c)) (rd Xi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl ((hrec c).symm ▸ Set.mem_univ _)
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    refine (hΦo c).trans ?_
    unfold Pipeline.ΦA
    rw [Pipeline.ownSems0_none]
    iintro ⟨Hr, Hp⟩
    isplitl [Hp]; · iexact Hp
    isplitr; · iempintro
    iexact Hr
  hexit c := by
    have hjoin := Pipeline.unscopedBufs_of_arrays (p := p) (pcfgs (F := Ideal)) adm (Ix := Unit) (Name := ℕ) (U := UR sig nD τ) (Lvl := ℕ)
      lf.win lf.arr_whole c (pdats m) ((pdats m p c).share_full (hq c))
      (rd Xi c) (rd Xo c) ((pdats m p c).arrAt · (pc p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [howed c _]
    iexact HO
set_option backward.isDefEq.respectTransparency.types false in
def reg0 : Pipeline.RegionSeg (pcfgs (F := Ideal)) adm (pdats m) () defs₀ 𝒱₀ L lv 0 :=
  regOf m 0 launch0 (X9 m) (X10 m) (body_obligation0 (R9 m)) (owed_eq0 (R9 m)) (q_eq0 (R9 m)) (fun _ => rfl)
    (A_eq0 (R9 m)) (hin0 (R9 m)) (hout0 (R9 m)) (hF0 m) (hrest0 m)
set_option backward.isDefEq.respectTransparency.types false in
def reg1 : Pipeline.RegionSeg (pcfgs (F := Ideal)) adm (pdats m) () defs₀ 𝒱₀ L lv 1 :=
  regOf m 1 launch1 (X10 m) (X11 m) (body_obligation1 (R10 m)) (owed_eq1 (R10 m)) (q_eq1 (R10 m)) (fun _ => rfl)
    (A_eq1 (R10 m)) (hin1 (R10 m)) (hout1 (R10 m)) (hF1 m) (hrest1 m)
set_option backward.isDefEq.respectTransparency.types false in
def reg2 : Pipeline.RegionSeg (pcfgs (F := Ideal)) adm (pdats m) () defs₀ 𝒱₀ L lv 2 :=
  regOf m 2 launch2 (X11 m) (X12 m) (body_obligation2 (R11 m)) (owed_eq2 (R11 m)) (q_eq2 (R11 m)) (fun _ => rfl)
    (A_eq2 (R11 m)) (hin2 (R11 m)) (hout2 (R11 m)) (hF2 m) (hrest2 m)
set_option backward.isDefEq.respectTransparency.types false in
def reg3 : Pipeline.RegionSeg (pcfgs (F := Ideal)) adm (pdats m) () defs₀ 𝒱₀ L lv 3 :=
  regOf m 3 launch3 (X12 m) (X13 m) (body_obligation3 (R12 m)) (owed_eq3 (R12 m)) (q_eq3 (R12 m)) (fun _ => rfl)
    (A_eq3 (R12 m)) (hin3 (R12 m)) (hout3 (R12 m)) (hF3 m) (hrest3 m)
set_option backward.isDefEq.respectTransparency.types false in
def reg4 : Pipeline.RegionSeg (pcfgs (F := Ideal)) adm (pdats m) () defs₀ 𝒱₀ L lv 4 :=
  regOf m 4 launch4 (X13 m) (X14 m) (body_obligation4 (R13 m)) (owed_eq4 (R13 m)) (q_eq4 (R13 m)) (fun _ => rfl)
    (A_eq4 (R13 m)) (hin4 (R13 m)) (hout4 (R13 m)) (hF4 m) (hrest4 m)
abbrev segs : List (Pipeline.Seg (pcfgs (F := Ideal)) adm (pdats m) () defs₀ 𝒱₀ L lv) :=
  [ .host (hseg hostOps0 hostOps0_sub hostOps0_fresh (Gen.V0 (F := Ideal) m)),
    .host (hseg hostOps0_1 hostOps0_1_sub hostOps0_1_fresh (Gen.V1 (F := Ideal) m)),
    .host (hseg hostOps0_2 hostOps0_2_sub hostOps0_2_fresh (Gen.V2 (F := Ideal) m)),
    .host (hseg hostOps0_3 hostOps0_3_sub hostOps0_3_fresh (Gen.V3 (F := Ideal) m)),
    .host (hseg hostOps0_4 hostOps0_4_sub hostOps0_4_fresh (Gen.V4 (F := Ideal) m)),
    .host (hseg hostOps0_5 hostOps0_5_sub hostOps0_5_fresh (Gen.V5 (F := Ideal) m)),
    .host (hseg hostOps0_6 hostOps0_6_sub hostOps0_6_fresh (Gen.V6 (F := Ideal) m)),
    .host (hseg hostOps0_7 hostOps0_7_sub hostOps0_7_fresh (Gen.V7 (F := Ideal) m)),
    .host (hseg hostOps0_8 hostOps0_8_sub hostOps0_8_fresh (Gen.V8 (F := Ideal) m)),
    .region (reg0 m), .region (reg1 m), .region (reg2 m), .region (reg3 m), .region (reg4 m),
    .host (hseg hostOps5 hostOps5_sub hostOps5_fresh (X14 m)) ]
theorem main_run (c : Dev nD) : main (F := Ideal) c = Pipeline.Seg.run (segs m) := by
  rw [main_chain c, Pipeline.Seg.run_eq_chain]
  rfl
set_option backward.isDefEq.respectTransparency.types false in
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = X15 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 (F := Ideal) m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        dsimp only [Pipeline.Seg.post, hseg, Pipeline.HostSeg.ofOps]
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (Gen.V0 (F := Ideal) m c)
        from Pipeline.unscopedBufs_held c (Gen.V0 (F := Ideal) m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X15 m c b)
    (hfin := fun c s' => by
      iintro ⟨⟨Hh, -⟩, HSI⟩
      unfold StableHlo.held
      imodintro
      iapply (pointsTo_read_all (Pipeline.ucRefs τ sig) (fun b => (((c : Thread nD τ)).1, b)) (X15 m c) s')
      isplitl [Hh] <;> iassumption)
    (hQ := fun s h c => h c)
end Cert.KernelIdeal.Hand
end
-- ==== Proof.Ideal.Val2.lean ====
import proofs.«427659_j7121055776931_3_alg».proof.Proof.Ideal.Data2
import proofs.«427659_j7121055776931_3_alg».proof.Proof.Ideal.Tile2

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Window)

variable (V : (c : Dev nD) → (b : Ref sig .tc) → Buf (Elt Ideal) ((c : Thread nD τ).loc b))

abbrev xArr2 (c : Dev nD) : FVec Ideal S4096x256 .bf16 := V c main_v33
abbrev wArr2 (c : Dev nD) : FVec Ideal S256x20000 .bf16 := V c main_v23
abbrev labArr2 (c : Dev nD) : IVec S4096x1 32 := V c main_v27
abbrev maskArr2 (c : Dev nD) : FVec Ideal S4096x1 .f32 := V c main_v30

abbrev outArr2 (c : Dev nD) : FVec Ideal S4096x1 .f32 := (dat2 V c).arrAt 4 cfg2.N

private theorem idx2 : ∀ t : Fin cfg2.N,
    win2_0.index t (0 : Fin 2) = t.val / 40 ∧ win2_0.index t (1 : Fin 2) = 0
    ∧ win2_1.index t (0 : Fin 2) = 0 ∧ win2_1.index t (1 : Fin 2) = t.val % 40
    ∧ win2_2.index t (0 : Fin 2) = t.val / 40 ∧ win2_2.index t (1 : Fin 2) = 0
    ∧ win2_3.index t (0 : Fin 2) = t.val / 40 ∧ win2_3.index t (1 : Fin 2) = 0
    ∧ win2_4.index t (0 : Fin 2) = t.val / 40 ∧ win2_4.index t (1 : Fin 2) = 0
    ∧ (grid2.coords t 0).val = t.val / 40 ∧ (grid2.coords t 1).val = t.val % 40 :=
  (by decide +kernel : ∀ t : Fin grid2.N, _)

private theorem xblk2_apply (c : Dev nD) (t : Fin cfg2.N) (r : Fin 2048) (h : Fin 256) (R : Fin 4096)
    (hR : R.val = 2048 * (t.val / 40) + r.val) :
    (iblk2 V c 0 t : Vec Ideal S2048x256 .bf16) (ix2 r h) = xArr2 V c (ix2 R h) := by
  obtain ⟨e0, e1, -⟩ := idx2 t
  show V c main_v33 (((cfg2.win 0).blk t).view.emb (ix2 r h)) = V c main_v33 (ix2 R h)
  congr 1
  funext a; apply Fin.ext
  match a with
  | ⟨0, _⟩ => show win2_0.index t (0 : Fin 2) * 2048 + 1 * r.val = R.val; omega
  | ⟨1, _⟩ => show win2_0.index t (1 : Fin 2) * 256 + 1 * h.val = h.val; omega

private theorem lblk2_apply (c : Dev nD) (t : Fin cfg2.N) (r : Fin 2048) (R : Fin 4096)
    (hR : R.val = 2048 * (t.val / 40) + r.val) :
    (iblk2 V c 2 t : Vec Ideal S2048x1 .i32) (ix2 r (0 : Fin 1)) = labArr2 V c (ix2 R (0 : Fin 1)) := by
  obtain ⟨-, -, -, -, e0, e1, -⟩ := idx2 t
  show V c main_v27 (((cfg2.win 2).blk t).view.emb (ix2 r (0 : Fin 1))) = V c main_v27 (ix2 R (0 : Fin 1))
  congr 1
  funext a; apply Fin.ext
  match a with
  | ⟨0, _⟩ => show win2_2.index t (0 : Fin 2) * 2048 + 1 * r.val = R.val; omega
  | ⟨1, _⟩ => show win2_2.index t (1 : Fin 2) * 1 + 1 * 0 = 0; omega

private theorem mblk2_apply (c : Dev nD) (t : Fin cfg2.N) (r : Fin 2048) (R : Fin 4096)
    (hR : R.val = 2048 * (t.val / 40) + r.val) :
    (iblk2 V c 3 t : Vec Ideal S2048x1 .f32) (ix2 r (0 : Fin 1)) = maskArr2 V c (ix2 R (0 : Fin 1)) := by
  obtain ⟨-, -, -, -, -, -, e0, e1, -⟩ := idx2 t
  show V c main_v30 (((cfg2.win 3).blk t).view.emb (ix2 r (0 : Fin 1))) = V c main_v30 (ix2 R (0 : Fin 1))
  congr 1
  funext a; apply Fin.ext
  match a with
  | ⟨0, _⟩ => show win2_3.index t (0 : Fin 2) * 2048 + 1 * r.val = R.val; omega
  | ⟨1, _⟩ => show win2_3.index t (1 : Fin 2) * 1 + 1 * 0 = 0; omega

private theorem wbuf2_apply (c : Dev nD) (t : Fin cfg2.N) (h : Fin 256) (k : Fin 512) (C : Fin 20000)
    (hC : C.val = 512 * (t.val % 40) + k.val) :
    (wbuf2 V c t : Vec Ideal S256x512 .bf16) (ix2 h k) = wArr2 V c (ix2 h C) := by
  obtain ⟨-, -, e0, e1, -, -, -, -, -, -, -, ej⟩ := idx2 t
  have hC2 : C.val < 20000 := C.isLt
  unfold wbuf2 Window.fill
  rw [dif_pos ((win2_1.moved_iff _ _).mpr (moved2 (grid2.coords t) h k (by
    show (grid2.coords t 1).val * 512 + k.val < 20000; rw [ej]; omega)))]
  show V c main_v23 (((cfg2.win 1).blk t).view.emb _) = V c main_v23 (ix2 h C)
  congr 1
  funext a; apply Fin.ext
  match a with
  | ⟨0, _⟩ => show win2_1.index t (0 : Fin 2) * 256 + 1 * h.val = h.val; omega
  | ⟨1, _⟩ => show win2_1.index t (1 : Fin 2) * 512 + 1 * k.val = C.val; omega

private theorem stAt2_first (c : Dev nD) (n : ℕ) (hn : n < cfg2.N) (h0 : n % 40 = 0) :
    stAt2 V c n hn = step2 (grid2.coords ⟨n, hn⟩) (iblk2 V c 0 ⟨n, hn⟩) (wbuf2 V c ⟨n, hn⟩) (iblk2 V c 2 ⟨n, hn⟩) init2 := by
  cases n with
  | zero => rfl
  | succ n => rw [stAt2, if_pos h0]

private theorem stAt2_next (c : Dev nD) (n : ℕ) (hn : n + 1 < cfg2.N) (h0 : (n + 1) % 40 ≠ 0) :
    stAt2 V c (n + 1) hn = step2 (grid2.coords ⟨n + 1, hn⟩) (iblk2 V c 0 ⟨n + 1, hn⟩) (wbuf2 V c ⟨n + 1, hn⟩) (iblk2 V c 2 ⟨n + 1, hn⟩)
      (stAt2 V c n (Nat.lt_of_succ_lt hn)) := by
  rw [stAt2, if_neg h0]

private abbrev rowLogits2 (c : Dev nD) (R : Fin 4096) : Fin 20000 → EReal :=
  fun cc : Fin 20000 => ∑ h : Fin 256, xArr2 V c (ix2 R h) * wArr2 V c (ix2 h cc)

private theorem step_at2 (c : Dev nD) (t : Fin cfg2.N) (r : Fin 2048) (R : Fin 4096) (hR : R.val = 2048 * (t.val / 40) + r.val) (st : St2) :
    Cert.Spec.St.mk ((step2 (grid2.coords t) (iblk2 V c 0 t) (wbuf2 V c t) (iblk2 V c 2 t) st).1 (ix2 r (0 : Fin 1)))
        ((step2 (grid2.coords t) (iblk2 V c 0 t) (wbuf2 V c t) (iblk2 V c 2 t) st).2.1 (ix2 r (0 : Fin 1)))
        ((step2 (grid2.coords t) (iblk2 V c 0 t) (wbuf2 V c t) (iblk2 V c 2 t) st).2.2 (ix2 r (0 : Fin 1)))
      = Cert.Spec.St.step 512 (rowLogits2 V c R) (labArr2 V c (ix2 R (0 : Fin 1))).toNat (t.val % 40)
          (Cert.Spec.St.mk (st.1 (ix2 r (0 : Fin 1))) (st.2.1 (ix2 r (0 : Fin 1))) (st.2.2 (ix2 r (0 : Fin 1)))) := by
  obtain ⟨-, -, -, -, -, -, -, -, -, -, -, ej⟩ := idx2 t
  have h := step2_row (grid2.coords t) (iblk2 V c 0 t) (wbuf2 V c t) (iblk2 V c 2 t) st r (rowLogits2 V c R)
    (fun k hk => Finset.sum_congr rfl fun h _ =>
      congrArg₂ (· * ·) (xblk2_apply V c t r h R hR) (wbuf2_apply V c t h k ⟨(grid2.coords t 1).val * 512 + k.val, hk⟩ (by show (grid2.coords t 1).val * 512 + k.val = _; rw [ej]; omega)))
  rw [lblk2_apply V c t r R hR, ej] at h
  exact h

private theorem row_run2 (c : Dev nD) (r : Fin 2048) (R : Fin 4096) :
    ∀ (n : ℕ) (hn : n < cfg2.N), R.val = 2048 * (n / 40) + r.val →
      Cert.Spec.St.mk ((stAt2 V c n hn).1 (ix2 r (0 : Fin 1))) ((stAt2 V c n hn).2.1 (ix2 r (0 : Fin 1)))
          ((stAt2 V c n hn).2.2 (ix2 r (0 : Fin 1)))
        = Cert.Spec.St.run 512 (rowLogits2 V c R) (labArr2 V c (ix2 R (0 : Fin 1))).toNat (n % 40 + 1) :=
  run_of_steps _ _ (fun n => R.val = 2048 * (n / 40) + r.val) _
    (fun n (hb : R.val = 2048 * ((n + 1) / 40) + r.val) hz => (by omega : R.val = 2048 * (n / 40) + r.val))
    (fun n hn hR h0 => by rw [stAt2_first V c n hn h0, step_at2 V c ⟨n, hn⟩ r R hR init2, init2_row])
    (fun n hn hR h0 => by rw [stAt2_next V c n hn h0, step_at2 V c ⟨n + 1, hn⟩ r R hR _])

private abbrev G2 (c : Dev nD) : FVec Ideal S4096x1 .f32 :=
  fun i => if (0 : EReal) < maskArr2 V c (ix2 (i 0) (0 : Fin 1)) then
      Cert.Spec.ceKer 512 40 (rowLogits2 V c (i 0)) (labArr2 V c (ix2 (i 0) (0 : Fin 1))).toNat else 0

private theorem flushed2_eq (c : Dev nD) (t : Fin cfg2.N) (hf : (cfg2.win 4).flush t = true) :
    (dat2 V c).flushed 4 t = ((cfg2.win 4).blk t).view.read (Elt Ideal) (G2 V c) := by
  have h39 : t.val % 40 = 39 := (flush2_4 t).mp hf
  obtain ⟨-, -, -, -, -, -, -, -, e0, e1, -⟩ := idx2 t
  have hN : t.val < 80 := Nat.lt_of_lt_of_eq (show t.val < grid2.N from t.isLt) N_2
  show (cfg2.win 4).cut (grid2.coords t) ((dat2 V c).after 4 t) = _
  dsimp only [dat2]
  funext y
  have hy1 : (y 1).val < 1 := (y 1).isLt
  obtain ⟨r, hr⟩ : ∃ r : Fin 2048, r.val = (y 0).val := ⟨⟨(y 0).val, (y 0).isLt⟩, rfl⟩
  obtain ⟨R, hR⟩ : ∃ R : Fin 4096, R.val = 2048 * (t.val / 40) + r.val :=
    ⟨⟨2048 * (t.val / 40) + r.val, by have := r.isLt; omega⟩, rfl⟩
  have ein : win2_4.xinj (grid2.coords t) y = ix2 r (0 : Fin 1) :=
    funext fun a => Fin.ext (by
      match a with
      | ⟨0, _⟩ => exact hr.symm
      | ⟨1, _⟩ => show (y 1).val = 0; omega)
  have eout : ((cfg2.win 4).blk t).view.emb y = ix2 R (0 : Fin 1) :=
    funext fun a => Fin.ext (by
      match a with
      | ⟨0, _⟩ => show win2_4.index t (0 : Fin 2) * 2048 + 1 * (y 0).val = R.val; omega
      | ⟨1, _⟩ => show win2_4.index t (1 : Fin 2) * 1 + 1 * (y 1).val = 0; omega)
  have hrun := row_run2 V c r R t.val t.isLt hR
  rw [h39] at hrun
  show out2 (stAt2 V c t.val t.isLt) (iblk2 V c 3 t) (win2_4.xinj (grid2.coords t) y) = G2 V c (((cfg2.win 4).blk t).view.emb y)
  rw [ein, eout, out2_row, mblk2_apply V c t r R hR]
  exact congrArg (fun s : Cert.Spec.St =>
    if (0 : EReal) < maskArr2 V c (ix2 R (0 : Fin 1)) then (s.m + Ideal.log s.l) - s.sel else 0) hrun

theorem out2_val (c : Dev nD) (R : Fin 4096) :
    outArr2 V c (ix2 R (0 : Fin 1))
      = if (0 : EReal) < maskArr2 V c (ix2 R (0 : Fin 1)) then Cert.Spec.ceKer 512 40 (fun cc : Fin 20000 => ∑ h : Fin 256, xArr2 V c (ix2 R h) * wArr2 V c (ix2 h cc))
          (labArr2 V c (ix2 R (0 : Fin 1))).toNat else 0 := by
  have hR : R.val < 4096 := R.isLt
  obtain ⟨T, hT⟩ : ∃ T : Fin cfg2.N, T.val = 40 * (R.val / 2048) + 39 :=
    ⟨⟨40 * (R.val / 2048) + 39, by rw [show cfg2.N = grid2.N from rfl, N_2]; omega⟩, rfl⟩
  have hf : (cfg2.win 4).flush T = true := (flush2_4 T).mpr (by omega)
  obtain ⟨-, -, -, -, -, -, -, -, e0, e1, -⟩ := idx2 T
  have hmem : ix2 R (0 : Fin 1) ∈ ((cfg2.win 4).blk T).view.set := by
    show _ ∈ ((View.whole main_v35).slice (win2_4.rect T)).set
    rw [View.set_slice_whole, Rect.mem_set_unit]
    intro a
    match a with
    | ⟨0, _⟩ => show win2_4.index T (0 : Fin 2) * 2048 ≤ R.val ∧ R.val < win2_4.index T (0 : Fin 2) * 2048 + 2048; omega
    | ⟨1, _⟩ => show win2_4.index T (1 : Fin 2) * 1 ≤ 0 ∧ 0 < win2_4.index T (1 : Fin 2) * 1 + 1; omega
  exact (dat2 V c).arrAt_apply_of_mem 4 (G2 V c) (flushed2_eq V c) cfg2.N T (ix2 R (0 : Fin 1)) T.isLt hf hmem

end Cert.KernelIdeal.Hand

end
-- ==== Proof.Ideal.Val3.lean ====
import proofs.«427659_j7121055776931_3_alg».proof.Proof.Ideal.Data3
import proofs.«427659_j7121055776931_3_alg».proof.Proof.Ideal.Tile3

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Window)

variable (V : (c : Dev nD) → (b : Ref sig .tc) → Buf (Elt Ideal) ((c : Thread nD τ).loc b))

abbrev xArr3 (c : Dev nD) : FVec Ideal S4096x64 .bf16 := V c main_v34
abbrev wArr3 (c : Dev nD) : FVec Ideal S64x20000 .bf16 := V c main_v25
abbrev labArr3 (c : Dev nD) : IVec S4096x1 32 := V c main_v28
abbrev maskArr3 (c : Dev nD) : FVec Ideal S4096x1 .f32 := V c main_v32

abbrev outArr3 (c : Dev nD) : FVec Ideal S4096x1 .f32 := (dat3 V c).arrAt 4 cfg3.N

private theorem idx3 : ∀ t : Fin cfg3.N,
    win3_0.index t (0 : Fin 2) = t.val / 40 ∧ win3_0.index t (1 : Fin 2) = 0
    ∧ win3_1.index t (0 : Fin 2) = 0 ∧ win3_1.index t (1 : Fin 2) = t.val % 40
    ∧ win3_2.index t (0 : Fin 2) = t.val / 40 ∧ win3_2.index t (1 : Fin 2) = 0
    ∧ win3_3.index t (0 : Fin 2) = t.val / 40 ∧ win3_3.index t (1 : Fin 2) = 0
    ∧ win3_4.index t (0 : Fin 2) = t.val / 40 ∧ win3_4.index t (1 : Fin 2) = 0
    ∧ (grid3.coords t 0).val = t.val / 40 ∧ (grid3.coords t 1).val = t.val % 40 :=
  (by decide +kernel : ∀ t : Fin grid3.N, _)

private theorem xblk3_apply (c : Dev nD) (t : Fin cfg3.N) (r : Fin 2048) (h : Fin 64) (R : Fin 4096)
    (hR : R.val = 2048 * (t.val / 40) + r.val) :
    (iblk3 V c 0 t : Vec Ideal S2048x64 .bf16) (ix2 r h) = xArr3 V c (ix2 R h) := by
  obtain ⟨e0, e1, -⟩ := idx3 t
  show V c main_v34 (((cfg3.win 0).blk t).view.emb (ix2 r h)) = V c main_v34 (ix2 R h)
  congr 1
  funext a; apply Fin.ext
  match a with
  | ⟨0, _⟩ => show win3_0.index t (0 : Fin 2) * 2048 + 1 * r.val = R.val; omega
  | ⟨1, _⟩ => show win3_0.index t (1 : Fin 2) * 64 + 1 * h.val = h.val; omega

private theorem lblk3_apply (c : Dev nD) (t : Fin cfg3.N) (r : Fin 2048) (R : Fin 4096)
    (hR : R.val = 2048 * (t.val / 40) + r.val) :
    (iblk3 V c 2 t : Vec Ideal S2048x1 .i32) (ix2 r (0 : Fin 1)) = labArr3 V c (ix2 R (0 : Fin 1)) := by
  obtain ⟨-, -, -, -, e0, e1, -⟩ := idx3 t
  show V c main_v28 (((cfg3.win 2).blk t).view.emb (ix2 r (0 : Fin 1))) = V c main_v28 (ix2 R (0 : Fin 1))
  congr 1
  funext a; apply Fin.ext
  match a with
  | ⟨0, _⟩ => show win3_2.index t (0 : Fin 2) * 2048 + 1 * r.val = R.val; omega
  | ⟨1, _⟩ => show win3_2.index t (1 : Fin 2) * 1 + 1 * 0 = 0; omega

private theorem mblk3_apply (c : Dev nD) (t : Fin cfg3.N) (r : Fin 2048) (R : Fin 4096)
    (hR : R.val = 2048 * (t.val / 40) + r.val) :
    (iblk3 V c 3 t : Vec Ideal S2048x1 .f32) (ix2 r (0 : Fin 1)) = maskArr3 V c (ix2 R (0 : Fin 1)) := by
  obtain ⟨-, -, -, -, -, -, e0, e1, -⟩ := idx3 t
  show V c main_v32 (((cfg3.win 3).blk t).view.emb (ix2 r (0 : Fin 1))) = V c main_v32 (ix2 R (0 : Fin 1))
  congr 1
  funext a; apply Fin.ext
  match a with
  | ⟨0, _⟩ => show win3_3.index t (0 : Fin 2) * 2048 + 1 * r.val = R.val; omega
  | ⟨1, _⟩ => show win3_3.index t (1 : Fin 2) * 1 + 1 * 0 = 0; omega

private theorem wbuf3_apply (c : Dev nD) (t : Fin cfg3.N) (h : Fin 64) (k : Fin 512) (C : Fin 20000)
    (hC : C.val = 512 * (t.val % 40) + k.val) :
    (wbuf3 V c t : Vec Ideal S64x512 .bf16) (ix2 h k) = wArr3 V c (ix2 h C) := by
  obtain ⟨-, -, e0, e1, -, -, -, -, -, -, -, ej⟩ := idx3 t
  have hC2 : C.val < 20000 := C.isLt
  unfold wbuf3 Window.fill
  rw [dif_pos ((win3_1.moved_iff _ _).mpr (moved3 (grid3.coords t) h k (by
    show (grid3.coords t 1).val * 512 + k.val < 20000; rw [ej]; omega)))]
  show V c main_v25 (((cfg3.win 1).blk t).view.emb _) = V c main_v25 (ix2 h C)
  congr 1
  funext a; apply Fin.ext
  match a with
  | ⟨0, _⟩ => show win3_1.index t (0 : Fin 2) * 64 + 1 * h.val = h.val; omega
  | ⟨1, _⟩ => show win3_1.index t (1 : Fin 2) * 512 + 1 * k.val = C.val; omega

private theorem stAt3_first (c : Dev nD) (n : ℕ) (hn : n < cfg3.N) (h0 : n % 40 = 0) :
    stAt3 V c n hn = step3 (grid3.coords ⟨n, hn⟩) (iblk3 V c 0 ⟨n, hn⟩) (wbuf3 V c ⟨n, hn⟩) (iblk3 V c 2 ⟨n, hn⟩) init3 := by
  cases n with
  | zero => rfl
  | succ n => rw [stAt3, if_pos h0]

private theorem stAt3_next (c : Dev nD) (n : ℕ) (hn : n + 1 < cfg3.N) (h0 : (n + 1) % 40 ≠ 0) :
    stAt3 V c (n + 1) hn = step3 (grid3.coords ⟨n + 1, hn⟩) (iblk3 V c 0 ⟨n + 1, hn⟩) (wbuf3 V c ⟨n + 1, hn⟩) (iblk3 V c 2 ⟨n + 1, hn⟩)
      (stAt3 V c n (Nat.lt_of_succ_lt hn)) := by
  rw [stAt3, if_neg h0]

private abbrev rowLogits3 (c : Dev nD) (R : Fin 4096) : Fin 20000 → EReal :=
  fun cc : Fin 20000 => ∑ h : Fin 64, xArr3 V c (ix2 R h) * wArr3 V c (ix2 h cc)

private theorem step_at3 (c : Dev nD) (t : Fin cfg3.N) (r : Fin 2048) (R : Fin 4096) (hR : R.val = 2048 * (t.val / 40) + r.val) (st : St3) :
    Cert.Spec.St.mk ((step3 (grid3.coords t) (iblk3 V c 0 t) (wbuf3 V c t) (iblk3 V c 2 t) st).1 (ix2 r (0 : Fin 1)))
        ((step3 (grid3.coords t) (iblk3 V c 0 t) (wbuf3 V c t) (iblk3 V c 2 t) st).2.1 (ix2 r (0 : Fin 1)))
        ((step3 (grid3.coords t) (iblk3 V c 0 t) (wbuf3 V c t) (iblk3 V c 2 t) st).2.2 (ix2 r (0 : Fin 1)))
      = Cert.Spec.St.step 512 (rowLogits3 V c R) (labArr3 V c (ix2 R (0 : Fin 1))).toNat (t.val % 40)
          (Cert.Spec.St.mk (st.1 (ix2 r (0 : Fin 1))) (st.2.1 (ix2 r (0 : Fin 1))) (st.2.2 (ix2 r (0 : Fin 1)))) := by
  obtain ⟨-, -, -, -, -, -, -, -, -, -, -, ej⟩ := idx3 t
  have h := step3_row (grid3.coords t) (iblk3 V c 0 t) (wbuf3 V c t) (iblk3 V c 2 t) st r (rowLogits3 V c R)
    (fun k hk => Finset.sum_congr rfl fun h _ =>
      congrArg₂ (· * ·) (xblk3_apply V c t r h R hR) (wbuf3_apply V c t h k ⟨(grid3.coords t 1).val * 512 + k.val, hk⟩ (by show (grid3.coords t 1).val * 512 + k.val = _; rw [ej]; omega)))
  rw [lblk3_apply V c t r R hR, ej] at h
  exact h

private theorem row_run3 (c : Dev nD) (r : Fin 2048) (R : Fin 4096) :
    ∀ (n : ℕ) (hn : n < cfg3.N), R.val = 2048 * (n / 40) + r.val →
      Cert.Spec.St.mk ((stAt3 V c n hn).1 (ix2 r (0 : Fin 1))) ((stAt3 V c n hn).2.1 (ix2 r (0 : Fin 1)))
          ((stAt3 V c n hn).2.2 (ix2 r (0 : Fin 1)))
        = Cert.Spec.St.run 512 (rowLogits3 V c R) (labArr3 V c (ix2 R (0 : Fin 1))).toNat (n % 40 + 1) :=
  run_of_steps _ _ (fun n => R.val = 2048 * (n / 40) + r.val) _
    (fun n (hb : R.val = 2048 * ((n + 1) / 40) + r.val) hz => (by omega : R.val = 2048 * (n / 40) + r.val))
    (fun n hn hR h0 => by rw [stAt3_first V c n hn h0, step_at3 V c ⟨n, hn⟩ r R hR init3, init3_row])
    (fun n hn hR h0 => by rw [stAt3_next V c n hn h0, step_at3 V c ⟨n + 1, hn⟩ r R hR _])

private abbrev G3 (c : Dev nD) : FVec Ideal S4096x1 .f32 :=
  fun i => if (0 : EReal) < maskArr3 V c (ix2 (i 0) (0 : Fin 1)) then
      Cert.Spec.ceKer 512 40 (rowLogits3 V c (i 0)) (labArr3 V c (ix2 (i 0) (0 : Fin 1))).toNat else 0

private theorem flushed3_eq (c : Dev nD) (t : Fin cfg3.N) (hf : (cfg3.win 4).flush t = true) :
    (dat3 V c).flushed 4 t = ((cfg3.win 4).blk t).view.read (Elt Ideal) (G3 V c) := by
  have h39 : t.val % 40 = 39 := (flush3_4 t).mp hf
  obtain ⟨-, -, -, -, -, -, -, -, e0, e1, -⟩ := idx3 t
  have hN : t.val < 80 := Nat.lt_of_lt_of_eq (show t.val < grid3.N from t.isLt) N_3
  show (cfg3.win 4).cut (grid3.coords t) ((dat3 V c).after 4 t) = _
  dsimp only [dat3]
  funext y
  have hy1 : (y 1).val < 1 := (y 1).isLt
  obtain ⟨r, hr⟩ : ∃ r : Fin 2048, r.val = (y 0).val := ⟨⟨(y 0).val, (y 0).isLt⟩, rfl⟩
  obtain ⟨R, hR⟩ : ∃ R : Fin 4096, R.val = 2048 * (t.val / 40) + r.val :=
    ⟨⟨2048 * (t.val / 40) + r.val, by have := r.isLt; omega⟩, rfl⟩
  have ein : win3_4.xinj (grid3.coords t) y = ix2 r (0 : Fin 1) :=
    funext fun a => Fin.ext (by
      match a with
      | ⟨0, _⟩ => exact hr.symm
      | ⟨1, _⟩ => show (y 1).val = 0; omega)
  have eout : ((cfg3.win 4).blk t).view.emb y = ix2 R (0 : Fin 1) :=
    funext fun a => Fin.ext (by
      match a with
      | ⟨0, _⟩ => show win3_4.index t (0 : Fin 2) * 2048 + 1 * (y 0).val = R.val; omega
      | ⟨1, _⟩ => show win3_4.index t (1 : Fin 2) * 1 + 1 * (y 1).val = 0; omega)
  have hrun := row_run3 V c r R t.val t.isLt hR
  rw [h39] at hrun
  show out3 (stAt3 V c t.val t.isLt) (iblk3 V c 3 t) (win3_4.xinj (grid3.coords t) y) = G3 V c (((cfg3.win 4).blk t).view.emb y)
  rw [ein, eout, out3_row, mblk3_apply V c t r R hR]
  exact congrArg (fun s : Cert.Spec.St =>
    if (0 : EReal) < maskArr3 V c (ix2 R (0 : Fin 1)) then (s.m + Ideal.log s.l) - s.sel else 0) hrun

theorem out3_val (c : Dev nD) (R : Fin 4096) :
    outArr3 V c (ix2 R (0 : Fin 1))
      = if (0 : EReal) < maskArr3 V c (ix2 R (0 : Fin 1)) then Cert.Spec.ceKer 512 40 (fun cc : Fin 20000 => ∑ h : Fin 64, xArr3 V c (ix2 R h) * wArr3 V c (ix2 h cc))
          (labArr3 V c (ix2 R (0 : Fin 1))).toNat else 0 := by
  have hR : R.val < 4096 := R.isLt
  obtain ⟨T, hT⟩ : ∃ T : Fin cfg3.N, T.val = 40 * (R.val / 2048) + 39 :=
    ⟨⟨40 * (R.val / 2048) + 39, by rw [show cfg3.N = grid3.N from rfl, N_3]; omega⟩, rfl⟩
  have hf : (cfg3.win 4).flush T = true := (flush3_4 T).mpr (by omega)
  obtain ⟨-, -, -, -, -, -, -, -, e0, e1, -⟩ := idx3 T
  have hmem : ix2 R (0 : Fin 1) ∈ ((cfg3.win 4).blk T).view.set := by
    show _ ∈ ((View.whole main_v36).slice (win3_4.rect T)).set
    rw [View.set_slice_whole, Rect.mem_set_unit]
    intro a
    match a with
    | ⟨0, _⟩ => show win3_4.index T (0 : Fin 2) * 2048 ≤ R.val ∧ R.val < win3_4.index T (0 : Fin 2) * 2048 + 2048; omega
    | ⟨1, _⟩ => show win3_4.index T (1 : Fin 2) * 1 ≤ 0 ∧ 0 < win3_4.index T (1 : Fin 2) * 1 + 1; omega
  exact (dat3 V c).arrAt_apply_of_mem 4 (G3 V c) (flushed3_eq V c) cfg3.N T (ix2 R (0 : Fin 1)) T.isLt hf hmem

end Cert.KernelIdeal.Hand

end
-- ==== Proof.Ideal.Val4.lean ====
import proofs.«427659_j7121055776931_3_alg».proof.Proof.Ideal.Data4
import proofs.«427659_j7121055776931_3_alg».proof.Proof.Ideal.Tile4

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Window)

variable (V : (c : Dev nD) → (b : Ref sig .tc) → Buf (Elt Ideal) ((c : Thread nD τ).loc b))

abbrev xArr4 (c : Dev nD) : FVec Ideal S4096x1024 .bf16 := V c main_v20
abbrev wArr4 (c : Dev nD) : FVec Ideal S1024x20002 .bf16 := V c main_v21
abbrev labArr4 (c : Dev nD) : IVec S4096x1 32 := V c main_v26

abbrev outArr4 (c : Dev nD) : FVec Ideal S4096x1 .f32 := (dat4 V c).arrAt 3 cfg4.N

private theorem idx4 : ∀ t : Fin cfg4.N,
    win4_0.index t (0 : Fin 2) = t.val / 40 ∧ win4_0.index t (1 : Fin 2) = 0
    ∧ win4_1.index t (0 : Fin 2) = 0 ∧ win4_1.index t (1 : Fin 2) = t.val % 40
    ∧ win4_2.index t (0 : Fin 2) = t.val / 40 ∧ win4_2.index t (1 : Fin 2) = 0
    ∧ win4_3.index t (0 : Fin 2) = t.val / 40 ∧ win4_3.index t (1 : Fin 2) = 0
    ∧ (grid4.coords t 0).val = t.val / 40 ∧ (grid4.coords t 1).val = t.val % 40 :=
  (by decide +kernel : ∀ t : Fin grid4.N, _)

private theorem xblk4_apply (c : Dev nD) (t : Fin cfg4.N) (r : Fin 2048) (h : Fin 1024) (R : Fin 4096)
    (hR : R.val = 2048 * (t.val / 40) + r.val) :
    (iblk4 V c 0 t : Vec Ideal S2048x1024 .bf16) (ix2 r h) = xArr4 V c (ix2 R h) := by
  obtain ⟨e0, e1, -⟩ := idx4 t
  show V c main_v20 (((cfg4.win 0).blk t).view.emb (ix2 r h)) = V c main_v20 (ix2 R h)
  congr 1
  funext a; apply Fin.ext
  match a with
  | ⟨0, _⟩ => show win4_0.index t (0 : Fin 2) * 2048 + 1 * r.val = R.val; omega
  | ⟨1, _⟩ => show win4_0.index t (1 : Fin 2) * 1024 + 1 * h.val = h.val; omega

private theorem lblk4_apply (c : Dev nD) (t : Fin cfg4.N) (r : Fin 2048) (R : Fin 4096)
    (hR : R.val = 2048 * (t.val / 40) + r.val) :
    (iblk4 V c 2 t : Vec Ideal S2048x1 .i32) (ix2 r (0 : Fin 1)) = labArr4 V c (ix2 R (0 : Fin 1)) := by
  obtain ⟨-, -, -, -, e0, e1, -⟩ := idx4 t
  show V c main_v26 (((cfg4.win 2).blk t).view.emb (ix2 r (0 : Fin 1))) = V c main_v26 (ix2 R (0 : Fin 1))
  congr 1
  funext a; apply Fin.ext
  match a with
  | ⟨0, _⟩ => show win4_2.index t (0 : Fin 2) * 2048 + 1 * r.val = R.val; omega
  | ⟨1, _⟩ => show win4_2.index t (1 : Fin 2) * 1 + 1 * 0 = 0; omega

private theorem wbuf4_apply (c : Dev nD) (t : Fin cfg4.N) (h : Fin 1024) (k : Fin 512) (C : Fin 20002)
    (hC : C.val = 512 * (t.val % 40) + k.val) :
    (wbuf4 V c t : Vec Ideal S1024x512 .bf16) (ix2 h k) = wArr4 V c (ix2 h C) := by
  obtain ⟨-, -, e0, e1, -, -, -, -, -, ej⟩ := idx4 t
  have hC2 : C.val < 20002 := C.isLt
  unfold wbuf4 Window.fill
  rw [dif_pos ((win4_1.moved_iff _ _).mpr (moved4 (grid4.coords t) h k (by
    show (grid4.coords t 1).val * 512 + k.val < 20002; rw [ej]; omega)))]
  show V c main_v21 (((cfg4.win 1).blk t).view.emb _) = V c main_v21 (ix2 h C)
  congr 1
  funext a; apply Fin.ext
  match a with
  | ⟨0, _⟩ => show win4_1.index t (0 : Fin 2) * 1024 + 1 * h.val = h.val; omega
  | ⟨1, _⟩ => show win4_1.index t (1 : Fin 2) * 512 + 1 * k.val = C.val; omega

private theorem stAt4_first (c : Dev nD) (n : ℕ) (hn : n < cfg4.N) (h0 : n % 40 = 0) :
    stAt4 V c n hn = step4 (grid4.coords ⟨n, hn⟩) (iblk4 V c 0 ⟨n, hn⟩) (wbuf4 V c ⟨n, hn⟩) (iblk4 V c 2 ⟨n, hn⟩) init4 := by
  cases n with
  | zero => rfl
  | succ n => rw [stAt4, if_pos h0]

private theorem stAt4_next (c : Dev nD) (n : ℕ) (hn : n + 1 < cfg4.N) (h0 : (n + 1) % 40 ≠ 0) :
    stAt4 V c (n + 1) hn = step4 (grid4.coords ⟨n + 1, hn⟩) (iblk4 V c 0 ⟨n + 1, hn⟩) (wbuf4 V c ⟨n + 1, hn⟩) (iblk4 V c 2 ⟨n + 1, hn⟩)
      (stAt4 V c n (Nat.lt_of_succ_lt hn)) := by
  rw [stAt4, if_neg h0]

private abbrev rowLogits4 (c : Dev nD) (R : Fin 4096) : Fin 20002 → EReal :=
  fun cc : Fin 20002 => ∑ h : Fin 1024, xArr4 V c (ix2 R h) * wArr4 V c (ix2 h cc)

private theorem step_at4 (c : Dev nD) (t : Fin cfg4.N) (r : Fin 2048) (R : Fin 4096) (hR : R.val = 2048 * (t.val / 40) + r.val) (st : St4) :
    Cert.Spec.St.mk ((step4 (grid4.coords t) (iblk4 V c 0 t) (wbuf4 V c t) (iblk4 V c 2 t) st).1 (ix2 r (0 : Fin 1)))
        ((step4 (grid4.coords t) (iblk4 V c 0 t) (wbuf4 V c t) (iblk4 V c 2 t) st).2.1 (ix2 r (0 : Fin 1)))
        ((step4 (grid4.coords t) (iblk4 V c 0 t) (wbuf4 V c t) (iblk4 V c 2 t) st).2.2 (ix2 r (0 : Fin 1)))
      = Cert.Spec.St.step 512 (rowLogits4 V c R) (labArr4 V c (ix2 R (0 : Fin 1))).toNat (t.val % 40)
          (Cert.Spec.St.mk (st.1 (ix2 r (0 : Fin 1))) (st.2.1 (ix2 r (0 : Fin 1))) (st.2.2 (ix2 r (0 : Fin 1)))) := by
  obtain ⟨-, -, -, -, -, -, -, -, -, ej⟩ := idx4 t
  have h := step4_row (grid4.coords t) (iblk4 V c 0 t) (wbuf4 V c t) (iblk4 V c 2 t) st r (rowLogits4 V c R)
    (fun k hk => Finset.sum_congr rfl fun h _ =>
      congrArg₂ (· * ·) (xblk4_apply V c t r h R hR) (wbuf4_apply V c t h k ⟨(grid4.coords t 1).val * 512 + k.val, hk⟩ (by show (grid4.coords t 1).val * 512 + k.val = _; rw [ej]; omega)))
  rw [lblk4_apply V c t r R hR, ej] at h
  exact h

private theorem row_run4 (c : Dev nD) (r : Fin 2048) (R : Fin 4096) :
    ∀ (n : ℕ) (hn : n < cfg4.N), R.val = 2048 * (n / 40) + r.val →
      Cert.Spec.St.mk ((stAt4 V c n hn).1 (ix2 r (0 : Fin 1))) ((stAt4 V c n hn).2.1 (ix2 r (0 : Fin 1)))
          ((stAt4 V c n hn).2.2 (ix2 r (0 : Fin 1)))
        = Cert.Spec.St.run 512 (rowLogits4 V c R) (labArr4 V c (ix2 R (0 : Fin 1))).toNat (n % 40 + 1) :=
  run_of_steps _ _ (fun n => R.val = 2048 * (n / 40) + r.val) _
    (fun n (hb : R.val = 2048 * ((n + 1) / 40) + r.val) hz => (by omega : R.val = 2048 * (n / 40) + r.val))
    (fun n hn hR h0 => by rw [stAt4_first V c n hn h0, step_at4 V c ⟨n, hn⟩ r R hR init4, init4_row])
    (fun n hn hR h0 => by rw [stAt4_next V c n hn h0, step_at4 V c ⟨n + 1, hn⟩ r R hR _])

private abbrev G4 (c : Dev nD) : FVec Ideal S4096x1 .f32 :=
  fun i => Cert.Spec.ceKer 512 40 (rowLogits4 V c (i 0)) (labArr4 V c (ix2 (i 0) (0 : Fin 1))).toNat

private theorem flushed4_eq (c : Dev nD) (t : Fin cfg4.N) (hf : (cfg4.win 3).flush t = true) :
    (dat4 V c).flushed 3 t = ((cfg4.win 3).blk t).view.read (Elt Ideal) (G4 V c) := by
  have h39 : t.val % 40 = 39 := (flush4_3 t).mp hf
  obtain ⟨-, -, -, -, -, -, e0, e1, -⟩ := idx4 t
  have hN : t.val < 80 := Nat.lt_of_lt_of_eq (show t.val < grid4.N from t.isLt) N_4
  show (cfg4.win 3).cut (grid4.coords t) ((dat4 V c).after 3 t) = _
  dsimp only [dat4]
  funext y
  have hy1 : (y 1).val < 1 := (y 1).isLt
  obtain ⟨r, hr⟩ : ∃ r : Fin 2048, r.val = (y 0).val := ⟨⟨(y 0).val, (y 0).isLt⟩, rfl⟩
  obtain ⟨R, hR⟩ : ∃ R : Fin 4096, R.val = 2048 * (t.val / 40) + r.val :=
    ⟨⟨2048 * (t.val / 40) + r.val, by have := r.isLt; omega⟩, rfl⟩
  have ein : win4_3.xinj (grid4.coords t) y = ix2 r (0 : Fin 1) :=
    funext fun a => Fin.ext (by
      match a with
      | ⟨0, _⟩ => exact hr.symm
      | ⟨1, _⟩ => show (y 1).val = 0; omega)
  have eout : ((cfg4.win 3).blk t).view.emb y = ix2 R (0 : Fin 1) :=
    funext fun a => Fin.ext (by
      match a with
      | ⟨0, _⟩ => show win4_3.index t (0 : Fin 2) * 2048 + 1 * (y 0).val = R.val; omega
      | ⟨1, _⟩ => show win4_3.index t (1 : Fin 2) * 1 + 1 * (y 1).val = 0; omega)
  have hrun := row_run4 V c r R t.val t.isLt hR
  rw [h39] at hrun
  show out4 (stAt4 V c t.val t.isLt) (win4_3.xinj (grid4.coords t) y) = G4 V c (((cfg4.win 3).blk t).view.emb y)
  rw [ein, eout, out4_row]
  exact congrArg (fun s : Cert.Spec.St => (s.m + Ideal.log s.l) - s.sel) hrun

theorem out4_val (c : Dev nD) (R : Fin 4096) :
    outArr4 V c (ix2 R (0 : Fin 1))
      = Cert.Spec.ceKer 512 40 (fun cc : Fin 20002 => ∑ h : Fin 1024, xArr4 V c (ix2 R h) * wArr4 V c (ix2 h cc))
          (labArr4 V c (ix2 R (0 : Fin 1))).toNat := by
  have hR : R.val < 4096 := R.isLt
  obtain ⟨T, hT⟩ : ∃ T : Fin cfg4.N, T.val = 40 * (R.val / 2048) + 39 :=
    ⟨⟨40 * (R.val / 2048) + 39, by rw [show cfg4.N = grid4.N from rfl, N_4]; omega⟩, rfl⟩
  have hf : (cfg4.win 3).flush T = true := (flush4_3 T).mpr (by omega)
  obtain ⟨-, -, -, -, -, -, e0, e1, -⟩ := idx4 T
  have hmem : ix2 R (0 : Fin 1) ∈ ((cfg4.win 3).blk T).view.set := by
    show _ ∈ ((View.whole main_v37).slice (win4_3.rect T)).set
    rw [View.set_slice_whole, Rect.mem_set_unit]
    intro a
    match a with
    | ⟨0, _⟩ => show win4_3.index T (0 : Fin 2) * 2048 ≤ R.val ∧ R.val < win4_3.index T (0 : Fin 2) * 2048 + 2048; omega
    | ⟨1, _⟩ => show win4_3.index T (1 : Fin 2) * 1 ≤ 0 ∧ 0 < win4_3.index T (1 : Fin 2) * 1 + 1; omega
  exact (dat4 V c).arrAt_apply_of_mem 3 (G4 V c) (flushed4_eq V c) cfg4.N T (ix2 R (0 : Fin 1)) T.isLt hf hmem

end Cert.KernelIdeal.Hand

end
-- ==== Proof.Ideal.Words.lean ====
import proofs.«427659_j7121055776931_3_alg».proof.Proof.Spec
import Idealize.ShloMosaic.PureOps
import Idealize.ShloMosaic.Lib.StableHlo.Predicate
import Idealize.ShloMosaic.Lib.ValueIdx
import Idealize.ShloMosaic.Lib.WordArith
import Idealize.ShloMosaic.Lib.Affine
noncomputable section
namespace Cert.KernelIdeal.Words
open Idealize.ShloMosaic
theorem toInt_19999 : (19999#32 : BitVec 32).toInt = 19999 := by decide
theorem andi_ofBool (a b : Bool) : IntOp.andi (BitVec.ofBool a) (BitVec.ofBool b) = 1#1 ↔ a = true ∧ b = true := by
  cases a <;> cases b <;> decide
theorem range_iff (L lo hi : BitVec 32) :
    IntOp.andi (IntOp.cmpi .sge L lo) (IntOp.cmpi .slt L hi) = 1#1 ↔ lo.toInt ≤ L.toInt ∧ L.toInt < hi.toInt := by
  rw [IntOp.andi_eq_one, IntOp.cmpi_sge, IntOp.cmpi_slt]
theorem toInt_minsi (x y : BitVec 32) : (IntOp.minsi x y).toInt = min x.toInt y.toInt := by
  unfold IntOp.minsi BitVec.slt
  split <;> rename_i hc <;> simp only [decide_eq_true_eq] at hc <;> omega
theorem toNat_of_nonneg (x : BitVec 32) (h : 0 ≤ x.toInt) : x.toNat = x.toInt.toNat := by
  have hc := BitVec.toInt_eq_toNat_cond x
  have hlt := x.isLt
  split at hc <;> omega
/-- The two range tests both hold of a label exactly when it lies in tail `k`. -/
theorem mask_iff (k : ℕ) (lo hi L : BitVec 32) (hlo : lo.toInt = 20000 * ((k : ℤ) + 1)) (hhi : hi.toInt = 20000 * ((k : ℤ) + 2)) :
    IntOp.andi (IntOp.cmpi .sge L lo) (IntOp.cmpi .slt L hi) = 1#1 ↔ Cert.Spec.inTail k L.toInt = true := by
  rw [range_iff, hlo, hhi]
  unfold Cert.Spec.inTail
  simp only [decide_eq_true_eq]
theorem mask0_iff (L : BitVec 32) : IntOp.andi (IntOp.cmpi .sge L 20000#32) (IntOp.cmpi .slt L 40000#32) = 1#1 ↔ Cert.Spec.inTail 0 L.toInt = true :=
  mask_iff 0 _ _ L (by decide) (by decide)
theorem mask1_iff (L : BitVec 32) : IntOp.andi (IntOp.cmpi .sge L 40000#32) (IntOp.cmpi .slt L 60000#32) = 1#1 ↔ Cert.Spec.inTail 1 L.toInt = true :=
  mask_iff 1 _ _ L (by decide) (by decide)
/-- The label less the start of tail `k`, clamped to `[0, 19999]`, is its class inside that tail. -/
theorem clip (k : ℕ) (hk : k ≤ 1) (lo L : BitVec 32) (hlo : lo.toInt = 20000 * ((k : ℤ) + 1)) (h : 0 ≤ L.toInt ∧ L.toInt < 60000) :
    (IntOp.minsi 19999#32 (IntOp.maxsi 0#32 (IntOp.subi L lo))).toNat = Cert.Spec.tailClass k L.toInt := by
  have hv : (IntOp.minsi 19999#32 (IntOp.maxsi 0#32 (IntOp.subi L lo))).toInt = min 19999 (max 0 (L.toInt - lo.toInt)) := by
    rw [toInt_minsi, WordArith.toInt_maxsi_zero, toInt_19999]
    exact congrArg (fun z => min 19999 (max 0 z)) (WordArith.toInt_sub_of_bounds L lo (by omega) (by omega))
  rw [toNat_of_nonneg _ (by rw [hv]; omega), hv, hlo]
  unfold Cert.Spec.tailClass
  omega
theorem clip0 (L : BitVec 32) (h : 0 ≤ L.toInt ∧ L.toInt < 60000) : (IntOp.minsi 19999#32 (IntOp.maxsi 0#32 (IntOp.subi L 20000#32))).toNat = Cert.Spec.tailClass 0 L.toInt :=
  clip 0 (by decide) _ L (by decide) h
theorem clip1 (L : BitVec 32) (h : 0 ≤ L.toInt ∧ L.toInt < 60000) : (IntOp.minsi 19999#32 (IntOp.maxsi 0#32 (IntOp.subi L 40000#32))).toNat = Cert.Spec.tailClass 1 L.toInt :=
  clip 1 (by decide) _ L (by decide) h
theorem head (L : BitVec 32) (h : 0 ≤ L.toInt ∧ L.toInt < 60000) : (Scalar.select (IntOp.andi (IntOp.cmpi .sge L 40000#32) (IntOp.cmpi .slt L 60000#32)) 20001#32 (Scalar.select (IntOp.andi (IntOp.cmpi .sge L 20000#32) (IntOp.cmpi .slt L 40000#32)) 20000#32 L)).toNat = Cert.Spec.headClass L.toInt := by
  unfold Cert.Spec.headClass
  by_cases h1 : IntOp.andi (IntOp.cmpi .sge L 40000#32) (IntOp.cmpi .slt L 60000#32) = 1#1
  · rw [h1, ValueIdx.select_one, if_pos ((mask1_iff L).mp h1)]; decide
  · rw [ValueIdx.eq_zero_of_ne_one h1, ValueIdx.select_zero, if_neg (fun e => h1 ((mask1_iff L).mpr e))]
    by_cases h0 : IntOp.andi (IntOp.cmpi .sge L 20000#32) (IntOp.cmpi .slt L 40000#32) = 1#1
    · rw [h0, ValueIdx.select_one, if_pos ((mask0_iff L).mp h0)]; decide
    · rw [ValueIdx.eq_zero_of_ne_one h0, ValueIdx.select_zero, if_neg (fun e => h0 ((mask0_iff L).mpr e))]
      exact toNat_of_nonneg L h.1
theorem bit_pos (b : BitVec 1) : (0 : EReal) < ((b.toNat : ℝ) : EReal) ↔ b = 1#1 := by
  rcases BitVec.eq_zero_or_eq_one b with rfl | rfl
  · constructor
    · intro hp
      rw [EReal.coe_pos] at hp
      exact absurd hp (by norm_num)
    · intro he; exact absurd he (by decide)
  · constructor
    · intro _; rfl
    · intro _
      rw [EReal.coe_pos]
      norm_num
end Cert.KernelIdeal.Words
end
-- ==== Proof.Ideal.HostGlue.lean ====
import proofs.«427659_j7121055776931_3_alg».proof.Proof.Gen.KernelIdeal.Regions
import proofs.«427659_j7121055776931_3_alg».proof.Proof.Ideal.Words
import Idealize.ShloMosaic.Lib.Pipeline.Value
import Idealize.ShloMosaic.Lib.StableHlo.Run
set_option maxRecDepth 16384
noncomputable section
namespace Cert.KernelIdeal.Hand
open Cert.KernelIdeal Cert.KernelIdeal.Gen Idealize.ShloMosaic Idealize.ShloMosaic.TcCoe Idealize.ShloMosaic.ValueIdx Idealize.SL.Sem Idealize.ShloMosaic.StableHlo
variable (m : (ℓ : Loc nD τ sig) → Buf (Elt Ideal) ℓ)
abbrev inpA (c : Dev nD) : FVec Ideal S8x512x1024 .f32 := m ((c.tc : Thread nD τ).loc main_arg0)
abbrev labA (c : Dev nD) : IVec S8x512 32 := m ((c.tc : Thread nD τ).loc main_arg1)
abbrev hwA (c : Dev nD) : FVec Ideal S1024x20002 .f32 := m ((c.tc : Thread nD τ).loc main_arg2)
abbrev p0A (c : Dev nD) : FVec Ideal S1024x256 .f32 := m ((c.tc : Thread nD τ).loc main_arg3)
abbrev w0A (c : Dev nD) : FVec Ideal S256x20000 .f32 := m ((c.tc : Thread nD τ).loc main_arg4)
abbrev p1A (c : Dev nD) : FVec Ideal S1024x64 .f32 := m ((c.tc : Thread nD τ).loc main_arg5)
abbrev w1A (c : Dev nD) : FVec Ideal S64x20000 .f32 := m ((c.tc : Thread nD τ).loc main_arg6)
abbrev g20 (c : Dev nD) : FVec Ideal S4096x1024 .bf16 := Gen.V9 m c main_v20
abbrev g21 (c : Dev nD) : FVec Ideal S1024x20002 .bf16 := Gen.V9 m c main_v21
abbrev g22 (c : Dev nD) : FVec Ideal S1024x256 .bf16 := Gen.V9 m c main_v22
abbrev g23 (c : Dev nD) : FVec Ideal S256x20000 .bf16 := Gen.V9 m c main_v23
abbrev g24 (c : Dev nD) : FVec Ideal S1024x64 .bf16 := Gen.V9 m c main_v24
abbrev g25 (c : Dev nD) : FVec Ideal S64x20000 .bf16 := Gen.V9 m c main_v25
abbrev g26 (c : Dev nD) : IVec S4096x1 32 := Gen.V9 m c main_v26
abbrev g27 (c : Dev nD) : IVec S4096x1 32 := Gen.V9 m c main_v27
abbrev g28 (c : Dev nD) : IVec S4096x1 32 := Gen.V9 m c main_v28
abbrev g30 (c : Dev nD) : FVec Ideal S4096x1 .f32 := Gen.V9 m c main_v30
abbrev g32 (c : Dev nD) : FVec Ideal S4096x1 .f32 := Gen.V9 m c main_v32
theorem e21 (c : Dev nD) : @Eq (FVec Ideal S1024x20002 .bf16) (Gen.V9 m c main_v21)
    (truncf (F := Ideal) .bf16 (hwA m c) bitsLt_bf16_f32) := by
  after_results_simp <;> rfl
theorem e22 (c : Dev nD) : @Eq (FVec Ideal S1024x256 .bf16) (Gen.V9 m c main_v22)
    (truncf (F := Ideal) .bf16 (p0A m c) bitsLt_bf16_f32) := by
  after_results_simp <;> rfl
theorem e23 (c : Dev nD) : @Eq (FVec Ideal S256x20000 .bf16) (Gen.V9 m c main_v23)
    (truncf (F := Ideal) .bf16 (w0A m c) bitsLt_bf16_f32) := by
  after_results_simp <;> rfl
theorem e24 (c : Dev nD) : @Eq (FVec Ideal S1024x64 .bf16) (Gen.V9 m c main_v24)
    (truncf (F := Ideal) .bf16 (p1A m c) bitsLt_bf16_f32) := by
  after_results_simp <;> rfl
theorem e25 (c : Dev nD) : @Eq (FVec Ideal S64x20000 .bf16) (Gen.V9 m c main_v25)
    (truncf (F := Ideal) .bf16 (w1A m c) bitsLt_bf16_f32) := by
  after_results_simp <;> rfl
theorem glue_21 (c : Dev nD) (i : S1024x20002.Idx) : g21 m c i = hwA m c i := by
  unfold g21
  rw [e21 m c, truncf_apply]
theorem glue_22 (c : Dev nD) (i : S1024x256.Idx) : g22 m c i = p0A m c i := by
  unfold g22
  rw [e22 m c, truncf_apply]
theorem glue_23 (c : Dev nD) (i : S256x20000.Idx) : g23 m c i = w0A m c i := by
  unfold g23
  rw [e23 m c, truncf_apply]
theorem glue_24 (c : Dev nD) (i : S1024x64.Idx) : g24 m c i = p1A m c i := by
  unfold g24
  rw [e24 m c, truncf_apply]
theorem glue_25 (c : Dev nD) (i : S64x20000.Idx) : g25 m c i = w1A m c i := by
  unfold g25
  rw [e25 m c, truncf_apply]
theorem e0 (c : Dev nD) : @Eq (FVec Ideal S4096x1024 .f32) (Gen.V1 m c main_v0)
    (shapeCast S4096x1024 (inpA m c) shapeCasts_S8x512x1024_S4096x1024) := by
  after_results_simp
  rfl
theorem e20 (c : Dev nD) : @Eq (FVec Ideal S4096x1024 .bf16) (Gen.V9 m c main_v20)
    (truncf (F := Ideal) .bf16 (shapeCast S4096x1024 (inpA m c) shapeCasts_S8x512x1024_S4096x1024) bitsLt_bf16_f32) := by
  after_results_simp <;> rfl
theorem reshape_x_apply (x : FVec Ideal S8x512x1024 .f32) (R : Fin 4096) (h : Fin 1024) :
    shapeCast S4096x1024 x shapeCasts_S8x512x1024_S4096x1024 (ix2 R h) = Cert.Spec.xrow x R h := by
  unfold Cert.Spec.xrow
  refine shapeCast_apply _ _ _ _ ?_
  rw [Shape.rowMajor_val_three, Shape.rowMajor_val_two]
  show (R.val / 512 * 512 + R.val % 512) * 1024 + h.val = R.val * 1024 + h.val
  omega
theorem glue_20 (c : Dev nD) (R : Fin 4096) (h : Fin 1024) : g20 m c (ix2 R h) = Cert.Spec.xrow (inpA m c) R h := by
  unfold g20
  rw [e20 m c, truncf_apply]
  exact reshape_x_apply _ R h
def labRow (lab : IVec S8x512 32) : IVec S4096 32 := shapeCast S4096 lab shapeCasts_S8x512_S4096
def cst (w : BitVec 32) : IVec S4096 32 := broadcastInDim S4096 ![] bcast_S_S4096 (constantI S_ 32 w)
def maskOf (lo hi : BitVec 32) (l : IVec S4096 32) : IVec S4096 1 := andi (cmpi .sge l (cst lo)) (cmpi .slt l (cst hi))
def clipOf (lo : BitVec 32) (l : IVec S4096 32) : IVec S4096 32 := minsi (cst 19999#32) (maxsi (cst 0#32) (subi l (cst lo)))
def headOf (l : IVec S4096 32) : IVec S4096 32 :=
  select (maskOf 40000#32 60000#32 l) (cst 20001#32) (select (maskOf 20000#32 40000#32 l) (cst 20000#32) l)
theorem e1 (c : Dev nD) : @Eq (IVec S4096 32) (Gen.V1 m c main_v1) (labRow (labA m c)) := by
  after_results_simp
  rfl
theorem e6 (c : Dev nD) : @Eq (IVec S4096 1) (Gen.V1 m c main_v6) (maskOf 20000#32 40000#32 (labRow (labA m c))) := by
  after_results_simp
  rfl
theorem e26 (c : Dev nD) : @Eq (IVec S4096x1 32) (Gen.V9 m c main_v26)
    (shapeCast S4096x1 (headOf (labRow (labA m c))) shapeCasts_S4096_S4096x1) := by
  after_results_simp <;> rfl
theorem e27 (c : Dev nD) : @Eq (IVec S4096x1 32) (Gen.V9 m c main_v27)
    (shapeCast S4096x1 (clipOf 20000#32 (labRow (labA m c))) shapeCasts_S4096_S4096x1) := by
  after_results_simp <;> rfl
theorem e28 (c : Dev nD) : @Eq (IVec S4096x1 32) (Gen.V9 m c main_v28)
    (shapeCast S4096x1 (clipOf 40000#32 (labRow (labA m c))) shapeCasts_S4096_S4096x1) := by
  after_results_simp <;> rfl
theorem e30 (c : Dev nD) : @Eq (FVec Ideal S4096x1 .f32) (Gen.V9 m c main_v30)
    (uitofp (F := Ideal) .f32 (shapeCast S4096x1 (maskOf 20000#32 40000#32 (labRow (labA m c))) shapeCasts_S4096_S4096x1)) := by
  after_results_simp <;> rfl
theorem e32 (c : Dev nD) : @Eq (FVec Ideal S4096x1 .f32) (Gen.V9 m c main_v32)
    (uitofp (F := Ideal) .f32 (shapeCast S4096x1 (maskOf 40000#32 60000#32 (labRow (labA m c))) shapeCasts_S4096_S4096x1)) := by
  after_results_simp <;> rfl
theorem labRow_apply (lab : IVec S8x512 32) (R : Fin 4096) :
    labRow lab (ix1 R) = lab (ix2 (⟨R.val / 512, by have := R.isLt; omega⟩ : Fin 8) (⟨R.val % 512, Nat.mod_lt _ (by decide)⟩ : Fin 512)) := by
  unfold labRow
  refine shapeCast_apply _ _ _ _ ?_
  rw [Shape.rowMajor_val_two, Shape.rowMajor_val_one]
  show R.val / 512 * 512 + R.val % 512 = R.val
  omega
theorem col_apply {α : Type} (x : S4096.Idx → α) (R : Fin 4096) :
    shapeCast S4096x1 x shapeCasts_S4096_S4096x1 (ix2 R (0 : Fin 1)) = x (ix1 R) := by
  refine shapeCast_apply _ _ _ _ ?_
  rw [Shape.rowMajor_val_two, Shape.rowMajor_val_one]
  show R.val = R.val * 1 + 0
  omega
theorem maskOf_apply (lo hi : BitVec 32) (l : IVec S4096 32) (i : S4096.Idx) :
    maskOf lo hi l i = IntOp.andi (IntOp.cmpi .sge (l i) lo) (IntOp.cmpi .slt (l i) hi) := rfl
theorem clipOf_apply (lo : BitVec 32) (l : IVec S4096 32) (i : S4096.Idx) :
    clipOf lo l i = IntOp.minsi 19999#32 (IntOp.maxsi 0#32 (IntOp.subi (l i) lo)) := rfl
theorem headOf_apply (l : IVec S4096 32) (i : S4096.Idx) :
    headOf l i = Scalar.select (IntOp.andi (IntOp.cmpi .sge (l i) 40000#32) (IntOp.cmpi .slt (l i) 60000#32)) 20001#32
      (Scalar.select (IntOp.andi (IntOp.cmpi .sge (l i) 20000#32) (IntOp.cmpi .slt (l i) 40000#32)) 20000#32 (l i)) := rfl
theorem glue_26 (c : Dev nD) (hlab : ∀ i, 0 ≤ (labA m c i).toInt ∧ (labA m c i).toInt < 60000) (R : Fin 4096) :
    (g26 m c (ix2 R (0 : Fin 1))).toNat = Cert.Spec.headClass (Cert.Spec.labAt (labA m c) R) := by
  unfold g26
  rw [e26 m c, col_apply, headOf_apply, labRow_apply]
  exact Words.head _ (hlab _)
theorem glue_27 (c : Dev nD) (hlab : ∀ i, 0 ≤ (labA m c i).toInt ∧ (labA m c i).toInt < 60000) (R : Fin 4096) :
    (g27 m c (ix2 R (0 : Fin 1))).toNat = Cert.Spec.tailClass 0 (Cert.Spec.labAt (labA m c) R) := by
  unfold g27
  rw [e27 m c, col_apply, clipOf_apply, labRow_apply]
  exact Words.clip0 _ (hlab _)
theorem glue_28 (c : Dev nD) (hlab : ∀ i, 0 ≤ (labA m c i).toInt ∧ (labA m c i).toInt < 60000) (R : Fin 4096) :
    (g28 m c (ix2 R (0 : Fin 1))).toNat = Cert.Spec.tailClass 1 (Cert.Spec.labAt (labA m c) R) := by
  unfold g28
  rw [e28 m c, col_apply, clipOf_apply, labRow_apply]
  exact Words.clip1 _ (hlab _)
theorem glue_30 (c : Dev nD) (R : Fin 4096) :
    ((0 : EReal) < g30 m c (ix2 R (0 : Fin 1))) ↔ Cert.Spec.inTail 0 (Cert.Spec.labAt (labA m c) R) = true := by
  unfold g30
  rw [e30 m c]
  show (0 : EReal) < (((shapeCast S4096x1 (maskOf 20000#32 40000#32 (labRow (labA m c))) shapeCasts_S4096_S4096x1 (ix2 R (0 : Fin 1))).toNat : ℝ) : EReal) ↔ _
  rw [col_apply, maskOf_apply, labRow_apply, Words.bit_pos]
  exact Words.mask0_iff _
theorem glue_32 (c : Dev nD) (R : Fin 4096) :
    ((0 : EReal) < g32 m c (ix2 R (0 : Fin 1))) ↔ Cert.Spec.inTail 1 (Cert.Spec.labAt (labA m c) R) = true := by
  unfold g32
  rw [e32 m c]
  show (0 : EReal) < (((shapeCast S4096x1 (maskOf 40000#32 60000#32 (labRow (labA m c))) shapeCasts_S4096_S4096x1 (ix2 R (0 : Fin 1))).toNat : ℝ) : EReal) ↔ _
  rw [col_apply, maskOf_apply, labRow_apply, Words.bit_pos]
  exact Words.mask1_iff _
end Cert.KernelIdeal.Hand
end
-- ==== Proof.LibIdx.lean ====
import Idealize.ShloMosaic.Lib.ValueIdx
import Idealize.ShloMosaic.Lib.Pipeline.Value
namespace Cert
open Idealize.ShloMosaic Idealize.ShloMosaic.ValueIdx
theorem idx1_ext {n : ℕ} (i j : (⟨1, ![n]⟩ : Shape).Idx) (h0 : (i 0).val = (j 0).val) : i = j := by
  funext a; apply Fin.ext
  match a with
  | ⟨0, _⟩ => exact h0
theorem concat3_apply {α : Type} (x0 x1 x2 : (⟨1, ![4096]⟩ : Shape).Idx → α)
    (h : Shape.Concatenates [(⟨1, ![4096]⟩ : Shape), ⟨1, ![4096]⟩, ⟨1, ![4096]⟩] ⟨1, ![12288]⟩ 0) (a : Fin 12288) :
    concatenate ⟨1, ![12288]⟩ 0 [⟨⟨1, ![4096]⟩, x0⟩, ⟨⟨1, ![4096]⟩, x1⟩, ⟨⟨1, ![4096]⟩, x2⟩] h (ix1 a)
      = if h0 : a.val < 4096 then x0 (ix1 ⟨a.val, h0⟩)
        else if h1 : a.val < 8192 then x1 (ix1 ⟨a.val - 4096, by omega⟩)
        else x2 (ix1 ⟨a.val - 8192, by have := a.isLt; omega⟩) := by
  have hoff : ∀ (s₁ : Shape) (hr : s₁.rank = (⟨1, ![12288]⟩ : Shape).rank) (b : Fin s₁.rank),
      b.cast hr ≠ (0 : Fin (⟨1, ![12288]⟩ : Shape).rank) → False := fun s₁ hr b hb => hb (Subsingleton.elim _ _)
  by_cases h0 : a.val < 4096
  · rw [dif_pos h0]
    exact concatenate_apply_piece 0 ([⟨⟨1, ![4096]⟩, x0⟩, ⟨⟨1, ![4096]⟩, x1⟩, ⟨⟨1, ![4096]⟩, x2⟩] : List ((s : Shape) × (s.Idx → α)))
      h (ix1 a) 0 (by simp) ⟨1, ![4096]⟩ x0 rfl rfl 0 rfl (ix1 ⟨a.val, h0⟩)
      (fun b hb => (hoff _ rfl b hb).elim) (by show 0 + a.val = a.val; omega)
  · rw [dif_neg h0]
    by_cases h1 : a.val < 8192
    · rw [dif_pos h1]
      exact concatenate_apply_piece 0 ([⟨⟨1, ![4096]⟩, x0⟩, ⟨⟨1, ![4096]⟩, x1⟩, ⟨⟨1, ![4096]⟩, x2⟩] : List ((s : Shape) × (s.Idx → α)))
        h (ix1 a) 1 (by simp) ⟨1, ![4096]⟩ x1 rfl rfl 4096 rfl (ix1 ⟨a.val - 4096, by omega⟩)
        (fun b hb => (hoff _ rfl b hb).elim) (by show 4096 + (a.val - 4096) = a.val; omega)
    · rw [dif_neg h1]
      exact concatenate_apply_piece 0 ([⟨⟨1, ![4096]⟩, x0⟩, ⟨⟨1, ![4096]⟩, x1⟩, ⟨⟨1, ![4096]⟩, x2⟩] : List ((s : Shape) × (s.Idx → α)))
        h (ix1 a) 2 (by simp) ⟨1, ![4096]⟩ x2 rfl rfl 8192 rfl (ix1 ⟨a.val - 8192, by have := a.isLt; omega⟩)
        (fun b hb => (hoff _ rfl b hb).elim) (by show 8192 + (a.val - 8192) = a.val; omega)
end Cert
-- ==== Proof.Ideal.Final.lean ====
import proofs.«427659_j7121055776931_3_alg».proof.Proof.Ideal.Bounds
import proofs.«427659_j7121055776931_3_alg».proof.Proof.Ideal.Val2
import proofs.«427659_j7121055776931_3_alg».proof.Proof.Ideal.Val3
import proofs.«427659_j7121055776931_3_alg».proof.Proof.Ideal.Val4
import proofs.«427659_j7121055776931_3_alg».proof.Proof.Ideal.HostGlue
import proofs.«427659_j7121055776931_3_alg».proof.Proof.LibNary3
import proofs.«427659_j7121055776931_3_alg».proof.Proof.LibIdx
set_option maxRecDepth 16384
noncomputable section
namespace Cert.KernelIdeal.Hand
open Cert.KernelIdeal Cert.KernelIdeal.Gen Idealize.ShloMosaic Idealize.ShloMosaic.TcCoe Idealize.ShloMosaic.ValueIdx Idealize.ShloMosaic.StableHlo
variable (m : (ℓ : Loc nD τ sig) → Buf (Elt Ideal) ℓ)
abbrev resA (c : Dev nD) : FVec Ideal S12288 .f32 := X15 m c (Proc.devRef .tc main_v41)
private theorem colVec_apply (X : FVec Ideal S4096x1 .f32) (r : Fin 4096) :
    shapeCast S4096 X shapeCasts_S4096x1_S4096 (ix1 r) = X (ix2 r (0 : Fin 1)) :=
  shapeCast_apply X shapeCasts_S4096x1_S4096 (ix1 r) (ix2 r (0 : Fin 1))
    (by rewrite [Shape.rowMajor_val_two, Shape.rowMajor_val_one]; show r.val * 1 + 0 = r.val; omega)
abbrev col0 (c : Dev nD) : FVec Ideal S4096x1 .f32 := X14 m c (Proc.devRef .tc main_v35)
abbrev col1 (c : Dev nD) : FVec Ideal S4096x1 .f32 := X14 m c (Proc.devRef .tc main_v36)
abbrev colH (c : Dev nD) : FVec Ideal S4096x1 .f32 := X14 m c (Proc.devRef .tc main_v37)
theorem resA_eq (c : Dev nD) :
    resA m c = concatenate S12288 0 [⟨S4096, shapeCast S4096 (col0 m c) shapeCasts_S4096x1_S4096⟩,
      ⟨S4096, shapeCast S4096 (col1 m c) shapeCasts_S4096x1_S4096⟩,
      ⟨S4096, shapeCast S4096 (colH m c) shapeCasts_S4096x1_S4096⟩] concatenates_S4096_S4096_S4096_S12288_d0 := by
  show StableHlo.after hostOps5 (X14 m c) (Proc.devRef .tc main_v41) = _
  simp only [StableHlo.after_cons, StableHlo.after_nil]
  rw [StableHlo.nary3_result]
  repeat (first | rw [StableHlo.reshape_result] | (rw [StableHlo.reshape_result_ne]; rotate_left; decide))
  rfl
theorem colH_eq (c : Dev nD) : colH m c = outArr4 (R13 m) c := X14_arr m c 3
theorem col1_eq (c : Dev nD) : col1 m c = outArr3 (R12 m) c :=
  (X14_of_ne m c main_v36 (by decide)).trans (X13_arr m c 4)
theorem col0_eq (c : Dev nD) : col0 m c = outArr2 (R11 m) c :=
  (X14_of_ne m c main_v35 (by decide)).trans ((X13_of_ne m c main_v35 (by decide)).trans (X12_arr m c 4))
theorem v20_at10 (c : Dev nD) : X10 m c (Proc.devRef .tc main_v20) = g20 m c :=
  (X10_arr m c 0).trans (in0_val (R9 m) c 0 (by decide))
theorem v20_at11 (c : Dev nD) : X11 m c (Proc.devRef .tc main_v20) = g20 m c :=
  ((X11_arr m c 0).trans (in1_val (R10 m) c 0 (by decide))).trans (v20_at10 m c)
theorem x4_eq (c : Dev nD) : xArr4 (R13 m) c = g20 m c :=
  (X13_of_ne m c main_v20 (by decide)).trans ((X12_of_ne m c main_v20 (by decide)).trans (v20_at11 m c))
theorem x1_eq (c : Dev nD) : xArr1 (R10 m) c = g20 m c := v20_at10 m c
theorem w4_eq (c : Dev nD) : wArr4 (R13 m) c = g21 m c :=
  (X13_of_ne m c main_v21 (by decide)).trans ((X12_of_ne m c main_v21 (by decide)).trans
    ((X11_of_ne m c main_v21 (by decide)).trans (X10_of_ne m c main_v21 (by decide))))
theorem lab4_eq (c : Dev nD) : labArr4 (R13 m) c = g26 m c :=
  (X13_of_ne m c main_v26 (by decide)).trans ((X12_of_ne m c main_v26 (by decide)).trans
    ((X11_of_ne m c main_v26 (by decide)).trans (X10_of_ne m c main_v26 (by decide))))
theorem w3_eq (c : Dev nD) : wArr3 (R12 m) c = g25 m c :=
  (X12_of_ne m c main_v25 (by decide)).trans ((X11_of_ne m c main_v25 (by decide)).trans (X10_of_ne m c main_v25 (by decide)))
theorem lab3_eq (c : Dev nD) : labArr3 (R12 m) c = g28 m c :=
  (X12_of_ne m c main_v28 (by decide)).trans ((X11_of_ne m c main_v28 (by decide)).trans (X10_of_ne m c main_v28 (by decide)))
theorem mask3_eq (c : Dev nD) : maskArr3 (R12 m) c = g32 m c :=
  (X12_of_ne m c main_v32 (by decide)).trans ((X11_of_ne m c main_v32 (by decide)).trans (X10_of_ne m c main_v32 (by decide)))
theorem w2_eq (c : Dev nD) : wArr2 (R11 m) c = g23 m c :=
  (X11_of_ne m c main_v23 (by decide)).trans (X10_of_ne m c main_v23 (by decide))
theorem lab2_eq (c : Dev nD) : labArr2 (R11 m) c = g27 m c :=
  (X11_of_ne m c main_v27 (by decide)).trans (X10_of_ne m c main_v27 (by decide))
theorem mask2_eq (c : Dev nD) : maskArr2 (R11 m) c = g30 m c :=
  (X11_of_ne m c main_v30 (by decide)).trans (X10_of_ne m c main_v30 (by decide))
theorem p1_eq (c : Dev nD) : pArr1 (R10 m) c = g24 m c := X10_of_ne m c main_v24 (by decide)
theorem x2_eq (c : Dev nD) : xArr2 (R11 m) c = outArr0 (R9 m) c :=
  (X11_of_ne m c main_v33 (by decide)).trans (X10_arr m c 2)
theorem x3_eq (c : Dev nD) : xArr3 (R12 m) c = outArr1 (R10 m) c :=
  (X12_of_ne m c main_v34 (by decide)).trans (X11_arr m c 2)
theorem proj0_row (c : Dev nD) (R : Fin 4096) (q : Fin 256) :
    outArr0 (R9 m) c (ix2 R q) = Cert.Spec.projRow (Cert.Spec.xrow (inpA m c) R) (p0A m c) q := by
  rw [out0_val]
  unfold Cert.Spec.projRow
  refine Finset.sum_congr rfl fun h _ => ?_
  rw [show xArr0 (R9 m) c = g20 m c from rfl, show pArr0 (R9 m) c = g22 m c from rfl, glue_20, glue_22]
theorem proj1_row (c : Dev nD) (R : Fin 4096) (q : Fin 64) :
    outArr1 (R10 m) c (ix2 R q) = Cert.Spec.projRow (Cert.Spec.xrow (inpA m c) R) (p1A m c) q := by
  rw [out1_val]
  unfold Cert.Spec.projRow
  refine Finset.sum_congr rfl fun h _ => ?_
  rw [x1_eq, p1_eq, glue_20, glue_24]
theorem lg0_row (c : Dev nD) (R : Fin 4096) :
    (fun cc : Fin 20000 => ∑ h : Fin 256, xArr2 (R11 m) c (ix2 R h) * wArr2 (R11 m) c (ix2 h cc))
      = Cert.Spec.logitRow (Cert.Spec.projRow (Cert.Spec.xrow (inpA m c) R) (p0A m c)) (w0A m c) := by
  funext cc
  unfold Cert.Spec.logitRow
  refine Finset.sum_congr rfl fun h _ => ?_
  rw [x2_eq, w2_eq, proj0_row, glue_23]
theorem lg1_row (c : Dev nD) (R : Fin 4096) :
    (fun cc : Fin 20000 => ∑ h : Fin 64, xArr3 (R12 m) c (ix2 R h) * wArr3 (R12 m) c (ix2 h cc))
      = Cert.Spec.logitRow (Cert.Spec.projRow (Cert.Spec.xrow (inpA m c) R) (p1A m c)) (w1A m c) := by
  funext cc
  unfold Cert.Spec.logitRow
  refine Finset.sum_congr rfl fun h _ => ?_
  rw [x3_eq, w3_eq, proj1_row, glue_25]
theorem lgH_row (c : Dev nD) (R : Fin 4096) :
    (fun cc : Fin 20002 => ∑ h : Fin 1024, xArr4 (R13 m) c (ix2 R h) * wArr4 (R13 m) c (ix2 h cc))
      = Cert.Spec.logitRow (Cert.Spec.xrow (inpA m c) R) (hwA m c) := by
  funext cc
  unfold Cert.Spec.logitRow
  refine Finset.sum_congr rfl fun h _ => ?_
  rw [x4_eq, w4_eq, glue_20, glue_21]
theorem tail0_row (c : Dev nD) (hlab : ∀ i, 0 ≤ (labA m c i).toInt ∧ (labA m c i).toInt < 60000) (R : Fin 4096) :
    col0 m c (ix2 R (0 : Fin 1))
      = if Cert.Spec.inTail 0 (Cert.Spec.labAt (labA m c) R) = true
        then Cert.Spec.ceKer 512 40 (Cert.Spec.logitRow (Cert.Spec.projRow (Cert.Spec.xrow (inpA m c) R) (p0A m c)) (w0A m c))
          (Cert.Spec.tailClass 0 (Cert.Spec.labAt (labA m c) R))
        else 0 := by
  rw [col0_eq, out2_val, lg0_row, lab2_eq, mask2_eq, glue_27 m c hlab]
  exact if_congr (glue_30 m c R) rfl rfl
theorem tail1_row (c : Dev nD) (hlab : ∀ i, 0 ≤ (labA m c i).toInt ∧ (labA m c i).toInt < 60000) (R : Fin 4096) :
    col1 m c (ix2 R (0 : Fin 1))
      = if Cert.Spec.inTail 1 (Cert.Spec.labAt (labA m c) R) = true
        then Cert.Spec.ceKer 512 40 (Cert.Spec.logitRow (Cert.Spec.projRow (Cert.Spec.xrow (inpA m c) R) (p1A m c)) (w1A m c))
          (Cert.Spec.tailClass 1 (Cert.Spec.labAt (labA m c) R))
        else 0 := by
  rw [col1_eq, out3_val, lg1_row, lab3_eq, mask3_eq, glue_28 m c hlab]
  exact if_congr (glue_32 m c R) rfl rfl
theorem head_row (c : Dev nD) (hlab : ∀ i, 0 ≤ (labA m c i).toInt ∧ (labA m c i).toInt < 60000) (R : Fin 4096) :
    colH m c (ix2 R (0 : Fin 1))
      = Cert.Spec.ceKer 512 40 (Cert.Spec.logitRow (Cert.Spec.xrow (inpA m c) R) (hwA m c))
          (Cert.Spec.headClass (Cert.Spec.labAt (labA m c) R)) := by
  rw [colH_eq, out4_val, lgH_row, lab4_eq, glue_26 m c hlab]
theorem kernel_result (c : Dev nD) (hlab : ∀ i, 0 ≤ (labA m c i).toInt ∧ (labA m c i).toInt < 60000) (a : Fin 12288) :
    resA m c (ix1 a)
      = Cert.Spec.outKer (Cert.Spec.paramsOf (inpA m c) (labA m c) (hwA m c) (p0A m c) (w0A m c) (p1A m c) (w1A m c)) a := by
  rw [resA_eq, concat3_apply]
  unfold Cert.Spec.outKer Cert.Spec.stack
  by_cases h0 : a.val < 4096
  · rw [dif_pos h0, dif_pos h0, colVec_apply, tail0_row m c hlab]
    rfl
  · rw [dif_neg h0, dif_neg h0]
    by_cases h1 : a.val < 8192
    · rw [dif_pos h1, dif_pos h1, colVec_apply, tail1_row m c hlab]
      rfl
    · rw [dif_neg h1, dif_neg h1, colVec_apply, head_row m c hlab]
      rfl
theorem X15_of_untouched (c : Dev nD) (r : Ref sig .tc) (h5 : r ∉ hostOps5_W) (h14 : ∀ w, Pipeline.arrRef spec4 w ≠ r)
    (h13 : ∀ w, Pipeline.arrRef spec3 w ≠ r) (h12 : ∀ w, Pipeline.arrRef spec2 w ≠ r) (h11 : ∀ w, Pipeline.arrRef spec1 w ≠ r)
    (h10 : ∀ w, Pipeline.arrRef spec0 w ≠ r) (h9 : r ∉ hostOps0_8_W) (h8 : r ∉ hostOps0_7_W) (h7 : r ∉ hostOps0_6_W)
    (h6 : r ∉ hostOps0_5_W) (h5' : r ∉ hostOps0_4_W) (h4 : r ∉ hostOps0_3_W) (h3 : r ∉ hostOps0_2_W) (h2 : r ∉ hostOps0_1_W)
    (h1 : r ∉ hostOps0_W) :
    X15 m c (Proc.devRef .tc r) = m ((c : Thread nD τ).loc r) :=
  (StableHlo.after_of_writes_sub hostOps5 (X14 m c) hostOps5_writes h5).trans <| (X14_of_ne m c r h14).trans <|
    (X13_of_ne m c r h13).trans <| (X12_of_ne m c r h12).trans <| (X11_of_ne m c r h11).trans <| (X10_of_ne m c r h10).trans <|
    (V9_of m c r h9).trans <| (V8_of m c r h8).trans <| (V7_of m c r h7).trans <| (V6_of m c r h6).trans <|
    (V5_of m c r h5').trans <| (V4_of m c r h4).trans <| (V3_of m c r h3).trans <| (V2_of m c r h2).trans <|
    (V1_of m c r h1).trans rfl
theorem X15_arg (c : Dev nD) :
    X15 m c (Proc.devRef .tc main_arg0) = m ((c : Thread nD τ).loc main_arg0)
    ∧ X15 m c (Proc.devRef .tc main_arg1) = m ((c : Thread nD τ).loc main_arg1)
    ∧ X15 m c (Proc.devRef .tc main_arg2) = m ((c : Thread nD τ).loc main_arg2)
    ∧ X15 m c (Proc.devRef .tc main_arg3) = m ((c : Thread nD τ).loc main_arg3)
    ∧ X15 m c (Proc.devRef .tc main_arg4) = m ((c : Thread nD τ).loc main_arg4)
    ∧ X15 m c (Proc.devRef .tc main_arg5) = m ((c : Thread nD τ).loc main_arg5)
    ∧ X15 m c (Proc.devRef .tc main_arg6) = m ((c : Thread nD τ).loc main_arg6) := by
  refine ⟨?_, ?_, ?_, ?_, ?_, ?_, ?_⟩ <;> (apply X15_of_untouched <;> decide)
end Cert.KernelIdeal.Hand
end
-- ==== Proof.Reference.lean ====
import proofs.«427659_j7121055776931_3_alg».proof.Proof.Spec
import proofs.«427659_j7121055776931_3_alg».proof.Proof.RefRead
import proofs.«427659_j7121055776931_3_alg».proof.Proof.LibIdx
import Idealize.ShloMosaic.PureOps.Ideal.Laws
import Idealize.ShloMosaic.PureOps.Reduce
import Idealize.ShloMosaic.Lib.ValueIdx
import Idealize.ShloMosaic.Lib.WordArith
import Idealize.ShloMosaic.Lib.Pipeline.Value

noncomputable section

open scoped BigOperators

namespace Cert.ReferenceIdeal.RefValue

open Idealize.ShloMosaic Idealize.ShloMosaic.ValueIdx

theorem idx2_ext {n0 n1 : ℕ} (i j : (⟨2, ![n0, n1]⟩ : Shape).Idx) (h0 : (i 0).val = (j 0).val)
    (h1 : (i 1).val = (j 1).val) : i = j := by
  funext a; apply Fin.ext
  match a with
  | ⟨0, _⟩ => exact h0
  | ⟨1, _⟩ => exact h1

theorem idx3_ext {n0 n1 n2 : ℕ} (i j : (⟨3, ![n0, n1, n2]⟩ : Shape).Idx) (h0 : (i 0).val = (j 0).val)
    (h1 : (i 1).val = (j 1).val) (h2 : (i 2).val = (j 2).val) : i = j := by
  funext a; apply Fin.ext
  match a with
  | ⟨0, _⟩ => exact h0
  | ⟨1, _⟩ => exact h1
  | ⟨2, _⟩ => exact h2

theorem ofBits_neg_inf : Ideal.ofBits .f32 0xFF800000#32 = (⊥ : EReal) := by simp [Ideal.ofBits, Ideal.ieee]

-- A row-wise maximum-reduce is the fold of `max` over the row.
theorem reduce_max_row {R n : ℕ} (lg : (⟨2, ![R, n]⟩ : Shape).Idx → EReal) (init : (⟨0, ![]⟩ : Shape).Idx → EReal)
    (h' : (⟨2, ![R, n]⟩ : Shape).ReducesTo [1] ⟨1, ![R]⟩) (h : (⟨2, ![R, n]⟩ : Shape).Reduces [1] ⟨1, ![R]⟩)
    (hu : 0 < (⟨0, ![]⟩ : Shape).numel) (j : (⟨1, ![R]⟩ : Shape).Idx) :
    Host.reduce (FloatOps.maximumf (F := Ideal) (φ := .f32)) lg init h' hu j
      = (Finset.univ : Finset (Fin n)).fold max (init (Shape.Idx.first hu)) (fun k : Fin n => lg (ix2 (j 0) k)) := by
  rw [Host.reduce_eq_fold_single _ lg init h' h hu j]
  show (Finset.univ : Finset (Fin n)).fold max (init (Shape.Idx.first hu)) (fun k : Fin n => lg (h.lift j k)) = _
  congr 1
  funext k
  exact congrArg lg (idx2_ext _ _ rfl rfl)

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

abbrev rowTakeDims (R n : ℕ)
    (wf : GatherDims.WF ⟨2, ![R, n]⟩ ⟨3, ![R, 1, 1]⟩ ⟨2, ![R, 1]⟩ [] [1] [0] [1] [0] 2 ![1, 1]) :
    GatherDims ⟨2, ![R, n]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

-- A take along the rows reads row `r` at the start index of row `r`, read signed and clamped into the row.
theorem gather_row_apply {α : Type} {R n w : ℕ} (hn : 0 < n)
    (wf : GatherDims.WF ⟨2, ![R, n]⟩ ⟨3, ![R, 1, 1]⟩ ⟨2, ![R, 1]⟩ [] [1] [0] [1] [0] 2 ![1, 1])
    (x : (⟨2, ![R, n]⟩ : Shape).Idx → α) (idx : IVec ⟨3, ![R, 1, 1]⟩ w) (y : (⟨2, ![R, 1]⟩ : Shape).Idx) :
    Host.gather (rowTakeDims R n wf) x idx y
      = x (ix2 (y 0) ⟨min (idx (ix3 (y 0) (y 1) 0)).toInt.toNat (n - 1), by omega⟩) := by
  unfold Host.gather
  congr 1
  refine idx2_ext _ _ ?_ ?_
  · show (rowTakeDims R n wf).start y idx 0 + (rowTakeDims R n wf).batchCoord y 0 + (rowTakeDims R n wf).offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · show (rowTakeDims R n wf).start y idx 1 + (rowTakeDims R n wf).batchCoord y 1 + (rowTakeDims R n wf).offCoord y 1
      = min (idx (ix3 (y 0) (y 1) 0)).toInt.toNat (n - 1)
    rw [GatherDims.batchCoord_eq_zero _ _ _ (show (1 : Fin 2) ∉ [(0 : Fin 2)] from by decide),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (rowTakeDims R n wf).siIdx y ⟨List.idxOf (1 : Fin 2) (rowTakeDims R n wf).startIndexMap,
        List.idxOf_lt_length_iff.2 (List.mem_singleton.mpr rfl)⟩ = ix3 (y 0) (y 1) 0 :=
      idx3_ext _ _ rfl rfl rfl
    rw [hsi]
    rfl

theorem gather_row_apply' {α : Type} {R n w : ℕ} (hn : 0 < n)
    (wf : GatherDims.WF ⟨2, ![R, n]⟩ ⟨3, ![R, 1, 1]⟩ ⟨2, ![R, 1]⟩ [] [1] [0] [1] [0] 2 ![1, 1])
    (x : (⟨2, ![R, n]⟩ : Shape).Idx → α) (idx : IVec ⟨3, ![R, 1, 1]⟩ w) (y : (⟨2, ![R, 1]⟩ : Shape).Idx) (col : Fin n)
    (hcol : min (idx (ix3 (y 0) (y 1) 0)).toInt.toNat (n - 1) = col.val) :
    Host.gather (rowTakeDims R n wf) x idx y = x (ix2 (y 0) col) := by
  rw [gather_row_apply hn]
  exact congrArg x (idx2_ext _ _ rfl hcol)

open Idealize.ShloMosaic.WordArith

theorem cmpi_sge (x y : BitVec 32) : IntOp.cmpi .sge x y = BitVec.ofBool (decide (y.toInt ≤ x.toInt)) := rfl
theorem cmpi_sle (x y : BitVec 32) : IntOp.cmpi .sle x y = BitVec.ofBool (decide (x.toInt ≤ y.toInt)) := rfl
theorem cmpi_slt (x y : BitVec 32) : IntOp.cmpi .slt x y = BitVec.ofBool (decide (x.toInt < y.toInt)) := rfl

theorem select_ofBool {α : Type} (b : Bool) (x y : α) : Scalar.select (BitVec.ofBool b) x y = if b then x else y := by
  cases b
  · exact select_zero x y
  · exact select_one x y

theorem mask_eq (L a b : BitVec 32) :
    IntOp.andi (IntOp.cmpi .sge L a) (IntOp.cmpi .slt L b)
      = BitVec.ofBool (decide (a.toInt ≤ L.toInt ∧ L.toInt < b.toInt)) := by
  rw [cmpi_sge, cmpi_slt, andi_ofBool, Bool.decide_and]

theorem toInt_minsi (x y : BitVec 32) : (IntOp.minsi x y).toInt = min x.toInt y.toInt := by
  unfold IntOp.minsi
  by_cases h : x.slt y = true
  · rw [if_pos h, min_eq_left (le_of_lt (BitVec.slt_iff_toInt_lt.mp h))]
  · rw [if_neg h, min_eq_right (not_lt.mp fun hh => h (BitVec.slt_iff_toInt_lt.mpr hh))]

-- The printed chain at a row (shifted logit less the log of the shifted exponentials' sum, negated) is the row's cross entropy.
theorem ce_row {n : ℕ} (s : Fin n → EReal) (lab : Fin n) :
    -((s lab - max ⊥ (Spec.rowMax s)) - Ideal.log (0 + ∑ c, Ideal.exp (s c - max ⊥ (Spec.rowMax s)))) = Spec.ceRef s lab := by
  unfold Spec.ceRef
  rw [max_eq_right bot_le, zero_add]

theorem wrap_eq (T n : BitVec 32) (h : 0 ≤ T.toInt) :
    Scalar.select (IntOp.cmpi .slt T 0#32) (IntOp.addi T n) T = T := by
  rw [cmpi_slt, select_ofBool, if_neg]
  rw [decide_eq_true_eq]
  exact not_lt.mpr h

theorem range_one (T hi : BitVec 32) (h0 : 0 ≤ T.toInt) (h1 : T.toInt ≤ hi.toInt) :
    IntOp.andi (IntOp.cmpi .sge T 0#32) (IntOp.cmpi .sle T hi) = 1#1 := by
  rw [cmpi_sge, cmpi_sle, andi_ofBool, decide_eq_true (show (0#32 : BitVec 32).toInt ≤ T.toInt from h0), decide_eq_true h1]
  rfl

theorem toInt_clip (s : BitVec 32) :
    (IntOp.minsi 19999#32 (IntOp.maxsi 0#32 s)).toInt = min 19999 (max 0 s.toInt) := by
  rw [toInt_minsi, toInt_maxsi_zero]
  rfl

theorem inTail_zero (L : ℤ) : Spec.inTail 0 L = decide (20000 ≤ L ∧ L < 40000) := by
  unfold Spec.inTail
  exact decide_eq_decide.mpr ⟨fun h => by omega, fun h => by omega⟩

theorem inTail_one (L : ℤ) : Spec.inTail 1 L = decide (40000 ≤ L ∧ L < 60000) := by
  unfold Spec.inTail
  exact decide_eq_decide.mpr ⟨fun h => by omega, fun h => by omega⟩

theorem tailClass_zero (L : ℤ) : Spec.tailClass 0 L = (min 19999 (max 0 (L - 20000))).toNat := by
  unfold Spec.tailClass
  omega

theorem tailClass_one (L : ℤ) : Spec.tailClass 1 L = (min 19999 (max 0 (L - 40000))).toNat := by
  unfold Spec.tailClass
  omega

-- The head's class word (a tail's marker, else the label) is a class of the head, the specification's head class.
theorem head_word (L : BitVec 32) (h0 : 0 ≤ L.toInt) (h1 : L.toInt < 60000) :
    0 ≤ (Scalar.select (BitVec.ofBool (Spec.inTail 1 L.toInt)) 20001#32
          (Scalar.select (BitVec.ofBool (Spec.inTail 0 L.toInt)) 20000#32 L)).toInt
    ∧ (Scalar.select (BitVec.ofBool (Spec.inTail 1 L.toInt)) 20001#32
          (Scalar.select (BitVec.ofBool (Spec.inTail 0 L.toInt)) 20000#32 L)).toInt < 20002
    ∧ (Scalar.select (BitVec.ofBool (Spec.inTail 1 L.toInt)) 20001#32
          (Scalar.select (BitVec.ofBool (Spec.inTail 0 L.toInt)) 20000#32 L)).toInt.toNat = Spec.headClass L.toInt := by
  rw [select_ofBool, select_ofBool]
  unfold Spec.headClass
  by_cases e1 : Spec.inTail 1 L.toInt = true
  · rw [if_pos e1, if_pos e1]
    exact ⟨by decide, by decide, rfl⟩
  · rw [if_neg e1, if_neg e1]
    by_cases e0 : Spec.inTail 0 L.toInt = true
    · rw [if_pos e0, if_pos e0]
      exact ⟨by decide, by decide, rfl⟩
    · rw [if_neg e0, if_neg e0]
      rw [inTail_one, decide_eq_true_eq] at e1
      rw [inTail_zero, decide_eq_true_eq] at e0
      exact ⟨h0, by omega, rfl⟩

open Cert.ReferenceIdeal Cert.ReferenceIdeal.Gen Cert.ReferenceIdeal.ReadP Idealize.ShloMosaic.TcCoe Idealize.SL.Sem
  Idealize.ShloMosaic.StableHlo

section Labels

variable (x1 : (⟨S8x512, .i32⟩ : BufTy).Contents (Elt Ideal))

theorem lab_at (r : Fin 4096) : BitVec.toInt (val_main_v1 (F := Ideal) x1 (ix1 r)) = Spec.labAt x1 r := by
  rw [val_main_v1_apply]
  unfold Spec.labAt
  exact congrArg (fun j => BitVec.toInt (x1 j)) (idx2_ext _ _ rfl rfl)

theorem v6_at (i : S4096.Idx) :
    val_main_v6 (F := Ideal) x1 i = BitVec.ofBool (Spec.inTail 0 (BitVec.toInt (val_main_v1 (F := Ideal) x1 i))) := by
  rw [val_main_v6_apply, val_main_v3_apply, val_main_v5_apply, val_main_v2_apply, val_main_v4_apply, val_main_c_apply,
    val_main_c_0_apply, mask_eq, inTail_zero]
  rfl

theorem v23_at (i : S4096.Idx) :
    val_main_v23 (F := Ideal) x1 i = BitVec.ofBool (Spec.inTail 1 (BitVec.toInt (val_main_v1 (F := Ideal) x1 i))) := by
  rw [val_main_v23_apply, val_main_v20_apply, val_main_v22_apply, val_main_v19_apply, val_main_v21_apply, val_main_c_5_apply,
    val_main_c_6_apply, mask_eq, inTail_one]
  rfl

theorem v12_clip (i : S4096.Idx) :
    BitVec.toInt (val_main_v12 (F := Ideal) x1 i)
      = min 19999 (max 0 (BitVec.toInt (IntOp.subi (val_main_v1 (F := Ideal) x1 i) 20000#32))) := by
  rw [val_main_v12_apply, val_main_call1_v4_apply, val_main_call1_v3_apply, val_main_c_4_apply, val_main_call1_v2_apply,
    val_main_call1_v1_apply, val_main_call1_v0_apply, val_main_c_3_apply, val_main_v11_apply, val_main_v10_apply,
    val_main_c_2_apply]
  exact toInt_clip _

theorem v29_clip (i : S4096.Idx) :
    BitVec.toInt (val_main_v29 (F := Ideal) x1 i)
      = min 19999 (max 0 (BitVec.toInt (IntOp.subi (val_main_v1 (F := Ideal) x1 i) 40000#32))) := by
  rw [val_main_v29_apply, val_main_call6_v4_apply, val_main_call6_v3_apply, val_main_c_10_apply, val_main_call6_v2_apply,
    val_main_call6_v1_apply, val_main_call6_v0_apply, val_main_c_9_apply, val_main_v28_apply, val_main_v27_apply,
    val_main_c_8_apply]
  exact toInt_clip _

theorem v24_at (i : S4096.Idx) :
    val_main_v24 (F := Ideal) x1 i
      = Scalar.select (BitVec.ofBool (Spec.inTail 1 (BitVec.toInt (val_main_v1 (F := Ideal) x1 i)))) 20001#32
          (Scalar.select (BitVec.ofBool (Spec.inTail 0 (BitVec.toInt (val_main_v1 (F := Ideal) x1 i)))) 20000#32
            (val_main_v1 (F := Ideal) x1 i)) := by
  rw [val_main_v24_apply, v23_at, val_main_call5_v1_apply, val_main_call5_v0_apply, val_main_c_7_apply, val_main_v7_apply,
    v6_at, val_main_call0_v1_apply, val_main_call0_v0_apply, val_main_c_1_apply]

variable (hL : ∀ i : S4096.Idx, 0 ≤ BitVec.toInt (val_main_v1 (F := Ideal) x1 i)
  ∧ BitVec.toInt (val_main_v1 (F := Ideal) x1 i) < 60000)

include hL

theorem v12_toInt (i : S4096.Idx) :
    BitVec.toInt (val_main_v12 (F := Ideal) x1 i)
      = min 19999 (max 0 (BitVec.toInt (val_main_v1 (F := Ideal) x1 i) - 20000)) := by
  have e : (20000#32 : BitVec 32).toInt = 20000 := by decide
  have hs := toInt_sub_of_bounds (val_main_v1 (F := Ideal) x1 i) 20000#32 (by rw [e]; have := hL i; omega)
    (by rw [e]; have := hL i; omega)
  rw [e] at hs
  rw [v12_clip]
  exact congrArg (fun z => min 19999 (max 0 z)) hs

theorem v29_toInt (i : S4096.Idx) :
    BitVec.toInt (val_main_v29 (F := Ideal) x1 i)
      = min 19999 (max 0 (BitVec.toInt (val_main_v1 (F := Ideal) x1 i) - 40000)) := by
  have e : (40000#32 : BitVec 32).toInt = 40000 := by decide
  have hs := toInt_sub_of_bounds (val_main_v1 (F := Ideal) x1 i) 40000#32 (by rw [e]; have := hL i; omega)
    (by rw [e]; have := hL i; omega)
  rw [e] at hs
  rw [v29_clip]
  exact congrArg (fun z => min 19999 (max 0 z)) hs

theorem v24_bounds (i : S4096.Idx) :
    0 ≤ BitVec.toInt (val_main_v24 (F := Ideal) x1 i) ∧ BitVec.toInt (val_main_v24 (F := Ideal) x1 i) < 20002
    ∧ (BitVec.toInt (val_main_v24 (F := Ideal) x1 i)).toNat
        = Spec.headClass (BitVec.toInt (val_main_v1 (F := Ideal) x1 i)) := by
  rw [v24_at]
  exact head_word _ (hL i).1 (hL i).2

end Labels

section Tail0

variable (x0 : (⟨S8x512x1024, .f32⟩ : BufTy).Contents (Elt Ideal)) (x1 : (⟨S8x512, .i32⟩ : BufTy).Contents (Elt Ideal))
  (x3 : (⟨S1024x256, .f32⟩ : BufTy).Contents (Elt Ideal)) (x4 : (⟨S256x20000, .f32⟩ : BufTy).Contents (Elt Ideal))

theorem t0_max (j : S4096.Idx) :
    val_main_call2_v2 (F := Ideal) x0 x3 x4 j
      = max ⊥ (Spec.rowMax fun c : Fin 20000 => val_main_v9 (F := Ideal) x0 x3 x4 (ix2 (j 0) c)) := by
  rw [val_main_call2_v2_apply, val_main_call2_v1_apply, val_main_call2_cst_0_apply]
  unfold val_main_call2_v0
  rw [reduce_max_row _ _ reducesTo_S4096x20000_S4096_d1 (by decide) h_S_ j, val_main_call2_cst_apply]
  simp only [Ideal.maximumf_def, Ideal.ofBits_def, ofBits_neg_inf, Spec.rowMax]

theorem t0_shift (r : Fin 4096) (c : Fin 20000) :
    val_main_call2_v5 (F := Ideal) x0 x3 x4 (ix2 r c)
      = val_main_v9 (F := Ideal) x0 x3 x4 (ix2 r c)
        - max ⊥ (Spec.rowMax fun k : Fin 20000 => val_main_v9 (F := Ideal) x0 x3 x4 (ix2 r k)) := by
  rw [val_main_call2_v5_apply, val_main_call2_v4_apply, val_main_call2_v3_apply, t0_max]
  rfl

theorem t0_sum (r : Fin 4096) :
    val_main_call2_v7 (F := Ideal) x0 x3 x4 (ix1 r)
      = 0 + ∑ k : Fin 20000, Ideal.exp (val_main_v9 (F := Ideal) x0 x3 x4 (ix2 r k)
          - max ⊥ (Spec.rowMax fun c : Fin 20000 => val_main_v9 (F := Ideal) x0 x3 x4 (ix2 r c))) := by
  rw [val_main_call2_v7_apply, val_main_call2_cst_1_apply]
  simp only [Ideal.ofBits_def, Ideal.ofBits_zero_f32]
  refine congrArg (0 + ·) (Finset.sum_congr rfl fun k _ => ?_)
  rw [val_main_call2_v6_apply, show idx_main_call2_v7 (ix1 r) k = ix2 r k from idx2_ext _ _ rfl rfl, t0_shift]
  rfl

theorem t0_lsm (r : Fin 4096) (c : Fin 20000) :
    val_main_v13 (F := Ideal) x0 x3 x4 (ix2 r c)
      = (val_main_v9 (F := Ideal) x0 x3 x4 (ix2 r c)
          - max ⊥ (Spec.rowMax fun k : Fin 20000 => val_main_v9 (F := Ideal) x0 x3 x4 (ix2 r k)))
        - Ideal.log (0 + ∑ k : Fin 20000, Ideal.exp (val_main_v9 (F := Ideal) x0 x3 x4 (ix2 r k)
            - max ⊥ (Spec.rowMax fun c : Fin 20000 => val_main_v9 (F := Ideal) x0 x3 x4 (ix2 r c)))) := by
  rw [val_main_v13_apply, t0_shift, val_main_call2_v10_apply, val_main_call2_v9_apply, val_main_call2_v8_apply,
    show idx_main_call2_v8 (idx_main_call2_v10 (ix2 r c)) = ix1 r from idx1_ext _ _ rfl, t0_sum]
  simp only [Ideal.subf_def, Ideal.hostUnary_log_def]

theorem t0_idx (i : S4096x1x1.Idx) :
    val_main_call3_v5 (F := Ideal) x1 i = val_main_v12 (F := Ideal) x1 (idx_main_v14 (idx_main_call3_v5 i)) := by
  rw [val_main_call3_v5_apply, val_main_call3_v4_apply, val_main_call3_v1_apply, val_main_call3_v3_apply,
    val_main_call3_v0_apply, val_main_call3_c_apply, val_main_v14_apply]
  exact wrap_eq _ _ (by rw [v12_clip]; omega)

theorem t0_inrange (i : S4096x1x1.Idx) : val_main_call3_v11 (F := Ideal) x1 i = 1#1 := by
  rw [val_main_call3_v11_apply, val_main_call3_v7_apply, val_main_call3_v10_apply, val_main_call3_v6_apply,
    val_main_call3_c_2_apply, val_main_call3_v9_apply, val_main_call3_v8_apply, val_main_call3_c_1_apply, t0_idx]
  exact range_one _ _ (by rw [v12_clip]; omega)
    (by rw [v12_clip, show (19999#32 : BitVec 32).toInt = 19999 from by decide]; omega)

theorem t0_ok (y : S4096x1.Idx) : val_main_call3_v12 (F := Ideal) x1 y = 1#1 := by
  unfold val_main_call3_v12
  exact reduce_andi_of_all _ _ _ _ (t0_inrange x1) rfl y

theorem t0_ce (r : Fin 4096) :
    val_main_v17 (F := Ideal) x0 x1 x3 x4 (ix1 r)
      = Spec.ceRefN (fun c : Fin 20000 => val_main_v9 (F := Ideal) x0 x3 x4 (ix2 r c))
          (BitVec.toInt (val_main_v12 (F := Ideal) x1 (ix1 r))).toNat := by
  have hb := v12_clip x1 (ix1 r)
  have hlt : (BitVec.toInt (val_main_v12 (F := Ideal) x1 (ix1 r))).toNat < 20000 := by omega
  have hg : val_main_call3_v13 (F := Ideal) x0 x1 x3 x4 (idx_main_v16 (ix1 r))
      = val_main_v13 (F := Ideal) x0 x3 x4 (ix2 r ⟨(BitVec.toInt (val_main_v12 (F := Ideal) x1 (ix1 r))).toNat, hlt⟩) := by
    unfold val_main_call3_v13
    refine (gather_row_apply' (R := 4096) (n := 20000) (by decide) gather_S4096x20000_S4096x1x1_S4096x1_n_1_0_0_1_2_11_wf
      _ _ _ ⟨(BitVec.toInt (val_main_v12 (F := Ideal) x1 (ix1 r))).toNat, hlt⟩ ?_).trans
      (congrArg _ (idx2_ext _ _ (Nat.div_one _) rfl))
    rw [t0_idx, show idx_main_v14 (idx_main_call3_v5 (ix3 (idx_main_v16 (ix1 r) 0) (idx_main_v16 (ix1 r) 1) 0)) = ix1 r
      from idx1_ext _ _ (by show ((r.val / 1 * 1 + 0) * 1 + 0) / 1 = r.val; omega)]
    show min (BitVec.toInt (val_main_v12 (F := Ideal) x1 (ix1 r))).toNat (20000 - 1)
      = (BitVec.toInt (val_main_v12 (F := Ideal) x1 (ix1 r))).toNat
    omega
  rw [val_main_v17_apply, val_main_v16_apply, val_main_v15_apply, t0_ok, select_one, hg, t0_lsm]
  unfold Spec.ceRefN
  rw [dif_pos hlt]
  exact ce_row (fun c : Fin 20000 => val_main_v9 (F := Ideal) x0 x3 x4 (ix2 r c)) ⟨_, hlt⟩

variable (hL : ∀ i : S4096.Idx, 0 ≤ BitVec.toInt (val_main_v1 (F := Ideal) x1 i)
  ∧ BitVec.toInt (val_main_v1 (F := Ideal) x1 i) < 60000)

include hL

theorem t0_out (r : Fin 4096) :
    val_main_v18 (F := Ideal) x0 x1 x3 x4 (ix1 r)
      = if Spec.inTail 0 (BitVec.toInt (val_main_v1 (F := Ideal) x1 (ix1 r)))
        then Spec.ceRefN (fun c : Fin 20000 => val_main_v9 (F := Ideal) x0 x3 x4 (ix2 r c))
          (Spec.tailClass 0 (BitVec.toInt (val_main_v1 (F := Ideal) x1 (ix1 r))))
        else 0 := by
  rw [val_main_v18_apply, v6_at, select_ofBool, t0_ce, val_main_call4_v1_apply, val_main_call4_v0_apply, val_main_cst_apply,
    tailClass_zero, ← v12_toInt x1 hL]
  simp only [Ideal.ofBits_def, Ideal.ofBits_zero_f32]

end Tail0

section Tail1

variable (x0 : (⟨S8x512x1024, .f32⟩ : BufTy).Contents (Elt Ideal)) (x1 : (⟨S8x512, .i32⟩ : BufTy).Contents (Elt Ideal))
  (x5 : (⟨S1024x64, .f32⟩ : BufTy).Contents (Elt Ideal)) (x6 : (⟨S64x20000, .f32⟩ : BufTy).Contents (Elt Ideal))

theorem t1_max (j : S4096.Idx) :
    val_main_call7_v2 (F := Ideal) x0 x5 x6 j
      = max ⊥ (Spec.rowMax fun c : Fin 20000 => val_main_v26 (F := Ideal) x0 x5 x6 (ix2 (j 0) c)) := by
  rw [val_main_call7_v2_apply, val_main_call7_v1_apply, val_main_call7_cst_0_apply]
  unfold val_main_call7_v0
  rw [reduce_max_row _ _ reducesTo_S4096x20000_S4096_d1 (by decide) h_S_ j, val_main_call7_cst_apply]
  simp only [Ideal.maximumf_def, Ideal.ofBits_def, ofBits_neg_inf, Spec.rowMax]

theorem t1_shift (r : Fin 4096) (c : Fin 20000) :
    val_main_call7_v5 (F := Ideal) x0 x5 x6 (ix2 r c)
      = val_main_v26 (F := Ideal) x0 x5 x6 (ix2 r c)
        - max ⊥ (Spec.rowMax fun k : Fin 20000 => val_main_v26 (F := Ideal) x0 x5 x6 (ix2 r k)) := by
  rw [val_main_call7_v5_apply, val_main_call7_v4_apply, val_main_call7_v3_apply, t1_max]
  rfl

theorem t1_sum (r : Fin 4096) :
    val_main_call7_v7 (F := Ideal) x0 x5 x6 (ix1 r)
      = 0 + ∑ k : Fin 20000, Ideal.exp (val_main_v26 (F := Ideal) x0 x5 x6 (ix2 r k)
          - max ⊥ (Spec.rowMax fun c : Fin 20000 => val_main_v26 (F := Ideal) x0 x5 x6 (ix2 r c))) := by
  rw [val_main_call7_v7_apply, val_main_call7_cst_1_apply]
  simp only [Ideal.ofBits_def, Ideal.ofBits_zero_f32]
  refine congrArg (0 + ·) (Finset.sum_congr rfl fun k _ => ?_)
  rw [val_main_call7_v6_apply, show idx_main_call7_v7 (ix1 r) k = ix2 r k from idx2_ext _ _ rfl rfl, t1_shift]
  rfl

theorem t1_lsm (r : Fin 4096) (c : Fin 20000) :
    val_main_v30 (F := Ideal) x0 x5 x6 (ix2 r c)
      = (val_main_v26 (F := Ideal) x0 x5 x6 (ix2 r c)
          - max ⊥ (Spec.rowMax fun k : Fin 20000 => val_main_v26 (F := Ideal) x0 x5 x6 (ix2 r k)))
        - Ideal.log (0 + ∑ k : Fin 20000, Ideal.exp (val_main_v26 (F := Ideal) x0 x5 x6 (ix2 r k)
            - max ⊥ (Spec.rowMax fun c : Fin 20000 => val_main_v26 (F := Ideal) x0 x5 x6 (ix2 r c)))) := by
  rw [val_main_v30_apply, t1_shift, val_main_call7_v10_apply, val_main_call7_v9_apply, val_main_call7_v8_apply,
    show idx_main_call7_v8 (idx_main_call7_v10 (ix2 r c)) = ix1 r from idx1_ext _ _ rfl, t1_sum]
  simp only [Ideal.subf_def, Ideal.hostUnary_log_def]

theorem t1_idx (i : S4096x1x1.Idx) :
    val_main_call8_v5 (F := Ideal) x1 i = val_main_v29 (F := Ideal) x1 (idx_main_v31 (idx_main_call8_v5 i)) := by
  rw [val_main_call8_v5_apply, val_main_call8_v4_apply, val_main_call8_v1_apply, val_main_call8_v3_apply,
    val_main_call8_v0_apply, val_main_call8_c_apply, val_main_v31_apply]
  exact wrap_eq _ _ (by rw [v29_clip]; omega)

theorem t1_inrange (i : S4096x1x1.Idx) : val_main_call8_v11 (F := Ideal) x1 i = 1#1 := by
  rw [val_main_call8_v11_apply, val_main_call8_v7_apply, val_main_call8_v10_apply, val_main_call8_v6_apply,
    val_main_call8_c_2_apply, val_main_call8_v9_apply, val_main_call8_v8_apply, val_main_call8_c_1_apply, t1_idx]
  exact range_one _ _ (by rw [v29_clip]; omega)
    (by rw [v29_clip, show (19999#32 : BitVec 32).toInt = 19999 from by decide]; omega)

theorem t1_ok (y : S4096x1.Idx) : val_main_call8_v12 (F := Ideal) x1 y = 1#1 := by
  unfold val_main_call8_v12
  exact reduce_andi_of_all _ _ _ _ (t1_inrange x1) rfl y

theorem t1_ce (r : Fin 4096) :
    val_main_v34 (F := Ideal) x0 x1 x5 x6 (ix1 r)
      = Spec.ceRefN (fun c : Fin 20000 => val_main_v26 (F := Ideal) x0 x5 x6 (ix2 r c))
          (BitVec.toInt (val_main_v29 (F := Ideal) x1 (ix1 r))).toNat := by
  have hb := v29_clip x1 (ix1 r)
  have hlt : (BitVec.toInt (val_main_v29 (F := Ideal) x1 (ix1 r))).toNat < 20000 := by omega
  have hg : val_main_call8_v13 (F := Ideal) x0 x1 x5 x6 (idx_main_v33 (ix1 r))
      = val_main_v30 (F := Ideal) x0 x5 x6 (ix2 r ⟨(BitVec.toInt (val_main_v29 (F := Ideal) x1 (ix1 r))).toNat, hlt⟩) := by
    unfold val_main_call8_v13
    refine (gather_row_apply' (R := 4096) (n := 20000) (by decide) gather_S4096x20000_S4096x1x1_S4096x1_n_1_0_0_1_2_11_wf
      _ _ _ ⟨(BitVec.toInt (val_main_v29 (F := Ideal) x1 (ix1 r))).toNat, hlt⟩ ?_).trans
      (congrArg _ (idx2_ext _ _ (Nat.div_one _) rfl))
    rw [t1_idx, show idx_main_v31 (idx_main_call8_v5 (ix3 (idx_main_v33 (ix1 r) 0) (idx_main_v33 (ix1 r) 1) 0)) = ix1 r
      from idx1_ext _ _ (by show ((r.val / 1 * 1 + 0) * 1 + 0) / 1 = r.val; omega)]
    show min (BitVec.toInt (val_main_v29 (F := Ideal) x1 (ix1 r))).toNat (20000 - 1)
      = (BitVec.toInt (val_main_v29 (F := Ideal) x1 (ix1 r))).toNat
    omega
  rw [val_main_v34_apply, val_main_v33_apply, val_main_v32_apply, t1_ok, select_one, hg, t1_lsm]
  unfold Spec.ceRefN
  rw [dif_pos hlt]
  exact ce_row (fun c : Fin 20000 => val_main_v26 (F := Ideal) x0 x5 x6 (ix2 r c)) ⟨_, hlt⟩

variable (hL : ∀ i : S4096.Idx, 0 ≤ BitVec.toInt (val_main_v1 (F := Ideal) x1 i)
  ∧ BitVec.toInt (val_main_v1 (F := Ideal) x1 i) < 60000)

include hL

theorem t1_out (r : Fin 4096) :
    val_main_v35 (F := Ideal) x0 x1 x5 x6 (ix1 r)
      = if Spec.inTail 1 (BitVec.toInt (val_main_v1 (F := Ideal) x1 (ix1 r)))
        then Spec.ceRefN (fun c : Fin 20000 => val_main_v26 (F := Ideal) x0 x5 x6 (ix2 r c))
          (Spec.tailClass 1 (BitVec.toInt (val_main_v1 (F := Ideal) x1 (ix1 r))))
        else 0 := by
  rw [val_main_v35_apply, v23_at, select_ofBool, t1_ce, val_main_call9_v1_apply, val_main_call9_v0_apply,
    val_main_cst_11_apply, tailClass_one, ← v29_toInt x1 hL]
  simp only [Ideal.ofBits_def, Ideal.ofBits_zero_f32]

end Tail1

section Head

variable (x0 : (⟨S8x512x1024, .f32⟩ : BufTy).Contents (Elt Ideal)) (x1 : (⟨S8x512, .i32⟩ : BufTy).Contents (Elt Ideal))
  (x2 : (⟨S1024x20002, .f32⟩ : BufTy).Contents (Elt Ideal))

theorem h_max (j : S4096.Idx) :
    val_main_call10_v2 (F := Ideal) x0 x2 j
      = max ⊥ (Spec.rowMax fun c : Fin 20002 => val_main_v36 (F := Ideal) x0 x2 (ix2 (j 0) c)) := by
  rw [val_main_call10_v2_apply, val_main_call10_v1_apply, val_main_call10_cst_0_apply]
  unfold val_main_call10_v0
  rw [reduce_max_row _ _ reducesTo_S4096x20002_S4096_d1 (by decide) h_S_ j, val_main_call10_cst_apply]
  simp only [Ideal.maximumf_def, Ideal.ofBits_def, ofBits_neg_inf, Spec.rowMax]

theorem h_shift (r : Fin 4096) (c : Fin 20002) :
    val_main_call10_v5 (F := Ideal) x0 x2 (ix2 r c)
      = val_main_v36 (F := Ideal) x0 x2 (ix2 r c)
        - max ⊥ (Spec.rowMax fun k : Fin 20002 => val_main_v36 (F := Ideal) x0 x2 (ix2 r k)) := by
  rw [val_main_call10_v5_apply, val_main_call10_v4_apply, val_main_call10_v3_apply, h_max]
  rfl

theorem h_sum (r : Fin 4096) :
    val_main_call10_v7 (F := Ideal) x0 x2 (ix1 r)
      = 0 + ∑ k : Fin 20002, Ideal.exp (val_main_v36 (F := Ideal) x0 x2 (ix2 r k)
          - max ⊥ (Spec.rowMax fun c : Fin 20002 => val_main_v36 (F := Ideal) x0 x2 (ix2 r c))) := by
  rw [val_main_call10_v7_apply, val_main_call10_cst_1_apply]
  simp only [Ideal.ofBits_def, Ideal.ofBits_zero_f32]
  refine congrArg (0 + ·) (Finset.sum_congr rfl fun k _ => ?_)
  rw [val_main_call10_v6_apply, show idx_main_call10_v7 (ix1 r) k = ix2 r k from idx2_ext _ _ rfl rfl, h_shift]
  rfl

theorem h_lsm (r : Fin 4096) (c : Fin 20002) :
    val_main_v37 (F := Ideal) x0 x2 (ix2 r c)
      = (val_main_v36 (F := Ideal) x0 x2 (ix2 r c)
          - max ⊥ (Spec.rowMax fun k : Fin 20002 => val_main_v36 (F := Ideal) x0 x2 (ix2 r k)))
        - Ideal.log (0 + ∑ k : Fin 20002, Ideal.exp (val_main_v36 (F := Ideal) x0 x2 (ix2 r k)
            - max ⊥ (Spec.rowMax fun c : Fin 20002 => val_main_v36 (F := Ideal) x0 x2 (ix2 r c)))) := by
  rw [val_main_v37_apply, h_shift, val_main_call10_v10_apply, val_main_call10_v9_apply, val_main_call10_v8_apply,
    show idx_main_call10_v8 (idx_main_call10_v10 (ix2 r c)) = ix1 r from idx1_ext _ _ rfl, h_sum]
  simp only [Ideal.subf_def, Ideal.hostUnary_log_def]

variable (hL : ∀ i : S4096.Idx, 0 ≤ BitVec.toInt (val_main_v1 (F := Ideal) x1 i)
  ∧ BitVec.toInt (val_main_v1 (F := Ideal) x1 i) < 60000)

include hL

theorem h_idx (i : S4096x1x1.Idx) :
    val_main_call11_v5 (F := Ideal) x1 i = val_main_v24 (F := Ideal) x1 (idx_main_v38 (idx_main_call11_v5 i)) := by
  rw [val_main_call11_v5_apply, val_main_call11_v4_apply, val_main_call11_v1_apply, val_main_call11_v3_apply,
    val_main_call11_v0_apply, val_main_call11_c_apply, val_main_v38_apply]
  exact wrap_eq _ _ (v24_bounds x1 hL _).1

theorem h_inrange (i : S4096x1x1.Idx) : val_main_call11_v11 (F := Ideal) x1 i = 1#1 := by
  rw [val_main_call11_v11_apply, val_main_call11_v7_apply, val_main_call11_v10_apply, val_main_call11_v6_apply,
    val_main_call11_c_2_apply, val_main_call11_v9_apply, val_main_call11_v8_apply, val_main_call11_c_1_apply, h_idx x1 hL]
  have hb := v24_bounds x1 hL (idx_main_v38 (idx_main_call11_v5 i))
  exact range_one _ _ hb.1 (by rw [show (20001#32 : BitVec 32).toInt = 20001 from by decide]; omega)

theorem h_ok (y : S4096x1.Idx) : val_main_call11_v12 (F := Ideal) x1 y = 1#1 := by
  unfold val_main_call11_v12
  exact reduce_andi_of_all _ _ _ _ (h_inrange x1 hL) rfl y

theorem h_out (r : Fin 4096) :
    val_main_v41 (F := Ideal) x0 x1 x2 (ix1 r)
      = Spec.ceRefN (fun c : Fin 20002 => val_main_v36 (F := Ideal) x0 x2 (ix2 r c))
          (Spec.headClass (BitVec.toInt (val_main_v1 (F := Ideal) x1 (ix1 r)))) := by
  have hb := v24_bounds x1 hL (ix1 r)
  have hlt : (BitVec.toInt (val_main_v24 (F := Ideal) x1 (ix1 r))).toNat < 20002 := by omega
  have hg : val_main_call11_v13 (F := Ideal) x0 x1 x2 (idx_main_v40 (ix1 r))
      = val_main_v37 (F := Ideal) x0 x2 (ix2 r ⟨(BitVec.toInt (val_main_v24 (F := Ideal) x1 (ix1 r))).toNat, hlt⟩) := by
    unfold val_main_call11_v13
    refine (gather_row_apply' (R := 4096) (n := 20002) (by decide) gather_S4096x20002_S4096x1x1_S4096x1_n_1_0_0_1_2_11_wf
      _ _ _ ⟨(BitVec.toInt (val_main_v24 (F := Ideal) x1 (ix1 r))).toNat, hlt⟩ ?_).trans
      (congrArg _ (idx2_ext _ _ (Nat.div_one _) rfl))
    rw [h_idx x1 hL, show idx_main_v38 (idx_main_call11_v5 (ix3 (idx_main_v40 (ix1 r) 0) (idx_main_v40 (ix1 r) 1) 0)) = ix1 r
      from idx1_ext _ _ (by show ((r.val / 1 * 1 + 0) * 1 + 0) / 1 = r.val; omega)]
    show min (BitVec.toInt (val_main_v24 (F := Ideal) x1 (ix1 r))).toNat (20002 - 1)
      = (BitVec.toInt (val_main_v24 (F := Ideal) x1 (ix1 r))).toNat
    omega
  rw [val_main_v41_apply, val_main_v40_apply, val_main_v39_apply, h_ok x1 hL, select_one, hg, h_lsm, ← hb.2.2]
  unfold Spec.ceRefN
  rw [dif_pos hlt]
  exact ce_row (fun c : Fin 20002 => val_main_v36 (F := Ideal) x0 x2 (ix2 r c)) ⟨_, hlt⟩

end Head

section Logits

variable (x0 : (⟨S8x512x1024, .f32⟩ : BufTy).Contents (Elt Ideal))

theorem x_at (r : Fin 4096) (h : Fin 1024) : val_main_v0 (F := Ideal) x0 (ix2 r h) = Spec.xrow x0 r h := by
  rw [val_main_v0_apply]
  unfold Spec.xrow
  refine congrArg x0 (idx3_ext _ _ ?_ ?_ ?_)
  · show (r.val * 1024 + h.val) / 524288 = r.val / 512
    have := h.isLt; omega
  · show (r.val * 1024 + h.val) / 1024 % 512 = r.val % 512
    have := h.isLt; omega
  · show (r.val * 1024 + h.val) % 1024 = h.val
    have := h.isLt; omega

theorem proj0_at (x3 : (⟨S1024x256, .f32⟩ : BufTy).Contents (Elt Ideal)) (r : Fin 4096) (q : Fin 256) :
    val_main_v8 (F := Ideal) x0 x3 (ix2 r q) = Spec.projRow (Spec.xrow x0 r) x3 q := by
  rw [val_main_v8_apply]
  unfold Spec.projRow
  refine Finset.sum_congr rfl fun h _ => ?_
  rw [show lidx_main_v8 (ix2 r q) h = ix2 r h from idx2_ext _ _ rfl rfl,
    show ridx_main_v8 (ix2 r q) h = ix2 h q from idx2_ext _ _ rfl rfl, x_at]

theorem lg0_at (x3 : (⟨S1024x256, .f32⟩ : BufTy).Contents (Elt Ideal)) (x4 : (⟨S256x20000, .f32⟩ : BufTy).Contents (Elt Ideal))
    (r : Fin 4096) (c : Fin 20000) :
    val_main_v9 (F := Ideal) x0 x3 x4 (ix2 r c) = Spec.logitRow (Spec.projRow (Spec.xrow x0 r) x3) x4 c := by
  rw [val_main_v9_apply]
  unfold Spec.logitRow
  refine Finset.sum_congr rfl fun q _ => ?_
  rw [show lidx_main_v9 (ix2 r c) q = ix2 r q from idx2_ext _ _ rfl rfl,
    show ridx_main_v9 (ix2 r c) q = ix2 q c from idx2_ext _ _ rfl rfl, proj0_at]

theorem proj1_at (x5 : (⟨S1024x64, .f32⟩ : BufTy).Contents (Elt Ideal)) (r : Fin 4096) (q : Fin 64) :
    val_main_v25 (F := Ideal) x0 x5 (ix2 r q) = Spec.projRow (Spec.xrow x0 r) x5 q := by
  rw [val_main_v25_apply]
  unfold Spec.projRow
  refine Finset.sum_congr rfl fun h _ => ?_
  rw [show lidx_main_v25 (ix2 r q) h = ix2 r h from idx2_ext _ _ rfl rfl,
    show ridx_main_v25 (ix2 r q) h = ix2 h q from idx2_ext _ _ rfl rfl, x_at]

theorem lg1_at (x5 : (⟨S1024x64, .f32⟩ : BufTy).Contents (Elt Ideal)) (x6 : (⟨S64x20000, .f32⟩ : BufTy).Contents (Elt Ideal))
    (r : Fin 4096) (c : Fin 20000) :
    val_main_v26 (F := Ideal) x0 x5 x6 (ix2 r c) = Spec.logitRow (Spec.projRow (Spec.xrow x0 r) x5) x6 c := by
  rw [val_main_v26_apply]
  unfold Spec.logitRow
  refine Finset.sum_congr rfl fun q _ => ?_
  rw [show lidx_main_v26 (ix2 r c) q = ix2 r q from idx2_ext _ _ rfl rfl,
    show ridx_main_v26 (ix2 r c) q = ix2 q c from idx2_ext _ _ rfl rfl, proj1_at]

theorem lgH_at (x2 : (⟨S1024x20002, .f32⟩ : BufTy).Contents (Elt Ideal)) (r : Fin 4096) (c : Fin 20002) :
    val_main_v36 (F := Ideal) x0 x2 (ix2 r c) = Spec.logitRow (Spec.xrow x0 r) x2 c := by
  rw [val_main_v36_apply]
  unfold Spec.logitRow
  refine Finset.sum_congr rfl fun q _ => ?_
  rw [show lidx_main_v36 (ix2 r c) q = ix2 r q from idx2_ext _ _ rfl rfl,
    show ridx_main_v36 (ix2 r c) q = ix2 q c from idx2_ext _ _ rfl rfl, x_at]

end Logits

-- The reference's stacked result, entry by entry, is the specification's stable form of the seven arrays.
theorem result_val (x0 : (⟨S8x512x1024, .f32⟩ : BufTy).Contents (Elt Ideal)) (x1 : (⟨S8x512, .i32⟩ : BufTy).Contents (Elt Ideal))
    (x2 : (⟨S1024x20002, .f32⟩ : BufTy).Contents (Elt Ideal)) (x3 : (⟨S1024x256, .f32⟩ : BufTy).Contents (Elt Ideal))
    (x4 : (⟨S256x20000, .f32⟩ : BufTy).Contents (Elt Ideal)) (x5 : (⟨S1024x64, .f32⟩ : BufTy).Contents (Elt Ideal))
    (x6 : (⟨S64x20000, .f32⟩ : BufTy).Contents (Elt Ideal))
    (hlab : ∀ i : S8x512.Idx, 0 ≤ BitVec.toInt (x1 i) ∧ BitVec.toInt (x1 i) < 60000) (a : Fin 12288) :
    val_main_v42 (F := Ideal) x0 x1 x2 x3 x4 x5 x6 (ix1 a) = Spec.outRef (Spec.paramsOf x0 x1 x2 x3 x4 x5 x6) a := by
  have hL : ∀ i : S4096.Idx, 0 ≤ BitVec.toInt (val_main_v1 (F := Ideal) x1 i)
      ∧ BitVec.toInt (val_main_v1 (F := Ideal) x1 i) < 60000 := fun i => by rw [val_main_v1_apply]; exact hlab _
  unfold val_main_v42
  rw [concat3_apply]
  unfold Spec.outRef Spec.stack
  by_cases h0 : a.val < 4096
  · rw [dif_pos h0, dif_pos h0, t0_out x0 x1 x3 x4 hL, lab_at,
      show (fun c : Fin 20000 => val_main_v9 (F := Ideal) x0 x3 x4 (ix2 ⟨a.val, h0⟩ c))
        = Spec.logitRow (Spec.projRow (Spec.xrow x0 ⟨a.val, h0⟩) x3) x4 from funext fun c => lg0_at x0 x3 x4 _ c]
    rfl
  · rw [dif_neg h0, dif_neg h0]
    by_cases h1 : a.val < 8192
    · rw [dif_pos h1, dif_pos h1, t1_out x0 x1 x5 x6 hL, lab_at,
        show (fun c : Fin 20000 => val_main_v26 (F := Ideal) x0 x5 x6 (ix2 ⟨a.val - 4096, by omega⟩ c))
          = Spec.logitRow (Spec.projRow (Spec.xrow x0 ⟨a.val - 4096, by omega⟩) x5) x6 from funext fun c => lg1_at x0 x5 x6 _ c]
      rfl
    · rw [dif_neg h1, dif_neg h1, h_out x0 x1 x2 hL, lab_at,
        show (fun c : Fin 20002 => val_main_v36 (F := Ideal) x0 x2 (ix2 ⟨a.val - 8192, by have := a.isLt; omega⟩ c))
          = Spec.logitRow (Spec.xrow x0 ⟨a.val - 8192, by have := a.isLt; omega⟩) x2 from funext fun c => lgH_at x0 x2 _ c]
      rfl

end Cert.ReferenceIdeal.RefValue

end
-- ==== Proof.OnlineSoftmax.lean ====
import proofs.«427659_j7121055776931_3_alg».proof.Proof.Spec
import Mathlib.Data.Finset.Fold
import Mathlib.Algebra.BigOperators.Intervals
import Mathlib.Algebra.BigOperators.Fin
import Mathlib.Analysis.SpecialFunctions.Log.Basic
import Mathlib.Data.EReal.Operations

noncomputable section

open scoped BigOperators

namespace Cert.Spec

open Idealize.ShloMosaic

theorem coe_finsum {ι : Type*} (t : Finset ι) (f : ι → ℝ) :
    ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

theorem lse_shift {n : ℕ} (hn : 0 < n) (f : Fin n → ℝ) (M : ℝ) :
    M + Real.log (∑ c, Real.exp (f c - M)) = Real.log (∑ c, Real.exp (f c)) := by
  have hS : 0 < ∑ c, Real.exp (f c) :=
    Finset.sum_pos (fun c _ => Real.exp_pos _) ⟨⟨0, hn⟩, Finset.mem_univ _⟩
  have h : ∑ c, Real.exp (f c - M) = Real.exp (-M) * ∑ c, Real.exp (f c) := by
    rw [Finset.mul_sum]
    refine Finset.sum_congr rfl fun c _ => ?_
    rw [← Real.exp_add]; congr 1; ring
  rw [h, Real.log_mul (Real.exp_ne_zero _) hS.ne', Real.log_exp]; ring

def expAt (n : ℕ) (a : ℕ → ℝ) (M : ℝ) (c : ℕ) : ℝ := if c < n then Real.exp (a c - M) else 0

theorem expAt_rescale (n : ℕ) (a : ℕ → ℝ) (M M' : ℝ) (c : ℕ) :
    Real.exp (M - M') * expAt n a M c = expAt n a M' c := by
  unfold expAt
  split_ifs
  · rw [← Real.exp_add]; congr 1; ring
  · rw [mul_zero]

section Row

variable {n : ℕ} (B : ℕ) (s : Fin n → EReal) (a : ℕ → ℝ) (hsa : ∀ c : Fin n, s c = (a c.val : EReal))

include hsa

theorem tile_eq (j : ℕ) (k : Fin B) :
    tile B s j k = if j * B + k.val < n then (a (j * B + k.val) : EReal) else ⊥ := by
  unfold tile
  split_ifs with h
  · exact hsa ⟨_, h⟩
  · rfl

theorem tile_lt_top (j : ℕ) (k : Fin B) : tile B s j k < ⊤ := by
  rw [tile_eq B s a hsa]
  split_ifs
  · exact EReal.coe_lt_top _
  · exact bot_lt_top

theorem exp_tile (j : ℕ) (k : Fin B) (M : ℝ) :
    Ideal.exp (tile B s j k - (M : EReal)) = ((expAt n a M (j * B + k.val) : ℝ) : EReal) := by
  rw [tile_eq B s a hsa, expAt]
  split_ifs with h
  · rw [← EReal.coe_sub, Ideal.exp_coe]
  · rw [EReal.bot_sub, Ideal.exp_bot, EReal.coe_zero]

theorem sum_exp_tile (j : ℕ) (M : ℝ) :
    ∑ k : Fin B, Ideal.exp (tile B s j k - (M : EReal))
      = ((∑ c ∈ Finset.Ico (j * B) (j * B + B), expAt n a M c : ℝ) : EReal) := by
  rw [Finset.sum_congr rfl (fun k _ => exp_tile B s a hsa j k M), ← coe_finsum,
    Finset.sum_Ico_eq_sum_range, Nat.add_sub_cancel_left,
    Fin.sum_univ_eq_sum_range (fun i => expAt n a M (j * B + i)) B]

theorem sum_sel_tile (lab : ℕ) (hlab : lab < n) (j : ℕ) :
    ∑ k : Fin B, (if j * B + k.val = lab then tile B s j k else 0)
      = ((if j * B ≤ lab ∧ lab < j * B + B then a lab else 0 : ℝ) : EReal) := by
  by_cases h : j * B ≤ lab ∧ lab < j * B + B
  · rw [if_pos h, Finset.sum_eq_single (⟨lab - j * B, by omega⟩ : Fin B)]
    · have e : j * B + (lab - j * B) = lab := by omega
      rw [if_pos e, tile_eq B s a hsa]
      simp only [e, hlab, if_true]
    · intro k _ hk
      rw [if_neg]
      intro e
      apply hk
      apply Fin.ext
      simp only
      omega
    · intro h'; exact absurd (Finset.mem_univ _) h'
  · rw [if_neg h, EReal.coe_zero]
    refine Finset.sum_eq_zero fun k _ => ?_
    rw [if_neg]
    intro e
    have := k.isLt
    apply h
    omega

theorem newMax_real (hB : 0 < B) (j : ℕ) (hj : j * B < n) (m : EReal) (hm : m < ⊤) :
    ∃ M' : ℝ, max m (Finset.univ.fold max ⊥ (tile B s j)) = (M' : EReal) := by
  have h1 : max m (Finset.univ.fold max ⊥ (tile B s j)) < ⊤ :=
    max_lt hm ((Finset.fold_max_lt _).mpr ⟨bot_lt_top, fun k _ => tile_lt_top B s a hsa j k⟩)
  have h2 : ⊥ < max m (Finset.univ.fold max ⊥ (tile B s j)) := by
    refine lt_max_iff.mpr (Or.inr ((Finset.lt_fold_max _).mpr (Or.inr ⟨⟨0, hB⟩, Finset.mem_univ _, ?_⟩)))
    rw [tile_eq B s a hsa, if_pos (by simpa using hj)]
    exact EReal.bot_lt_coe _
  exact ⟨_, (EReal.coe_toReal h1.ne h2.ne').symm⟩

end Row

def Inv (n B : ℕ) (a : ℕ → ℝ) (lab j : ℕ) (st : St) : Prop :=
  st.sel = ((if lab < j * B then a lab else 0 : ℝ) : EReal) ∧
  ((j = 0 ∧ st.m = ⊥ ∧ st.l = 0) ∨
    ∃ M : ℝ, st.m = (M : EReal) ∧ st.l = ((∑ c ∈ Finset.range (j * B), expAt n a M c : ℝ) : EReal))

section Run

variable {n : ℕ} (B : ℕ) (s : Fin n → EReal) (a : ℕ → ℝ) (hsa : ∀ c : Fin n, s c = (a c.val : EReal))

include hsa

theorem step_inv (hB : 0 < B) (lab : ℕ) (hlab : lab < n) (j : ℕ) (hj : j * B < n) (st : St)
    (h : Inv n B a lab j st) : Inv n B a lab (j + 1) (St.step B s lab j st) := by
  obtain ⟨hsel, hml⟩ := h
  have hmtop : st.m < ⊤ := by
    rcases hml with ⟨_, h, _⟩ | ⟨M, h, _⟩
    · rw [h]; exact bot_lt_top
    · rw [h]; exact EReal.coe_lt_top M
  obtain ⟨M', hM'⟩ := newMax_real B s a hsa hB j hj st.m hmtop
  refine ⟨?_, Or.inr ⟨M', hM', ?_⟩⟩
  · show st.sel + ∑ k : Fin B, (if j * B + k.val = lab then tile B s j k else 0) = _
    rw [hsel, sum_sel_tile B s a hsa lab hlab j, ← EReal.coe_add, Nat.succ_mul]
    congr 1
    by_cases h1 : lab < j * B
    · rw [if_pos h1, if_neg (by omega), if_pos (by omega), add_zero]
    · by_cases h2 : lab < j * B + B
      · rw [if_neg h1, if_pos ⟨by omega, h2⟩, if_pos h2, zero_add]
      · rw [if_neg h1, if_neg (by omega), if_neg h2, add_zero]
  · show Ideal.exp (st.m - max st.m (Finset.univ.fold max ⊥ (tile B s j))) * st.l
        + ∑ k : Fin B, Ideal.exp (tile B s j k - max st.m (Finset.univ.fold max ⊥ (tile B s j))) = _
    rw [hM', sum_exp_tile B s a hsa j M', Nat.succ_mul]
    rcases hml with ⟨rfl, _, hl⟩ | ⟨M, hm, hl⟩
    · rw [hl, mul_zero, zero_add, Nat.zero_mul, Nat.zero_add, Nat.Ico_zero_eq_range]
    · rw [hm, hl, ← EReal.coe_sub, Ideal.exp_coe, ← EReal.coe_mul, ← EReal.coe_add]
      congr 1
      rw [Finset.mul_sum, ← Finset.sum_range_add_sum_Ico _ (Nat.le_add_right (j * B) B)]
      congr 1
      exact Finset.sum_congr rfl fun c _ => expAt_rescale n a M M' c

theorem run_inv (hB : 0 < B) (lab : ℕ) (hlab : lab < n) (T : ℕ) (hlo : (T - 1) * B < n) :
    ∀ j, j ≤ T → Inv n B a lab j (St.run B s lab j)
  | 0, _ => by
    refine ⟨?_, Or.inl ⟨rfl, rfl, rfl⟩⟩
    show (0 : EReal) = _
    rw [Nat.zero_mul, if_neg (Nat.not_lt_zero _), EReal.coe_zero]
  | j + 1, hj => by
    have hjn : j * B < n := lt_of_le_of_lt (Nat.mul_le_mul_right B (by omega)) hlo
    exact step_inv B s a hsa hB lab hlab j hjn _ (run_inv hB lab hlab T hlo j (by omega))

end Run

theorem rowMax_real {n : ℕ} (s : Fin n → EReal) (a : ℕ → ℝ) (hsa : ∀ c : Fin n, s c = (a c.val : EReal))
    (c₀ : Fin n) : ∃ R : ℝ, rowMax s = (R : EReal) := by
  have h1 : rowMax s < ⊤ :=
    (Finset.fold_max_lt _).mpr ⟨bot_lt_top, fun c _ => by rw [hsa c]; exact EReal.coe_lt_top _⟩
  have h2 : ⊥ < rowMax s :=
    (Finset.lt_fold_max _).mpr (Or.inr ⟨c₀, Finset.mem_univ _, by rw [hsa c₀]; exact EReal.bot_lt_coe _⟩)
  exact ⟨_, (EReal.coe_toReal h1.ne h2.ne').symm⟩

theorem ceKer_eq_ceRef (B T n : ℕ) (hB : 0 < B) (hT : 0 < T) (hlo : (T - 1) * B < n) (hhi : n ≤ T * B)
    (s : Fin n → EReal) (hs : ∀ c, ∃ r : ℝ, s c = (r : EReal)) (lab : Fin n) :
    ceKer B T s lab.val = ceRef s lab := by
  have hn : 0 < n := lab.pos

  let a : ℕ → ℝ := fun c => if h : c < n then (s ⟨c, h⟩).toReal else 0
  have hsa : ∀ c : Fin n, s c = (a c.val : EReal) := by
    intro c
    obtain ⟨r, hr⟩ := hs c
    show s c = ((if h : c.val < n then (s ⟨c.val, h⟩).toReal else 0 : ℝ) : EReal)
    rw [dif_pos c.isLt, Fin.eta, hr, EReal.toReal_coe]

  obtain ⟨hsel, hml⟩ := run_inv B s a hsa hB lab.val lab.isLt T hlo T le_rfl
  rcases hml with ⟨h0, _⟩ | ⟨M, hm, hl⟩
  · omega
  obtain ⟨R, hR⟩ := rowMax_real s a hsa lab

  have hsum : ∑ c ∈ Finset.range (T * B), expAt n a M c = ∑ c : Fin n, Real.exp (a c.val - M) := by
    rw [Fin.sum_univ_eq_sum_range (fun c => Real.exp (a c - M)) n,
      ← Finset.sum_subset (Finset.range_subset_range.mpr hhi) (fun c _ hc => by
        rw [expAt, if_neg (by simpa using hc)])]
    exact Finset.sum_congr rfl fun c hc => by rw [expAt, if_pos (by simpa using hc)]
  have hpos : ∀ M : ℝ, 0 < ∑ c : Fin n, Real.exp (a c.val - M) := fun M =>
    Finset.sum_pos (fun c _ => Real.exp_pos _) ⟨lab, Finset.mem_univ _⟩

  have href : ∑ c, Ideal.exp (s c - (R : EReal)) = ((∑ c : Fin n, Real.exp (a c.val - R) : ℝ) : EReal) := by
    rw [coe_finsum]
    exact Finset.sum_congr rfl fun c _ => by rw [hsa c, ← EReal.coe_sub, Ideal.exp_coe]
  unfold ceKer ceRef
  rw [hm, hl, hsel, hR, href, hsum, hsa lab, if_pos (lt_of_lt_of_le lab.isLt hhi),
    Ideal.log_coe, if_neg (not_le.mpr (hpos M)), Ideal.log_coe, if_neg (not_le.mpr (hpos R)),
    ← EReal.coe_add, ← EReal.coe_sub, ← EReal.coe_sub, ← EReal.coe_sub, ← EReal.coe_neg]
  congr 1
  have e1 := lse_shift hn (fun c => a c.val) M
  have e2 := lse_shift hn (fun c => a c.val) R
  linarith

theorem outKer_eq_outRef (P : Params) (h0 : ∀ r c, ∃ x : ℝ, P.lg0 r c = (x : EReal))
    (h1 : ∀ r c, ∃ x : ℝ, P.lg1 r c = (x : EReal)) (hH : ∀ r c, ∃ x : ℝ, P.lgH r c = (x : EReal))
    (ht0 : ∀ r, P.t0 r < 20000) (ht1 : ∀ r, P.t1 r < 20000) (hhl : ∀ r, P.hl r < 20002) :
    outKer P = outRef P := by
  funext i
  unfold outKer outRef stack
  have k0 : ∀ r, ceKer 512 40 (P.lg0 r) (P.t0 r) = ceRefN (P.lg0 r) (P.t0 r) := fun r => by
    rw [ceRefN, dif_pos (ht0 r)]
    exact ceKer_eq_ceRef 512 40 20000 (by norm_num) (by norm_num) (by norm_num) (by norm_num) _ (h0 r) ⟨_, ht0 r⟩
  have k1 : ∀ r, ceKer 512 40 (P.lg1 r) (P.t1 r) = ceRefN (P.lg1 r) (P.t1 r) := fun r => by
    rw [ceRefN, dif_pos (ht1 r)]
    exact ceKer_eq_ceRef 512 40 20000 (by norm_num) (by norm_num) (by norm_num) (by norm_num) _ (h1 r) ⟨_, ht1 r⟩
  have kH : ∀ r, ceKer 512 40 (P.lgH r) (P.hl r) = ceRefN (P.lgH r) (P.hl r) := fun r => by
    rw [ceRefN, dif_pos (hhl r)]
    exact ceKer_eq_ceRef 512 40 20002 (by norm_num) (by norm_num) (by norm_num) (by norm_num) _ (hH r) ⟨_, hhl r⟩
  simp only [k0, k1, kH]

end Cert.Spec

end
-- ==== Proof.Bridge.lean ====
import proofs.«427659_j7121055776931_3_alg».proof.Proof.Spec
import proofs.«427659_j7121055776931_3_alg».proof.Proof.OnlineSoftmax

noncomputable section

open scoped BigOperators

namespace Cert.Spec

open Idealize.ShloMosaic Idealize.ShloMosaic.ValueIdx

theorem real_sum {n : ℕ} (f : Fin n → EReal) (h : ∀ k, ∃ x : ℝ, f k = (x : EReal)) : ∃ x : ℝ, ∑ k, f k = (x : EReal) := by
  choose g hg using h
  refine ⟨∑ k, g k, ?_⟩
  rw [show (fun k => f k) = fun k => ((g k : ℝ) : EReal) from funext hg]
  induction (Finset.univ : Finset (Fin n)) using Finset.induction_on with
  | empty => simp
  | insert a s ha ih => rw [Finset.sum_insert ha, Finset.sum_insert ha, EReal.coe_add, ih]

theorem real_mul {a b : EReal} (ha : ∃ x : ℝ, a = (x : EReal)) (hb : ∃ x : ℝ, b = (x : EReal)) : ∃ x : ℝ, a * b = (x : EReal) := by
  obtain ⟨x, rfl⟩ := ha; obtain ⟨y, rfl⟩ := hb
  exact ⟨x * y, (EReal.coe_mul x y).symm⟩

theorem real_projRow {p : ℕ} (x : Fin 1024 → EReal) (P : (⟨2, ![1024, p]⟩ : Shape).Idx → EReal)
    (hx : ∀ h, ∃ r : ℝ, x h = (r : EReal)) (hP : ∀ i, ∃ r : ℝ, P i = (r : EReal)) (q : Fin p) : ∃ r : ℝ, projRow x P q = (r : EReal) :=
  real_sum _ fun h => real_mul (hx h) (hP _)

theorem real_logitRow {p n : ℕ} (y : Fin p → EReal) (W : (⟨2, ![p, n]⟩ : Shape).Idx → EReal)
    (hy : ∀ q, ∃ r : ℝ, y q = (r : EReal)) (hW : ∀ i, ∃ r : ℝ, W i = (r : EReal)) (c : Fin n) : ∃ r : ℝ, logitRow y W c = (r : EReal) :=
  real_sum _ fun q => real_mul (hy q) (hW _)

theorem tailClass_lt (k : ℕ) (L : ℤ) : tailClass k L < 20000 := by
  unfold tailClass
  omega

theorem headClass_lt (L : ℤ) (h0 : 0 ≤ L) (h1 : L < 60000) : headClass L < 20002 := by
  unfold headClass inTail
  simp only [decide_eq_true_eq]
  push_cast
  split_ifs <;> omega

theorem outKer_paramsOf (inp : SInp.Idx → EReal) (lab : SLab.Idx → BitVec 32) (hw : SHw.Idx → EReal)
    (p0 : SP0.Idx → EReal) (w0 : SW0.Idx → EReal) (p1 : SP1.Idx → EReal) (w1 : SW1.Idx → EReal)
    (hinp : ∀ i, ∃ r : ℝ, inp i = (r : EReal)) (hhw : ∀ i, ∃ r : ℝ, hw i = (r : EReal))
    (hp0 : ∀ i, ∃ r : ℝ, p0 i = (r : EReal)) (hw0 : ∀ i, ∃ r : ℝ, w0 i = (r : EReal))
    (hp1 : ∀ i, ∃ r : ℝ, p1 i = (r : EReal)) (hw1 : ∀ i, ∃ r : ℝ, w1 i = (r : EReal))
    (hlab : ∀ i, 0 ≤ (lab i).toInt ∧ (lab i).toInt < 60000) :
    outKer (paramsOf inp lab hw p0 w0 p1 w1) = outRef (paramsOf inp lab hw p0 w0 p1 w1) := by
  have hx : ∀ r h, ∃ x : ℝ, xrow inp r h = (x : EReal) := fun r h => hinp _
  refine outKer_eq_outRef _ ?_ ?_ ?_ ?_ ?_ ?_
  · intro r c; exact real_logitRow _ _ (fun q => real_projRow _ _ (hx r) hp0 q) hw0 c
  · intro r c; exact real_logitRow _ _ (fun q => real_projRow _ _ (hx r) hp1 q) hw1 c
  · intro r c; exact real_logitRow _ _ (hx r) hhw c
  · intro r; exact tailClass_lt 0 _
  · intro r; exact tailClass_lt 1 _
  · intro r; exact headClass_lt _ (hlab _).1 (hlab _).2

end Cert.Spec

end
-- ==== Proof.PreDecode.lean ====
import proofs.«427659_j7121055776931_3_alg».proof.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

instance : Subsingleton S_.Idx := ⟨fun a b => funext fun d => d.elim0⟩

theorem inf_eq_top : Ideal.ofBits .f32 0x7F800000#32 = (⊤ : EReal) := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => exact absurd h (by simp [Ideal.cmp])
  | top => exact absurd h (by simp [Ideal.cmp])
  | coe r => exact ⟨r, rfl⟩

theorem andi_apply_eq_one {s : Shape} (x y : IVec s 1) (i : s.Idx) (h : andi x y i = 1#1) : x i = 1#1 ∧ y i = 1#1 :=
  IntOp.andi_eq_one.1 h

theorem all_real {s : Shape} {axes : List (Fin s.rank)} (a : FVec Ideal s .f32)
    (bc : S_.BroadcastsInDim s (![] : Fin 0 → Fin s.rank)) (hr : s.ReducesTo axes S_) (hS : 0 < S_.numel)
    (h : Host.reduce IntOp.andi (cmpf .olt (Host.absf a) (broadcastInDim s ![] bc (constant S_ .f32 0x7F800000#32)))
          (constantI S_ 1 1#1) hr hS ix0 = 1#1) (i : s.Idx) : ∃ r : ℝ, a i = (r : EReal) :=
  real_of_abs_lt_inf (a i) (Host.reduce_andi_all _ _ hr hS ix0 h i)

theorem decode [Cert.Pre_finite_inputs.Facts]
    (a0 : FVec Ideal S8x512x1024 .f32) (a1 : IVec S8x512 32) (a2 : FVec Ideal S1024x20002 .f32)
    (a3 : FVec Ideal S1024x256 .f32) (a4 : FVec Ideal S256x20000 .f32) (a5 : FVec Ideal S1024x64 .f32)
    (a6 : FVec Ideal S64x20000 .f32)
    (h : Cert.Pre_finite_inputs.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, 0 ≤ (a1 i).toInt ∧ (a1 i).toInt < 60000) := by
  have h0 := congrFun h ix0
  dsimp only [fn, fn_part1, fn_part2] at h0
  obtain ⟨h1, hL⟩ := andi_apply_eq_one _ _ _ h0
  obtain ⟨h2, h6⟩ := andi_apply_eq_one _ _ _ h1
  obtain ⟨h3, h5⟩ := andi_apply_eq_one _ _ _ h2
  obtain ⟨h4, h4'⟩ := andi_apply_eq_one _ _ _ h3
  obtain ⟨h5', hA3⟩ := andi_apply_eq_one _ _ _ h4
  obtain ⟨hA0, hA2⟩ := andi_apply_eq_one _ _ _ h5'
  refine ⟨all_real a0 _ _ _ hA0, all_real a2 _ _ _ hA2, all_real a3 _ _ _ hA3, all_real a4 _ _ _ h4',
    all_real a5 _ _ _ h5, all_real a6 _ _ _ h6, ?_⟩
  intro i
  have hi := Host.reduce_andi_all _ _ _ _ ix0 hL i
  obtain ⟨hge, hlt⟩ := andi_apply_eq_one _ _ _ hi
  have hge' : IntOp.cmpi .sge (a1 i) 0#32 = 1#1 := hge
  have hlt' : IntOp.cmpi .slt (a1 i) 60000#32 = 1#1 := hlt
  rw [IntOp.cmpi_sge] at hge'
  rw [IntOp.cmpi_slt] at hlt'
  exact ⟨by simpa using hge', by simpa using hlt'⟩

end Cert.PreDecode

end
-- ==== Proof.lean ====
import proofs.«427659_j7121055776931_3_alg».proof.Defs
import proofs.«427659_j7121055776931_3_alg».proof.Proof.Gen.Kernel
import proofs.«427659_j7121055776931_3_alg».proof.Proof.Gen.Kernel.Skeleton
import proofs.«427659_j7121055776931_3_alg».proof.Proof.Gen.Kernel.Launch
import proofs.«427659_j7121055776931_3_alg».proof.Proof.Gen.Kernel.Regions
import proofs.«427659_j7121055776931_3_alg».proof.Proof.Gen.Kernel.Points
import proofs.«427659_j7121055776931_3_alg».proof.Proof.Gen.KernelIdeal
import proofs.«427659_j7121055776931_3_alg».proof.Proof.Gen.KernelIdeal.Skeleton
import proofs.«427659_j7121055776931_3_alg».proof.Proof.Gen.KernelIdeal.Launch
import proofs.«427659_j7121055776931_3_alg».proof.Proof.Gen.KernelIdeal.Regions
import proofs.«427659_j7121055776931_3_alg».proof.Proof.Gen.KernelIdeal.Points
import proofs.«427659_j7121055776931_3_alg».proof.Proof.Gen.ReferenceIdeal
import proofs.«427659_j7121055776931_3_alg».proof.Proof.RefRead
import proofs.«427659_j7121055776931_3_alg».proof.Proof.RefStage
import proofs.«427659_j7121055776931_3_alg».proof.Proof.Gen.Pre_finite_inputs
import proofs.«427659_j7121055776931_3_alg».proof.Proof.KernelFrame
import proofs.«427659_j7121055776931_3_alg».proof.Proof.Ideal.Run
import proofs.«427659_j7121055776931_3_alg».proof.Proof.Ideal.Final
import proofs.«427659_j7121055776931_3_alg».proof.Proof.Reference
import proofs.«427659_j7121055776931_3_alg».proof.Proof.Bridge
import proofs.«427659_j7121055776931_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

-- The three frames: each program runs to its end and leaves its seven arguments as launched.
theorem frame_k : Cert.frame_Kernel := fun m ρ _ => Cert.Kernel.Hand.frame m ρ

section Ideal
open Cert.KernelIdeal Cert.KernelIdeal.Hand

theorem arg_of_run (m : (ℓ : Loc nD τ sig) → Buf (Elt Ideal) ℓ) (c : Dev nD) (s : MemSt nD τ sig (Elt Ideal))
    (h : ∀ b ∈ Pipeline.ucRefs τ sig, s.mem (((c : Thread nD τ)).1, b) = X15 m c b) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6) :=
  have ha := X15_arg m c
  ⟨(h _ (mem_uc main_arg0 (by decide))).trans ha.1, (h _ (mem_uc main_arg1 (by decide))).trans ha.2.1,
   (h _ (mem_uc main_arg2 (by decide))).trans ha.2.2.1, (h _ (mem_uc main_arg3 (by decide))).trans ha.2.2.2.1,
   (h _ (mem_uc main_arg4 (by decide))).trans ha.2.2.2.2.1, (h _ (mem_uc main_arg5 (by decide))).trans ha.2.2.2.2.2.1,
   (h _ (mem_uc main_arg6 (by decide))).trans ha.2.2.2.2.2.2⟩

theorem frame_ki : Cert.frame_KernelIdeal := fun m ρ _ =>
  (θ_run Cert.KernelIdeal.defs _ _).mono (fun r h c => arg_of_run m c r.2 (h c)) (run_all m ρ)

end Ideal

theorem frame_ri : Cert.frame_ReferenceIdeal := fun m ρ _ =>
  (θ_run Cert.ReferenceIdeal.defs _ _).mono (fun _ h c => (h c).2) (Cert.ReferenceIdeal.Stage.run (F := Ideal) m ρ)

-- The kernel's stand-in for −∞ is named −∞ by the certificate's table, at each of its six sites.
theorem neg_big : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal := ⟨neg_big, neg_big, neg_big, neg_big, neg_big, neg_big⟩

section Algebraic
open Cert.KernelIdeal Cert.KernelIdeal.Hand

-- On real arrays and labels in [0, 60000) the kernel's tiled result and the reference's stable result are one specification's two forms, which agree.
theorem algebraic : Cert.algebraic_KernelIdeal_ReferenceIdeal := by
  intro m ρ m' ρ' hpre hagree
  refine ⟨fun c => resA m c, ?_, ?_⟩
  · exact (θ_run Cert.KernelIdeal.defs _ _).mono
      (fun r h c => ⟨h c _ (mem_uc main_v41 (by decide)), arg_of_run m c r.2 (h c)⟩) (run_all m ρ)
  · refine (θ_run Cert.ReferenceIdeal.defs _ _).mono (fun r h c => ⟨(h c).1.trans ?_, (h c).2⟩)
      (Cert.ReferenceIdeal.Stage.run (F := Ideal) m' ρ')
    obtain ⟨f0, f2, f3, f4, f5, f6, hl⟩ := Cert.PreDecode.decode _ _ _ _ _ _ _ (hpre c)
    obtain ⟨e0, e1, e2, e3, e4, e5, e6⟩ := hagree c
    have hl' : ∀ i, 0 ≤ (m' ((c.tc : Thread Cert.ReferenceIdeal.nD Cert.ReferenceIdeal.τ).loc Cert.ReferenceIdeal.main_arg1) i).toInt
        ∧ (m' ((c.tc : Thread Cert.ReferenceIdeal.nD Cert.ReferenceIdeal.τ).loc Cert.ReferenceIdeal.main_arg1) i).toInt < 60000 := by
      rw [e1]; exact hl
    funext i
    obtain ⟨a, rfl⟩ : ∃ a : Fin 12288, i = ix1 a := ⟨i 0, eq_ix1 i⟩
    show Cert.ReferenceIdeal.ReadP.val_main_v42 (F := Ideal) _ _ _ _ _ _ _ (ix1 a) = resA m c (ix1 a)
    rw [Cert.ReferenceIdeal.RefValue.result_val _ _ _ _ _ _ _ hl' a, kernel_result m c hl a, e0, e1, e2, e3, e4, e5, e6]
    exact (congrFun (Cert.Spec.outKer_paramsOf _ _ _ _ _ _ _ f0 f2 f3 f4 f5 f6 hl) a).symm

end Algebraic

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
